-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v279) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384x64 : Shape := ⟨2, ![16384, 64]⟩
abbrev S400x4096 : Shape := ⟨2, ![400, 4096]⟩
abbrev S400 : Shape := ⟨1, ![400]⟩
abbrev S64x400 : Shape := ⟨2, ![64, 400]⟩
abbrev S64 : Shape := ⟨1, ![64]⟩
abbrev S3520x400 : Shape := ⟨2, ![3520, 400]⟩
abbrev S3520 : Shape := ⟨1, ![3520]⟩
abbrev S400x64 : Shape := ⟨2, ![400, 64]⟩
abbrev S4096x400 : Shape := ⟨2, ![4096, 400]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S400x4096 : S_.BroadcastsInDim S400x4096 (![] : Fin 0 → Fin S400x4096.rank)
  reducesTo_S400x4096_S_d0_1 : S400x4096.ReducesTo [0, 1] S_
  bcast_S_S400 : S_.BroadcastsInDim S400 (![] : Fin 0 → Fin S400.rank)
  reducesTo_S400_S_d0 : S400.ReducesTo [0] S_
  bcast_S_S64x400 : S_.BroadcastsInDim S64x400 (![] : Fin 0 → Fin S64x400.rank)
  reducesTo_S64x400_S_d0_1 : S64x400.ReducesTo [0, 1] S_
  bcast_S_S64 : S_.BroadcastsInDim S64 (![] : Fin 0 → Fin S64.rank)
  reducesTo_S64_S_d0 : S64.ReducesTo [0] S_
  bcast_S_S3520x400 : S_.BroadcastsInDim S3520x400 (![] : Fin 0 → Fin S3520x400.rank)
  reducesTo_S3520x400_S_d0_1 : S3520x400.ReducesTo [0, 1] S_
  bcast_S_S3520 : S_.BroadcastsInDim S3520 (![] : Fin 0 → Fin S3520.rank)
  reducesTo_S3520_S_d0 : S3520.ReducesTo [0] S_
  bcast_S_S400x64 : S_.BroadcastsInDim S400x64 (![] : Fin 0 → Fin S400x64.rank)
  reducesTo_S400x64_S_d0_1 : S400x64.ReducesTo [0, 1] S_
  bcast_S_S4096x400 : S_.BroadcastsInDim S4096x400 (![] : Fin 0 → Fin S4096x400.rank)
  reducesTo_S4096x400_S_d0_1 : S4096x400.ReducesTo [0, 1] S_
  bcast_S_S4096 : S_.BroadcastsInDim S4096 (![] : Fin 0 → Fin S4096.rank)
  reducesTo_S4096_S_d0 : S4096.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S400 .f32) (main_arg12 : FVec F S4096x400 .f32) (main_arg13 : FVec F S4096 .f32) (main_v48 : IVec S_ 1) (main_v49 : FVec F S400x64 .f32) (main_v50 : FVec F S400x64 .f32) : IVec S_ 1 :=
  let main_v51 : IVec S400x64 1 := cmpf .olt main_v49 main_v50
  let main_c_19 : IVec S_ 1 := constantI S_ 1 1#1
  let main_v52 : IVec S_ 1 := (fun x v => Host.reduce IntOp.andi x v reducesTo_S400x64_S_d0_1 h_S_) main_v51 main_c_19
  let main_v53 : IVec S_ 1 := andi main_v48 main_v52
  let main_v54 : FVec F S400 .f32 := Host.absf main_arg11
  let main_cst_20 : FVec F S_ .f32 := constant S_ .f32 0x7F800000#32
  let main_v55 : FVec F S400 .f32 := broadcastInDim S400 ![] bcast_S_S400 main_cst_20
  let main_v56 : IVec S400 1 := cmpf .olt main_v54 main_v55
  let main_c_21 : IVec S_ 1 := constantI S_ 1 1#1
  let main_v57 : IVec S_ 1 := (fun x v => Host.reduce IntOp.andi x v reducesTo_S400_S_d0 h_S_) main_v56 main_c_21
  let main_v58 : IVec S_ 1 := andi main_v53 main_v57
  let main_v59 : FVec F S4096x400 .f32 := Host.absf main_arg12
  let main_cst_22 : FVec F S_ .f32 := constant S_ .f32 0x7F800000#32
  let main_v60 : FVec F S4096x400 .f32 := broadcastInDim S4096x400 ![] bcast_S_S4096x400 main_cst_22
  let main_v61 : IVec S4096x400 1 := cmpf .olt main_v59 main_v60
  let main_c_23 : IVec S_ 1 := constantI S_ 1 1#1
  let main_v62 : IVec S_ 1 := (fun x v => Host.reduce IntOp.andi x v reducesTo_S4096x400_S_d0_1 h_S_) main_v61 main_c_23
  let main_v63 : IVec S_ 1 := andi main_v58 main_v62
  let main_v64 : FVec F S4096 .f32 := Host.absf main_arg13
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_v63 main_v67

def fn_part2 {F : FTy → Type} [FloatOps F] (main_arg7 : FVec F S64 .f32) (main_arg8 : FVec F S3520x400 .f32) (main_arg9 : FVec F S3520 .f32) (main_arg10 : FVec F S400x64 .f32) (main_arg11 : FVec F S400 .f32) (main_arg12 : FVec F S4096x400 .f32) (main_arg13 : FVec F S4096 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S3520x400 .f32 := Host.absf main_arg8
  let main_cst_14 : FVec F S_ .f32 := constant S_ .f32 0x7F800000#32
  let main_v40 : FVec F S3520x400 .f32 := broadcastInDim S3520x400 ![] bcast_S_S3520x400 main_cst_14
  let main_v41 : IVec S3520x400 1 := cmpf .olt main_v39 main_v40
  let main_c_15 : IVec S_ 1 := constantI S_ 1 1#1
  let main_v42 : IVec S_ 1 := (fun x v => Host.reduce IntOp.andi x v reducesTo_S3520x400_S_d0_1 h_S_) main_v41 main_c_15
  let main_v43 : IVec S_ 1 := andi main_v38 main_v42
  let main_v44 : FVec F S3520 .f32 := Host.absf main_arg9
  let main_cst_16 : FVec F S_ .f32 := constant S_ .f32 0x7F800000#32
  let main_v45 : FVec F S3520 .f32 := broadcastInDim S3520 ![] bcast_S_S3520 main_cst_16
  let main_v46 : IVec S3520 1 := cmpf .olt main_v44 main_v45
  let main_c_17 : IVec S_ 1 := constantI S_ 1 1#1
  let main_v47 : IVec S_ 1 := (fun x v => Host.reduce IntOp.andi x v reducesTo_S3520_S_d0 h_S_) main_v46 main_c_17
  let main_v48 : IVec S_ 1 := andi main_v43 main_v47
  let main_v49 : FVec F S400x64 .f32 := Host.absf main_arg10
  let main_cst_18 : FVec F S_ .f32 := constant S_ .f32 0x7F800000#32
  let main_v50 : FVec F S400x64 .f32 := broadcastInDim S400x64 ![] bcast_S_S400x64 main_cst_18
  fn_part3 (F := F) main_arg11 main_arg12 main_arg13 main_v48 main_v49 main_v50

def fn_part1 {F : FTy → Type} [FloatOps F] (main_arg4 : FVec F S64x400 .f32) (main_arg5 : FVec F S64 .f32) (main_arg6 : FVec F S64x400 .f32) (main_arg7 : FVec F S64 .f32) (main_arg8 : FVec F S3520x400 .f32) (main_arg9 : FVec F S3520 .f32) (main_arg10 : FVec F S400x64 .f32) (main_arg11 : FVec F S400 .f32) (main_arg12 : FVec F S4096x400 .f32) (main_arg13 : FVec F S4096 .f32) (main_v13 : IVec S_ 1) (main_v16 : IVec S400 1) : IVec S_ 1 :=
  let main_c_5 : IVec S_ 1 := constantI S_ 1 1#1
  let main_v17 : IVec S_ 1 := (fun x v => Host.reduce IntOp.andi x v reducesTo_S400_S_d0 h_S_) main_v16 main_c_5
  let main_v18 : IVec S_ 1 := andi main_v13 main_v17
  let main_v19 : FVec F S64x400 .f32 := Host.absf main_arg4
  let main_cst_6 : FVec F S_ .f32 := constant S_ .f32 0x7F800000#32
  let main_v20 : FVec F S64x400 .f32 := broadcastInDim S64x400 ![] bcast_S_S64x400 main_cst_6
  let main_v21 : IVec S64x400 1 := cmpf .olt main_v19 main_v20
  let main_c_7 : IVec S_ 1 := constantI S_ 1 1#1
  let main_v22 : IVec S_ 1 := (fun x v => Host.reduce IntOp.andi x v reducesTo_S64x400_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x400 .f32 := Host.absf main_arg6
  let main_cst_10 : FVec F S_ .f32 := constant S_ .f32 0x7F800000#32
  let main_v30 : FVec F S64x400 .f32 := broadcastInDim S64x400 ![] bcast_S_S64x400 main_cst_10
  let main_v31 : IVec S64x400 1 := cmpf .olt main_v29 main_v30
  let main_c_11 : IVec S_ 1 := constantI S_ 1 1#1
  let main_v32 : IVec S_ 1 := (fun x v => Host.reduce IntOp.andi x v reducesTo_S64x400_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x4096 .f32) (main_arg1 : FVec F S16384x64 .f32) (main_arg2 : FVec F S400x4096 .f32) (main_arg3 : FVec F S400 .f32) (main_arg4 : FVec F S64x400 .f32) (main_arg5 : FVec F S64 .f32) (main_arg6 : FVec F S64x400 .f32) (main_arg7 : FVec F S64 .f32) (main_arg8 : FVec F S3520x400 .f32) (main_arg9 : FVec F S3520 .f32) (main_arg10 : FVec F S400x64 .f32) (main_arg11 : FVec F S400 .f32) (main_arg12 : FVec F S4096x400 .f32) (main_arg13 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S400x4096 .f32 := Host.absf main_arg2
  let main_cst_2 : FVec F S_ .f32 := constant S_ .f32 0x7F800000#32
  let main_v10 : FVec F S400x4096 .f32 := broadcastInDim S400x4096 ![] bcast_S_S400x4096 main_cst_2
  let main_v11 : IVec S400x4096 1 := cmpf .olt main_v9 main_v10
  let main_c_3 : IVec S_ 1 := constantI S_ 1 1#1
  let main_v12 : IVec S_ 1 := (fun x v => Host.reduce IntOp.andi x v reducesTo_S400x4096_S_d0_1 h_S_) main_v11 main_c_3
  let main_v13 : IVec S_ 1 := andi main_v8 main_v12
  let main_v14 : FVec F S400 .f32 := Host.absf main_arg3
  let main_cst_4 : FVec F S_ .f32 := constant S_ .f32 0x7F800000#32
  let main_v15 : FVec F S400 .f32 := broadcastInDim S400 ![] bcast_S_S400 main_cst_4
  let main_v16 : IVec S400 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x4096 : Shape := ⟨2, ![16384, 4096]⟩
abbrev S16384x64 : Shape := ⟨2, ![16384, 64]⟩
abbrev S400x4096 : Shape := ⟨2, ![400, 4096]⟩
abbrev S400 : Shape := ⟨1, ![400]⟩
abbrev S64x400 : Shape := ⟨2, ![64, 400]⟩
abbrev S64 : Shape := ⟨1, ![64]⟩
abbrev S3520x400 : Shape := ⟨2, ![3520, 400]⟩
abbrev S3520 : Shape := ⟨1, ![3520]⟩
abbrev S400x64 : Shape := ⟨2, ![400, 64]⟩
abbrev S4096x400 : Shape := ⟨2, ![4096, 400]⟩
abbrev S4096 : Shape := ⟨1, ![4096]⟩
abbrev S1x3520 : Shape := ⟨2, ![1, 3520]⟩
abbrev S256x4096 : Shape := ⟨2, ![256, 4096]⟩
abbrev S256x64 : Shape := ⟨2, ![256, 64]⟩
abbrev S256x400 : Shape := ⟨2, ![256, 400]⟩
abbrev S1x400 : Shape := ⟨2, ![1, 400]⟩
abbrev S1x64 : Shape := ⟨2, ![1, 64]⟩
abbrev S400x3520 : Shape := ⟨2, ![400, 3520]⟩
abbrev S256x3520 : Shape := ⟨2, ![256, 3520]⟩
abbrev S512x64 : Shape := ⟨2, ![512, 64]⟩
abbrev S512x4096 : Shape := ⟨2, ![512, 4096]⟩
abbrev S440 : Shape := ⟨1, ![440]⟩
abbrev S20x20 : Shape := ⟨2, ![20, 20]⟩
abbrev S20 : Shape := ⟨1, ![20]⟩
abbrev S20x1 : Shape := ⟨2, ![20, 1]⟩
abbrev S512x20 : Shape := ⟨2, ![512, 20]⟩
abbrev S1x20 : Shape := ⟨2, ![1, 20]⟩
abbrev S512x44 : Shape := ⟨2, ![512, 44]⟩
abbrev S512x400 : Shape := ⟨2, ![512, 400]⟩
abbrev S1x4096 : Shape := ⟨2, ![1, 4096]⟩

abbrev nBuf : Space → Nat
  | .hbm => 18
  | .vmem => 28
  | .smem => 0
  | _ => 0

abbrev bufTy : (tb : Table) → Fin (tcTables nBuf tb) → BufTy
  | .hbm, ⟨0, _⟩ => ⟨S16384x4096, .f32⟩
  | .hbm, ⟨1, _⟩ => ⟨S16384x64, .f32⟩
  | .hbm, ⟨2, _⟩ => ⟨S400x4096, .f32⟩
  | .hbm, ⟨3, _⟩ => ⟨S400, .f32⟩
  | .hbm, ⟨4, _⟩ => ⟨S64x400, .f32⟩
  | .hbm, ⟨5, _⟩ => ⟨S64, .f32⟩
  | .hbm, ⟨6, _⟩ => ⟨S64x400, .f32⟩
  | .hbm, ⟨7, _⟩ => ⟨S64, .f32⟩
  | .hbm, ⟨8, _⟩ => ⟨S3520x400, .f32⟩
  | .hbm, ⟨9, _⟩ => ⟨S3520, .f32⟩
  | .hbm, ⟨10, _⟩ => ⟨S400x64, .f32⟩
  | .hbm, ⟨11, _⟩ => ⟨S400, .f32⟩
  | .hbm, ⟨12, _⟩ => ⟨S4096x400, .f32⟩
  | .hbm, ⟨13, _⟩ => ⟨S4096, .f32⟩
  | .hbm, ⟨14, _⟩ => ⟨S16384x64, .f32⟩
  | .hbm, ⟨15, _⟩ => ⟨S16384x64, .f32⟩
  | .hbm, ⟨16, _⟩ => ⟨S1x3520, .f32⟩
  | .hbm, ⟨17, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S400x4096, .f32⟩
  | .local _ .vmem, ⟨3, _⟩ => ⟨S400, .f32⟩
  | .local _ .vmem, ⟨4, _⟩ => ⟨S64x400, .f32⟩
  | .local _ .vmem, ⟨5, _⟩ => ⟨S64, .f32⟩
  | .local _ .vmem, ⟨6, _⟩ => ⟨S64x400, .f32⟩
  | .local _ .vmem, ⟨7, _⟩ => ⟨S64, .f32⟩
  | .local _ .vmem, ⟨8, _⟩ => ⟨S3520x400, .f32⟩
  | .local _ .vmem, ⟨9, _⟩ => ⟨S3520, .f32⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S256x64, .f32⟩
  | .local _ .vmem, ⟨14, _⟩ => ⟨S1x3520, .f32⟩
  | .local _ .vmem, ⟨15, _⟩ => ⟨S512x64, .f32⟩
  | .local _ .vmem, ⟨16, _⟩ => ⟨S512x64, .f32⟩
  | .local _ .vmem, ⟨17, _⟩ => ⟨S512x64, .f32⟩
  | .local _ .vmem, ⟨18, _⟩ => ⟨S512x64, .f32⟩
  | .local _ .vmem, ⟨19, _⟩ => ⟨S512x64, .f32⟩
  | .local _ .vmem, ⟨20, _⟩ => ⟨S512x64, .f32⟩
  | .local _ .vmem, ⟨21, _⟩ => ⟨S1x3520, .f32⟩
  | .local _ .vmem, ⟨22, _⟩ => ⟨S400x64, .f32⟩
  | .local _ .vmem, ⟨23, _⟩ => ⟨S400, .f32⟩
  | .local _ .vmem, ⟨24, _⟩ => ⟨S4096x400, .f32⟩
  | .local _ .vmem, ⟨25, _⟩ => ⟨S4096, .f32⟩
  | .local _ .vmem, ⟨26, _⟩ => ⟨S512x4096, .f32⟩
  | .local _ .vmem, ⟨27, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x400 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3520x400 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3520 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x3520 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x3520 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S400x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S400 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4096x400 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4096 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  inb_S1x3520_S1x3520_0_0 : ∀ a, (![0, 0] : Fin 2 → Nat) a + S1x3520.size a ≤ S1x3520.size a
  h_S1x3520 : 0 < S1x3520.numel
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S400x4096_S400x4096_0_0 : ∀ a, (![0, 0] : Fin 2 → Nat) a + S400x4096.size a ≤ S400x4096.size a
  h_S400x4096 : 0 < S400x4096.numel
  transposes_S400x4096_p1_0_S4096x400 : S400x4096.Transposes [1, 0] S4096x400
  inb_S400_S400_0 : ∀ a, (![0] : Fin 1 → Nat) a + S400.size a ≤ S400.size a
  h_S400 : 0 < S400.numel
  shapeCasts_S400_S1x400 : S400.ShapeCasts S1x400
  broadcasts_S1x400_S256x400 : S1x400.Broadcasts S256x400
  inb_S64x400_S64x400_0_0 : ∀ a, (![0, 0] : Fin 2 → Nat) a + S64x400.size a ≤ S64x400.size a
  h_S64x400 : 0 < S64x400.numel
  transposes_S64x400_p1_0_S400x64 : S64x400.Transposes [1, 0] S400x64
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  inb_S3520x400_S3520x400_0_0 : ∀ a, (![0, 0] : Fin 2 → Nat) a + S3520x400.size a ≤ S3520x400.size a
  h_S3520x400 : 0 < S3520x400.numel
  transposes_S3520x400_p1_0_S400x3520 : S3520x400.Transposes [1, 0] S400x3520
  inb_S3520_S3520_0 : ∀ a, (![0] : Fin 1 → Nat) a + S3520.size a ≤ S3520.size a
  h_S3520 : 0 < S3520.numel
  shapeCasts_S3520_S1x3520 : S3520.ShapeCasts S1x3520
  broadcasts_S1x3520_S256x3520 : S1x3520.Broadcasts S256x3520
  reduces_S256x3520_S3520 : S256x3520.Reduces [0] S3520
  shapeCasts_S1x3520_S1x3520 : S1x3520.ShapeCasts S1x3520
  inb_S512x64_S512x64_0_0 : ∀ a, (![0, 0] : Fin 2 → Nat) a + S512x64.size a ≤ S512x64.size a
  h_S512x64 : 0 < S512x64.numel
  shapeCasts_S512x64_S512x64 : S512x64.ShapeCasts S512x64
  shapeCasts_S1x3520_S3520 : S1x3520.ShapeCasts S3520
  slices_S3520_o0_S440 : S3520.Slices ![0] S440
  slices_S440_o0_S400 : S440.Slices ![0] S400
  shapeCasts_S400_S20x20 : S400.ShapeCasts S20x20
  iota_S20x20_d0_w32 : S20x20.Iotas .tc 32 [0]
  iota_S20x20_d1_w32 : S20x20.Iotas .tc 32 [1]
  transposes_S20x20_p1_0_S20x20 : S20x20.Transposes [1, 0] S20x20
  slices_S440_o400_S20 : S440.Slices ![400] S20
  slices_S440_o420_S20 : S440.Slices ![420] S20
  shapeCasts_S20_S20x1 : S20.ShapeCasts S20x1
  shapeCasts_S20x1_S20x1 : S20x1.ShapeCasts S20x1
  broadcasts_S20x1_S20x20 : S20x1.Broadcasts S20x20
  slices_S512x64_o0_0_S512x20 : S512x64.Slices ![0, 0] S512x20
  shapeCasts_S20_S1x20 : S20.ShapeCasts S1x20
  broadcasts_S1x20_S512x20 : S1x20.Broadcasts S512x20
  concatenates_S512x20_S512x44_S512x64_d1 : Shape.Concatenates [S512x20, S512x44] S512x64 1
  slices_S3520_o440_S440 : S3520.Slices ![440] S440
  slices_S3520_o880_S440 : S3520.Slices ![880] S440
  slices_S3520_o1320_S440 : S3520.Slices ![1320] S440
  slices_S3520_o1760_S440 : S3520.Slices ![1760] S440
  slices_S3520_o2200_S440 : S3520.Slices ![2200] S440
  slices_S3520_o2640_S440 : S3520.Slices ![2640] S440
  slices_S3520_o3080_S440 : S3520.Slices ![3080] S440
  inb_S400x64_S400x64_0_0 : ∀ a, (![0, 0] : Fin 2 → Nat) a + S400x64.size a ≤ S400x64.size a
  h_S400x64 : 0 < S400x64.numel
  transposes_S400x64_p1_0_S64x400 : S400x64.Transposes [1, 0] S64x400
  broadcasts_S1x400_S512x400 : S1x400.Broadcasts S512x400
  inb_S4096x400_S4096x400_0_0 : ∀ a, (![0, 0] : Fin 2 → Nat) a + S4096x400.size a ≤ S4096x400.size a
  h_S4096x400 : 0 < S4096x400.numel
  transposes_S4096x400_p1_0_S400x4096 : S4096x400.Transposes [1, 0] S400x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  dot_S256x4096_S4096x400_S256x400_1_0_0_1_n_n_wf : DotDims.WF S256x4096 S4096x400 S256x400 [1] [0] [0] [1] [] []
  dot_S256x400_S400x64_S256x64_1_0_0_1_n_n_wf : DotDims.WF S256x400 S400x64 S256x64 [1] [0] [0] [1] [] []
  dot_S256x400_S400x3520_S256x3520_1_0_0_1_n_n_wf : DotDims.WF S256x400 S400x3520 S256x3520 [1] [0] [0] [1] [] []
  dot_S512x20_S20x20_S512x20_1_0_0_1_n_n_wf : DotDims.WF S512x20 S20x20 S512x20 [1] [0] [0] [1] [] []
  dot_S512x64_S64x400_S512x400_1_0_0_1_n_n_wf : DotDims.WF S512x64 S64x400 S512x400 [1] [0] [0] [1] [] []
  dot_S512x400_S400x4096_S512x4096_1_0_0_1_n_n_wf : DotDims.WF S512x400 S400x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S400x4096.size a ≤ S400x4096.size a
  hwx0_1 : ∀ i : grid0.Coords, EltTy.bits .f32 = 32 ∨ (Rect.block (s := S400x4096) S400x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400.size a ≤ S400.size a
  hwx0_2 : ∀ i : grid0.Coords, EltTy.bits .f32 = 32 ∨ (Rect.block (s := S400) S400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x400.size a ≤ S64x400.size a
  hwx0_3 : ∀ i : grid0.Coords, EltTy.bits .f32 = 32 ∨ (Rect.block (s := S64x400) S64x400.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x400.size a ≤ S64x400.size a
  hwx0_5 : ∀ i : grid0.Coords, EltTy.bits .f32 = 32 ∨ (Rect.block (s := S64x400) S64x400.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3520x400.size a ≤ S3520x400.size a
  hwx0_7 : ∀ i : grid0.Coords, EltTy.bits .f32 = 32 ∨ (Rect.block (s := S3520x400) S3520x400.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3520.size a ≤ S3520.size a
  hwx0_8 : ∀ i : grid0.Coords, EltTy.bits .f32 = 32 ∨ (Rect.block (s := S3520) S3520.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x64.size a ≤ S16384x64.size a
  hwx0_9 : ∀ i : grid0.Coords, EltTy.bits .f32 = 32 ∨ (Rect.block (s := S16384x64) S256x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x64.size a ≤ S16384x64.size a
  hwx0_10 : ∀ i : grid0.Coords, EltTy.bits .f32 = 32 ∨ (Rect.block (s := S16384x64) S256x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x3520.size a ≤ S1x3520.size a
  hwx0_11 : ∀ i : grid0.Coords, EltTy.bits .f32 = 32 ∨ (Rect.block (s := S1x3520) S1x3520.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S16384x64.size a
  hwx1_0 : ∀ i : grid1.Coords, EltTy.bits .f32 = 32 ∨ (Rect.block (s := S16384x64) S512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S16384x64.size a
  hwx1_1 : ∀ i : grid1.Coords, EltTy.bits .f32 = 32 ∨ (Rect.block (s := S16384x64) S512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S16384x64.size a
  hwx1_2 : ∀ i : grid1.Coords, EltTy.bits .f32 = 32 ∨ (Rect.block (s := S16384x64) S512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x3520.size a ≤ S1x3520.size a
  hwx1_3 : ∀ i : grid1.Coords, EltTy.bits .f32 = 32 ∨ (Rect.block (s := S1x3520) S1x3520.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S400x64.size a
  hwx1_4 : ∀ i : grid1.Coords, EltTy.bits .f32 = 32 ∨ (Rect.block (s := S400x64) S400x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S400.size a ≤ S400.size a
  hwx1_5 : ∀ i : grid1.Coords, EltTy.bits .f32 = 32 ∨ (Rect.block (s := S400) S400.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4096x400.size a ≤ S4096x400.size a
  hwx1_6 : ∀ i : grid1.Coords, EltTy.bits .f32 = 32 ∨ (Rect.block (s := S4096x400) S4096x400.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4096.size a ≤ S4096.size a
  hwx1_7 : ∀ i : grid1.Coords, EltTy.bits .f32 = 32 ∨ (Rect.block (s := S4096) S4096.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x4096.size a ≤ S16384x4096.size a
  hwx1_8 : ∀ i : grid1.Coords, EltTy.bits .f32 = 32 ∨ (Rect.block (s := S16384x4096) S512x4096.size (cc1_transform_8 i) (hinb1_8 i)).WholeWords (EltTy.packing .f32)

variable [Facts₀]

def dot_S256x4096_S4096x400_S256x400_1_0_0_1_n_n : DotDims S256x4096 S4096x400 S256x400 where
  lhsContracting := [1]
  rhsContracting := [0]
  lhsNonContracting := [0]
  rhsNonContracting := [1]
  lhsBatch := []
  rhsBatch := []
  wf := dot_S256x4096_S4096x400_S256x400_1_0_0_1_n_n_wf
def dot_S256x400_S400x64_S256x64_1_0_0_1_n_n : DotDims S256x400 S400x64 S256x64 where
  lhsContracting := [1]
  rhsContracting := [0]
  lhsNonContracting := [0]
  rhsNonContracting := [1]
  lhsBatch := []
  rhsBatch := []
  wf := dot_S256x400_S400x64_S256x64_1_0_0_1_n_n_wf
def dot_S256x400_S400x3520_S256x3520_1_0_0_1_n_n : DotDims S256x400 S400x3520 S256x3520 where
  lhsContracting := [1]
  rhsContracting := [0]
  lhsNonContracting := [0]
  rhsNonContracting := [1]
  lhsBatch := []
  rhsBatch := []
  wf := dot_S256x400_S400x3520_S256x3520_1_0_0_1_n_n_wf
def dot_S512x20_S20x20_S512x20_1_0_0_1_n_n : DotDims S512x20 S20x20 S512x20 where
  lhsContracting := [1]
  rhsContracting := [0]
  lhsNonContracting := [0]
  rhsNonContracting := [1]
  lhsBatch := []
  rhsBatch := []
  wf := dot_S512x20_S20x20_S512x20_1_0_0_1_n_n_wf
def dot_S512x64_S64x400_S512x400_1_0_0_1_n_n : DotDims S512x64 S64x400 S512x400 where
  lhsContracting := [1]
  rhsContracting := [0]
  lhsNonContracting := [0]
  rhsNonContracting := [1]
  lhsBatch := []
  rhsBatch := []
  wf := dot_S512x64_S64x400_S512x400_1_0_0_1_n_n_wf
def dot_S512x400_S400x4096_S512x4096_1_0_0_1_n_n : DotDims S512x400 S400x4096 S512x4096 where
  lhsContracting := [1]
  rhsContracting := [0]
  lhsNonContracting := [0]
  rhsNonContracting := [1]
  lhsBatch := []
  rhsBatch := []
  wf := dot_S512x400_S400x4096_S512x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S400x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x400.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S3520x400.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S3520.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S256x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S256x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S1x3520.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v0_0) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_2) S1x3520.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S400x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S400.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S4096x400.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S4096.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v1) S512x4096.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S16384x4096 : Shape := ⟨2, ![16384, 4096]⟩
abbrev S16384x64 : Shape := ⟨2, ![16384, 64]⟩
abbrev S400x4096 : Shape := ⟨2, ![400, 4096]⟩
abbrev S400 : Shape := ⟨1, ![400]⟩
abbrev S64x400 : Shape := ⟨2, ![64, 400]⟩
abbrev S64 : Shape := ⟨1, ![64]⟩
abbrev S3520x400 : Shape := ⟨2, ![3520, 400]⟩
abbrev S3520 : Shape := ⟨1, ![3520]⟩
abbrev S400x64 : Shape := ⟨2, ![400, 64]⟩
abbrev S4096x400 : Shape := ⟨2, ![4096, 400]⟩
abbrev S4096 : Shape := ⟨1, ![4096]⟩
abbrev S16384x400 : Shape := ⟨2, ![16384, 400]⟩
abbrev S1x400 : Shape := ⟨2, ![1, 400]⟩
abbrev S_ : Shape := ⟨0, ![]⟩
abbrev S1x64 : Shape := ⟨2, ![1, 64]⟩
abbrev S400x3520 : Shape := ⟨2, ![400, 3520]⟩
abbrev S16384x3520 : Shape := ⟨2, ![16384, 3520]⟩
abbrev S1x3520 : Shape := ⟨2, ![1, 3520]⟩
abbrev S440 : Shape := ⟨1, ![440]⟩
abbrev S20x20 : Shape := ⟨2, ![20, 20]⟩
abbrev S20 : Shape := ⟨1, ![20]⟩
abbrev S20x1 : Shape := ⟨2, ![20, 1]⟩
abbrev S16384x20 : Shape := ⟨2, ![16384, 20]⟩
abbrev S1x20 : Shape := ⟨2, ![1, 20]⟩
abbrev S1 : Shape := ⟨1, ![1]⟩
abbrev S1x4096 : Shape := ⟨2, ![1, 4096]⟩

abbrev nBuf : Space → Nat
  | .hbm => 549
  | .vmem => 0
  | .smem => 0
  | _ => 0

abbrev hbmTy0_0 (i : Nat) : BufTy := match i % 128 with
  | 0 => ⟨S16384x4096, .f32⟩
  | 1 => ⟨S16384x64, .f32⟩
  | 2 => ⟨S400x4096, .f32⟩
  | 3 => ⟨S400, .f32⟩
  | 4 => ⟨S64x400, .f32⟩
  | 5 => ⟨S64, .f32⟩
  | 6 => ⟨S64x400, .f32⟩
  | 7 => ⟨S64, .f32⟩
  | 8 => ⟨S3520x400, .f32⟩
  | 9 => ⟨S3520, .f32⟩
  | 10 => ⟨S400x64, .f32⟩
  | 11 => ⟨S400, .f32⟩
  | 12 => ⟨S4096x400, .f32⟩
  | 13 => ⟨S4096, .f32⟩
  | 14 => ⟨S4096x400, .f32⟩
  | 15 => ⟨S16384x400, .f32⟩
  | 16 => ⟨S1x400, .f32⟩
  | 17 => ⟨S16384x400, .f32⟩
  | 18 => ⟨S16384x400, .f32⟩
  | 19 => ⟨S_, .f32⟩
  | 20 => ⟨S16384x400, .f32⟩
  | 21 => ⟨S16384x400, .f32⟩
  | 22 => ⟨S400x64, .f32⟩
  | 23 => ⟨S16384x64, .f32⟩
  | 24 => ⟨S1x64, .f32⟩
  | 25 => ⟨S16384x64, .f32⟩
  | 26 => ⟨S16384x64, .f32⟩
  | 27 => ⟨S400x64, .f32⟩
  | 28 => ⟨S16384x64, .f32⟩
  | 29 => ⟨S1x64, .f32⟩
  | 30 => ⟨S16384x64, .f32⟩
  | 31 => ⟨S16384x64, .f32⟩
  | 32 => ⟨S400x3520, .f32⟩
  | 33 => ⟨S16384x3520, .f32⟩
  | 34 => ⟨S1x3520, .f32⟩
  | 35 => ⟨S16384x3520, .f32⟩
  | 36 => ⟨S16384x3520, .f32⟩
  | 37 => ⟨S_, .f32⟩
  | 38 => ⟨S3520, .f32⟩
  | 39 => ⟨S_, .f32⟩
  | 40 => ⟨S3520, .f32⟩
  | 41 => ⟨S3520, .f32⟩
  | 42 => ⟨S_, .f32⟩
  | 43 => ⟨S16384x64, .f32⟩
  | 44 => ⟨S16384x64, .f32⟩
  | 45 => ⟨S16384x64, .f32⟩
  | 46 => ⟨S16384x64, .f32⟩
  | 47 => ⟨S16384x64, .f32⟩
  | 48 => ⟨S440, .f32⟩
  | 49 => ⟨S400, .f32⟩
  | 50 => ⟨S20x20, .f32⟩
  | 51 => ⟨S20x20, .i32⟩
  | 52 => ⟨S_, .i32⟩
  | 53 => ⟨S20x20, .i32⟩
  | 54 => ⟨S20x20, .i32⟩
  | 55 => ⟨S20x20, .i32⟩
  | 56 => ⟨S20x20, .i1⟩
  | 57 => ⟨S_, .f32⟩
  | 58 => ⟨S20x20, .f32⟩
  | 59 => ⟨S20x20, .f32⟩
  | 60 => ⟨S20x20, .i32⟩
  | 61 => ⟨S_, .i32⟩
  | 62 => ⟨S20x20, .i32⟩
  | 63 => ⟨S20x20, .i32⟩
  | 64 => ⟨S20x20, .i32⟩
  | 65 => ⟨S20x20, .i1⟩
  | 66 => ⟨S_, .f32⟩
  | 67 => ⟨S20x20, .f32⟩
  | 68 => ⟨S20x20, .f32⟩
  | 69 => ⟨S20x20, .f32⟩
  | 70 => ⟨S20, .f32⟩
  | 71 => ⟨S20, .f32⟩
  | 72 => ⟨S20x20, .i32⟩
  | 73 => ⟨S20x20, .i32⟩
  | 74 => ⟨S_, .i32⟩
  | 75 => ⟨S20x20, .i32⟩
  | 76 => ⟨S20x20, .i32⟩
  | 77 => ⟨S20x20, .i1⟩
  | 78 => ⟨S20x20, .f32⟩
  | 79 => ⟨S_, .f32⟩
  | 80 => ⟨S20x20, .f32⟩
  | 81 => ⟨S20x20, .f32⟩
  | 82 => ⟨S20x20, .f32⟩
  | 83 => ⟨S_, .f32⟩
  | 84 => ⟨S20, .f32⟩
  | 85 => ⟨S20x20, .i32⟩
  | 86 => ⟨S20x20, .i32⟩
  | 87 => ⟨S_, .i32⟩
  | 88 => ⟨S20x20, .i32⟩
  | 89 => ⟨S20x20, .i32⟩
  | 90 => ⟨S20x20, .i1⟩
  | 91 => ⟨S20x1, .f32⟩
  | 92 => ⟨S_, .f32⟩
  | 93 => ⟨S20x20, .f32⟩
  | 94 => ⟨S20x20, .f32⟩
  | 95 => ⟨S20x20, .f32⟩
  | 96 => ⟨S20x20, .f32⟩
  | 97 => ⟨S16384x20, .f32⟩
  | 98 => ⟨S20x20, .f32⟩
  | 99 => ⟨S16384x20, .f32⟩
  | 100 => ⟨S1x20, .f32⟩
  | 101 => ⟨S16384x20, .f32⟩
  | 102 => ⟨S16384x20, .f32⟩
  | 103 => ⟨S16384x20, .f32⟩
  | 104 => ⟨S20x20, .f32⟩
  | 105 => ⟨S16384x20, .f32⟩
  | 106 => ⟨S_, .i32⟩
  | 107 => ⟨S1, .i32⟩
  | 108 => ⟨S16384x64, .f32⟩
  | 109 => ⟨S440, .f32⟩
  | 110 => ⟨S400, .f32⟩
  | 111 => ⟨S20x20, .f32⟩
  | 112 => ⟨S20x20, .i32⟩
  | 113 => ⟨S_, .i32⟩
  | 114 => ⟨S20x20, .i32⟩
  | 115 => ⟨S20x20, .i32⟩
  | 116 => ⟨S20x20, .i32⟩
  | 117 => ⟨S20x20, .i1⟩
  | 118 => ⟨S_, .f32⟩
  | 119 => ⟨S20x20, .f32⟩
  | 120 => ⟨S20x20, .f32⟩
  | 121 => ⟨S20x20, .i32⟩
  | 122 => ⟨S_, .i32⟩
  | 123 => ⟨S20x20, .i32⟩
  | 124 => ⟨S20x20, .i32⟩
  | 125 => ⟨S20x20, .i32⟩
  | 126 => ⟨S20x20, .i1⟩
  | 127 => ⟨S_, .f32⟩
  | _ => ⟨S16384x4096, .f32⟩

abbrev hbmTy0_1 (i : Nat) : BufTy := match i % 128 with
  | 0 => ⟨S20x20, .f32⟩
  | 1 => ⟨S20x20, .f32⟩
  | 2 => ⟨S20x20, .f32⟩
  | 3 => ⟨S20, .f32⟩
  | 4 => ⟨S20, .f32⟩
  | 5 => ⟨S20x20, .i32⟩
  | 6 => ⟨S20x20, .i32⟩
  | 7 => ⟨S_, .i32⟩
  | 8 => ⟨S20x20, .i32⟩
  | 9 => ⟨S20x20, .i32⟩
  | 10 => ⟨S20x20, .i1⟩
  | 11 => ⟨S20x20, .f32⟩
  | 12 => ⟨S_, .f32⟩
  | 13 => ⟨S20x20, .f32⟩
  | 14 => ⟨S20x20, .f32⟩
  | 15 => ⟨S20x20, .f32⟩
  | 16 => ⟨S_, .f32⟩
  | 17 => ⟨S20, .f32⟩
  | 18 => ⟨S20x20, .i32⟩
  | 19 => ⟨S20x20, .i32⟩
  | 20 => ⟨S_, .i32⟩
  | 21 => ⟨S20x20, .i32⟩
  | 22 => ⟨S20x20, .i32⟩
  | 23 => ⟨S20x20, .i1⟩
  | 24 => ⟨S20x1, .f32⟩
  | 25 => ⟨S_, .f32⟩
  | 26 => ⟨S20x20, .f32⟩
  | 27 => ⟨S20x20, .f32⟩
  | 28 => ⟨S20x20, .f32⟩
  | 29 => ⟨S20x20, .f32⟩
  | 30 => ⟨S16384x20, .f32⟩
  | 31 => ⟨S20x20, .f32⟩
  | 32 => ⟨S16384x20, .f32⟩
  | 33 => ⟨S1x20, .f32⟩
  | 34 => ⟨S16384x20, .f32⟩
  | 35 => ⟨S16384x20, .f32⟩
  | 36 => ⟨S16384x20, .f32⟩
  | 37 => ⟨S20x20, .f32⟩
  | 38 => ⟨S16384x20, .f32⟩
  | 39 => ⟨S_, .i32⟩
  | 40 => ⟨S1, .i32⟩
  | 41 => ⟨S16384x64, .f32⟩
  | 42 => ⟨S440, .f32⟩
  | 43 => ⟨S400, .f32⟩
  | 44 => ⟨S20x20, .f32⟩
  | 45 => ⟨S20x20, .i32⟩
  | 46 => ⟨S_, .i32⟩
  | 47 => ⟨S20x20, .i32⟩
  | 48 => ⟨S20x20, .i32⟩
  | 49 => ⟨S20x20, .i32⟩
  | 50 => ⟨S20x20, .i1⟩
  | 51 => ⟨S_, .f32⟩
  | 52 => ⟨S20x20, .f32⟩
  | 53 => ⟨S20x20, .f32⟩
  | 54 => ⟨S20x20, .i32⟩
  | 55 => ⟨S_, .i32⟩
  | 56 => ⟨S20x20, .i32⟩
  | 57 => ⟨S20x20, .i32⟩
  | 58 => ⟨S20x20, .i32⟩
  | 59 => ⟨S20x20, .i1⟩
  | 60 => ⟨S_, .f32⟩
  | 61 => ⟨S20x20, .f32⟩
  | 62 => ⟨S20x20, .f32⟩
  | 63 => ⟨S20x20, .f32⟩
  | 64 => ⟨S20, .f32⟩
  | 65 => ⟨S20, .f32⟩
  | 66 => ⟨S20x20, .i32⟩
  | 67 => ⟨S20x20, .i32⟩
  | 68 => ⟨S_, .i32⟩
  | 69 => ⟨S20x20, .i32⟩
  | 70 => ⟨S20x20, .i32⟩
  | 71 => ⟨S20x20, .i1⟩
  | 72 => ⟨S20x20, .f32⟩
  | 73 => ⟨S_, .f32⟩
  | 74 => ⟨S20x20, .f32⟩
  | 75 => ⟨S20x20, .f32⟩
  | 76 => ⟨S20x20, .f32⟩
  | 77 => ⟨S_, .f32⟩
  | 78 => ⟨S20, .f32⟩
  | 79 => ⟨S20x20, .i32⟩
  | 80 => ⟨S20x20, .i32⟩
  | 81 => ⟨S_, .i32⟩
  | 82 => ⟨S20x20, .i32⟩
  | 83 => ⟨S20x20, .i32⟩
  | 84 => ⟨S20x20, .i1⟩
  | 85 => ⟨S20x1, .f32⟩
  | 86 => ⟨S_, .f32⟩
  | 87 => ⟨S20x20, .f32⟩
  | 88 => ⟨S20x20, .f32⟩
  | 89 => ⟨S20x20, .f32⟩
  | 90 => ⟨S20x20, .f32⟩
  | 91 => ⟨S16384x20, .f32⟩
  | 92 => ⟨S20x20, .f32⟩
  | 93 => ⟨S16384x20, .f32⟩
  | 94 => ⟨S1x20, .f32⟩
  | 95 => ⟨S16384x20, .f32⟩
  | 96 => ⟨S16384x20, .f32⟩
  | 97 => ⟨S16384x20, .f32⟩
  | 98 => ⟨S20x20, .f32⟩
  | 99 => ⟨S16384x20, .f32⟩
  | 100 => ⟨S_, .i32⟩
  | 101 => ⟨S1, .i32⟩
  | 102 => ⟨S16384x64, .f32⟩
  | 103 => ⟨S440, .f32⟩
  | 104 => ⟨S400, .f32⟩
  | 105 => ⟨S20x20, .f32⟩
  | 106 => ⟨S20x20, .i32⟩
  | 107 => ⟨S_, .i32⟩
  | 108 => ⟨S20x20, .i32⟩
  | 109 => ⟨S20x20, .i32⟩
  | 110 => ⟨S20x20, .i32⟩
  | 111 => ⟨S20x20, .i1⟩
  | 112 => ⟨S_, .f32⟩
  | 113 => ⟨S20x20, .f32⟩
  | 114 => ⟨S20x20, .f32⟩
  | 115 => ⟨S20x20, .i32⟩
  | 116 => ⟨S_, .i32⟩
  | 117 => ⟨S20x20, .i32⟩
  | 118 => ⟨S20x20, .i32⟩
  | 119 => ⟨S20x20, .i32⟩
  | 120 => ⟨S20x20, .i1⟩
  | 121 => ⟨S_, .f32⟩
  | 122 => ⟨S20x20, .f32⟩
  | 123 => ⟨S20x20, .f32⟩
  | 124 => ⟨S20x20, .f32⟩
  | 125 => ⟨S20, .f32⟩
  | 126 => ⟨S20, .f32⟩
  | 127 => ⟨S20x20, .i32⟩
  | _ => ⟨S16384x4096, .f32⟩

abbrev hbmTy0_2 (i : Nat) : BufTy := match i % 128 with
  | 0 => ⟨S20x20, .i32⟩
  | 1 => ⟨S_, .i32⟩
  | 2 => ⟨S20x20, .i32⟩
  | 3 => ⟨S20x20, .i32⟩
  | 4 => ⟨S20x20, .i1⟩
  | 5 => ⟨S20x20, .f32⟩
  | 6 => ⟨S_, .f32⟩
  | 7 => ⟨S20x20, .f32⟩
  | 8 => ⟨S20x20, .f32⟩
  | 9 => ⟨S20x20, .f32⟩
  | 10 => ⟨S_, .f32⟩
  | 11 => ⟨S20, .f32⟩
  | 12 => ⟨S20x20, .i32⟩
  | 13 => ⟨S20x20, .i32⟩
  | 14 => ⟨S_, .i32⟩
  | 15 => ⟨S20x20, .i32⟩
  | 16 => ⟨S20x20, .i32⟩
  | 17 => ⟨S20x20, .i1⟩
  | 18 => ⟨S20x1, .f32⟩
  | 19 => ⟨S_, .f32⟩
  | 20 => ⟨S20x20, .f32⟩
  | 21 => ⟨S20x20, .f32⟩
  | 22 => ⟨S20x20, .f32⟩
  | 23 => ⟨S20x20, .f32⟩
  | 24 => ⟨S16384x20, .f32⟩
  | 25 => ⟨S20x20, .f32⟩
  | 26 => ⟨S16384x20, .f32⟩
  | 27 => ⟨S1x20, .f32⟩
  | 28 => ⟨S16384x20, .f32⟩
  | 29 => ⟨S16384x20, .f32⟩
  | 30 => ⟨S16384x20, .f32⟩
  | 31 => ⟨S20x20, .f32⟩
  | 32 => ⟨S16384x20, .f32⟩
  | 33 => ⟨S_, .i32⟩
  | 34 => ⟨S1, .i32⟩
  | 35 => ⟨S16384x64, .f32⟩
  | 36 => ⟨S440, .f32⟩
  | 37 => ⟨S400, .f32⟩
  | 38 => ⟨S20x20, .f32⟩
  | 39 => ⟨S20x20, .i32⟩
  | 40 => ⟨S_, .i32⟩
  | 41 => ⟨S20x20, .i32⟩
  | 42 => ⟨S20x20, .i32⟩
  | 43 => ⟨S20x20, .i32⟩
  | 44 => ⟨S20x20, .i1⟩
  | 45 => ⟨S_, .f32⟩
  | 46 => ⟨S20x20, .f32⟩
  | 47 => ⟨S20x20, .f32⟩
  | 48 => ⟨S20x20, .i32⟩
  | 49 => ⟨S_, .i32⟩
  | 50 => ⟨S20x20, .i32⟩
  | 51 => ⟨S20x20, .i32⟩
  | 52 => ⟨S20x20, .i32⟩
  | 53 => ⟨S20x20, .i1⟩
  | 54 => ⟨S_, .f32⟩
  | 55 => ⟨S20x20, .f32⟩
  | 56 => ⟨S20x20, .f32⟩
  | 57 => ⟨S20x20, .f32⟩
  | 58 => ⟨S20, .f32⟩
  | 59 => ⟨S20, .f32⟩
  | 60 => ⟨S20x20, .i32⟩
  | 61 => ⟨S20x20, .i32⟩
  | 62 => ⟨S_, .i32⟩
  | 63 => ⟨S20x20, .i32⟩
  | 64 => ⟨S20x20, .i32⟩
  | 65 => ⟨S20x20, .i1⟩
  | 66 => ⟨S20x20, .f32⟩
  | 67 => ⟨S_, .f32⟩
  | 68 => ⟨S20x20, .f32⟩
  | 69 => ⟨S20x20, .f32⟩
  | 70 => ⟨S20x20, .f32⟩
  | 71 => ⟨S_, .f32⟩
  | 72 => ⟨S20, .f32⟩
  | 73 => ⟨S20x20, .i32⟩
  | 74 => ⟨S20x20, .i32⟩
  | 75 => ⟨S_, .i32⟩
  | 76 => ⟨S20x20, .i32⟩
  | 77 => ⟨S20x20, .i32⟩
  | 78 => ⟨S20x20, .i1⟩
  | 79 => ⟨S20x1, .f32⟩
  | 80 => ⟨S_, .f32⟩
  | 81 => ⟨S20x20, .f32⟩
  | 82 => ⟨S20x20, .f32⟩
  | 83 => ⟨S20x20, .f32⟩
  | 84 => ⟨S20x20, .f32⟩
  | 85 => ⟨S16384x20, .f32⟩
  | 86 => ⟨S20x20, .f32⟩
  | 87 => ⟨S16384x20, .f32⟩
  | 88 => ⟨S1x20, .f32⟩
  | 89 => ⟨S16384x20, .f32⟩
  | 90 => ⟨S16384x20, .f32⟩
  | 91 => ⟨S16384x20, .f32⟩
  | 92 => ⟨S20x20, .f32⟩
  | 93 => ⟨S16384x20, .f32⟩
  | 94 => ⟨S_, .i32⟩
  | 95 => ⟨S1, .i32⟩
  | 96 => ⟨S16384x64, .f32⟩
  | 97 => ⟨S440, .f32⟩
  | 98 => ⟨S400, .f32⟩
  | 99 => ⟨S20x20, .f32⟩
  | 100 => ⟨S20x20, .i32⟩
  | 101 => ⟨S_, .i32⟩
  | 102 => ⟨S20x20, .i32⟩
  | 103 => ⟨S20x20, .i32⟩
  | 104 => ⟨S20x20, .i32⟩
  | 105 => ⟨S20x20, .i1⟩
  | 106 => ⟨S_, .f32⟩
  | 107 => ⟨S20x20, .f32⟩
  | 108 => ⟨S20x20, .f32⟩
  | 109 => ⟨S20x20, .i32⟩
  | 110 => ⟨S_, .i32⟩
  | 111 => ⟨S20x20, .i32⟩
  | 112 => ⟨S20x20, .i32⟩
  | 113 => ⟨S20x20, .i32⟩
  | 114 => ⟨S20x20, .i1⟩
  | 115 => ⟨S_, .f32⟩
  | 116 => ⟨S20x20, .f32⟩
  | 117 => ⟨S20x20, .f32⟩
  | 118 => ⟨S20x20, .f32⟩
  | 119 => ⟨S20, .f32⟩
  | 120 => ⟨S20, .f32⟩
  | 121 => ⟨S20x20, .i32⟩
  | 122 => ⟨S20x20, .i32⟩
  | 123 => ⟨S_, .i32⟩
  | 124 => ⟨S20x20, .i32⟩
  | 125 => ⟨S20x20, .i32⟩
  | 126 => ⟨S20x20, .i1⟩
  | 127 => ⟨S20x20, .f32⟩
  | _ => ⟨S16384x4096, .f32⟩

abbrev hbmTy0_3 (i : Nat) : BufTy := match i % 128 with
  | 0 => ⟨S_, .f32⟩
  | 1 => ⟨S20x20, .f32⟩
  | 2 => ⟨S20x20, .f32⟩
  | 3 => ⟨S20x20, .f32⟩
  | 4 => ⟨S_, .f32⟩
  | 5 => ⟨S20, .f32⟩
  | 6 => ⟨S20x20, .i32⟩
  | 7 => ⟨S20x20, .i32⟩
  | 8 => ⟨S_, .i32⟩
  | 9 => ⟨S20x20, .i32⟩
  | 10 => ⟨S20x20, .i32⟩
  | 11 => ⟨S20x20, .i1⟩
  | 12 => ⟨S20x1, .f32⟩
  | 13 => ⟨S_, .f32⟩
  | 14 => ⟨S20x20, .f32⟩
  | 15 => ⟨S20x20, .f32⟩
  | 16 => ⟨S20x20, .f32⟩
  | 17 => ⟨S20x20, .f32⟩
  | 18 => ⟨S16384x20, .f32⟩
  | 19 => ⟨S20x20, .f32⟩
  | 20 => ⟨S16384x20, .f32⟩
  | 21 => ⟨S1x20, .f32⟩
  | 22 => ⟨S16384x20, .f32⟩
  | 23 => ⟨S16384x20, .f32⟩
  | 24 => ⟨S16384x20, .f32⟩
  | 25 => ⟨S20x20, .f32⟩
  | 26 => ⟨S16384x20, .f32⟩
  | 27 => ⟨S_, .i32⟩
  | 28 => ⟨S1, .i32⟩
  | 29 => ⟨S16384x64, .f32⟩
  | 30 => ⟨S440, .f32⟩
  | 31 => ⟨S400, .f32⟩
  | 32 => ⟨S20x20, .f32⟩
  | 33 => ⟨S20x20, .i32⟩
  | 34 => ⟨S_, .i32⟩
  | 35 => ⟨S20x20, .i32⟩
  | 36 => ⟨S20x20, .i32⟩
  | 37 => ⟨S20x20, .i32⟩
  | 38 => ⟨S20x20, .i1⟩
  | 39 => ⟨S_, .f32⟩
  | 40 => ⟨S20x20, .f32⟩
  | 41 => ⟨S20x20, .f32⟩
  | 42 => ⟨S20x20, .i32⟩
  | 43 => ⟨S_, .i32⟩
  | 44 => ⟨S20x20, .i32⟩
  | 45 => ⟨S20x20, .i32⟩
  | 46 => ⟨S20x20, .i32⟩
  | 47 => ⟨S20x20, .i1⟩
  | 48 => ⟨S_, .f32⟩
  | 49 => ⟨S20x20, .f32⟩
  | 50 => ⟨S20x20, .f32⟩
  | 51 => ⟨S20x20, .f32⟩
  | 52 => ⟨S20, .f32⟩
  | 53 => ⟨S20, .f32⟩
  | 54 => ⟨S20x20, .i32⟩
  | 55 => ⟨S20x20, .i32⟩
  | 56 => ⟨S_, .i32⟩
  | 57 => ⟨S20x20, .i32⟩
  | 58 => ⟨S20x20, .i32⟩
  | 59 => ⟨S20x20, .i1⟩
  | 60 => ⟨S20x20, .f32⟩
  | 61 => ⟨S_, .f32⟩
  | 62 => ⟨S20x20, .f32⟩
  | 63 => ⟨S20x20, .f32⟩
  | 64 => ⟨S20x20, .f32⟩
  | 65 => ⟨S_, .f32⟩
  | 66 => ⟨S20, .f32⟩
  | 67 => ⟨S20x20, .i32⟩
  | 68 => ⟨S20x20, .i32⟩
  | 69 => ⟨S_, .i32⟩
  | 70 => ⟨S20x20, .i32⟩
  | 71 => ⟨S20x20, .i32⟩
  | 72 => ⟨S20x20, .i1⟩
  | 73 => ⟨S20x1, .f32⟩
  | 74 => ⟨S_, .f32⟩
  | 75 => ⟨S20x20, .f32⟩
  | 76 => ⟨S20x20, .f32⟩
  | 77 => ⟨S20x20, .f32⟩
  | 78 => ⟨S20x20, .f32⟩
  | 79 => ⟨S16384x20, .f32⟩
  | 80 => ⟨S20x20, .f32⟩
  | 81 => ⟨S16384x20, .f32⟩
  | 82 => ⟨S1x20, .f32⟩
  | 83 => ⟨S16384x20, .f32⟩
  | 84 => ⟨S16384x20, .f32⟩
  | 85 => ⟨S16384x20, .f32⟩
  | 86 => ⟨S20x20, .f32⟩
  | 87 => ⟨S16384x20, .f32⟩
  | 88 => ⟨S_, .i32⟩
  | 89 => ⟨S1, .i32⟩
  | 90 => ⟨S16384x64, .f32⟩
  | 91 => ⟨S440, .f32⟩
  | 92 => ⟨S400, .f32⟩
  | 93 => ⟨S20x20, .f32⟩
  | 94 => ⟨S20x20, .i32⟩
  | 95 => ⟨S_, .i32⟩
  | 96 => ⟨S20x20, .i32⟩
  | 97 => ⟨S20x20, .i32⟩
  | 98 => ⟨S20x20, .i32⟩
  | 99 => ⟨S20x20, .i1⟩
  | 100 => ⟨S_, .f32⟩
  | 101 => ⟨S20x20, .f32⟩
  | 102 => ⟨S20x20, .f32⟩
  | 103 => ⟨S20x20, .i32⟩
  | 104 => ⟨S_, .i32⟩
  | 105 => ⟨S20x20, .i32⟩
  | 106 => ⟨S20x20, .i32⟩
  | 107 => ⟨S20x20, .i32⟩
  | 108 => ⟨S20x20, .i1⟩
  | 109 => ⟨S_, .f32⟩
  | 110 => ⟨S20x20, .f32⟩
  | 111 => ⟨S20x20, .f32⟩
  | 112 => ⟨S20x20, .f32⟩
  | 113 => ⟨S20, .f32⟩
  | 114 => ⟨S20, .f32⟩
  | 115 => ⟨S20x20, .i32⟩
  | 116 => ⟨S20x20, .i32⟩
  | 117 => ⟨S_, .i32⟩
  | 118 => ⟨S20x20, .i32⟩
  | 119 => ⟨S20x20, .i32⟩
  | 120 => ⟨S20x20, .i1⟩
  | 121 => ⟨S20x20, .f32⟩
  | 122 => ⟨S_, .f32⟩
  | 123 => ⟨S20x20, .f32⟩
  | 124 => ⟨S20x20, .f32⟩
  | 125 => ⟨S20x20, .f32⟩
  | 126 => ⟨S_, .f32⟩
  | 127 => ⟨S20, .f32⟩
  | _ => ⟨S16384x4096, .f32⟩

abbrev hbmTy0_4 (i : Nat) : BufTy := match i % 128 with
  | 0 => ⟨S20x20, .i32⟩
  | 1 => ⟨S20x20, .i32⟩
  | 2 => ⟨S_, .i32⟩
  | 3 => ⟨S20x20, .i32⟩
  | 4 => ⟨S20x20, .i32⟩
  | 5 => ⟨S20x20, .i1⟩
  | 6 => ⟨S20x1, .f32⟩
  | 7 => ⟨S_, .f32⟩
  | 8 => ⟨S20x20, .f32⟩
  | 9 => ⟨S20x20, .f32⟩
  | 10 => ⟨S20x20, .f32⟩
  | 11 => ⟨S20x20, .f32⟩
  | 12 => ⟨S16384x20, .f32⟩
  | 13 => ⟨S20x20, .f32⟩
  | 14 => ⟨S16384x20, .f32⟩
  | 15 => ⟨S1x20, .f32⟩
  | 16 => ⟨S16384x20, .f32⟩
  | 17 => ⟨S16384x20, .f32⟩
  | 18 => ⟨S16384x20, .f32⟩
  | 19 => ⟨S20x20, .f32⟩
  | 20 => ⟨S16384x20, .f32⟩
  | 21 => ⟨S_, .i32⟩
  | 22 => ⟨S1, .i32⟩
  | 23 => ⟨S16384x64, .f32⟩
  | 24 => ⟨S64x400, .f32⟩
  | 25 => ⟨S16384x400, .f32⟩
  | 26 => ⟨S1x400, .f32⟩
  | 27 => ⟨S16384x400, .f32⟩
  | 28 => ⟨S16384x400, .f32⟩
  | 29 => ⟨S_, .f32⟩
  | 30 => ⟨S16384x400, .f32⟩
  | 31 => ⟨S16384x400, .f32⟩
  | 32 => ⟨S400x4096, .f32⟩
  | 33 => ⟨S16384x4096, .f32⟩
  | 34 => ⟨S1x4096, .f32⟩
  | 35 => ⟨S16384x4096, .f32⟩
  | 36 => ⟨S16384x4096, .f32⟩
  | _ => ⟨S16384x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_cst_0 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_v0 : Ref sig .tc := ⟨.hbm, 51, rfl⟩
abbrev main_call1_c : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_cst : Ref sig .tc := ⟨.hbm, 57, rfl⟩
abbrev main_call1_v5 : Ref sig .tc := ⟨.hbm, 58, rfl⟩
abbrev main_v32 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_cst : Ref sig .tc := ⟨.hbm, 66, rfl⟩
abbrev main_call2_v5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_2 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_call3_cst : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_c : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_cst_0 : Ref sig .tc := ⟨.hbm, 92, rfl⟩
abbrev main_call3_call0_v0 : Ref sig .tc := ⟨.hbm, 93, rfl⟩
abbrev main_call3_call0_v1 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_c_3 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_call4_v0 : Ref sig .tc := ⟨.hbm, 112, rfl⟩
abbrev main_call4_c : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_cst : Ref sig .tc := ⟨.hbm, 118, rfl⟩
abbrev main_call4_v5 : Ref sig .tc := ⟨.hbm, 119, rfl⟩
abbrev main_v62 : Ref sig .tc := ⟨.hbm, 120, rfl⟩
abbrev main_call5_v0 : Ref sig .tc := ⟨.hbm, 121, rfl⟩
abbrev main_call5_c : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_cst : Ref sig .tc := ⟨.hbm, 127, rfl⟩
abbrev main_call5_v5 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_c_4 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_cst_5 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_call6_cst : Ref sig .tc := ⟨.hbm, 144, rfl⟩
abbrev main_call6_v0 : Ref sig .tc := ⟨.hbm, 145, rfl⟩
abbrev main_call6_v1 : Ref sig .tc := ⟨.hbm, 146, rfl⟩
abbrev main_call6_v2 : Ref sig .tc := ⟨.hbm, 147, rfl⟩
abbrev main_call6_c : Ref sig .tc := ⟨.hbm, 148, rfl⟩
abbrev main_call6_v3 : Ref sig .tc := ⟨.hbm, 149, rfl⟩
abbrev main_call6_v4 : Ref sig .tc := ⟨.hbm, 150, rfl⟩
abbrev main_call6_v5 : Ref sig .tc := ⟨.hbm, 151, rfl⟩
abbrev main_call6_v6 : Ref sig .tc := ⟨.hbm, 152, rfl⟩
abbrev main_call6_cst_0 : Ref sig .tc := ⟨.hbm, 153, rfl⟩
abbrev main_call6_call0_v0 : Ref sig .tc := ⟨.hbm, 154, rfl⟩
abbrev main_call6_call0_v1 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_c_6 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_call7_v0 : Ref sig .tc := ⟨.hbm, 173, rfl⟩
abbrev main_call7_c : Ref sig .tc := ⟨.hbm, 174, rfl⟩
abbrev main_call7_v1 : Ref sig .tc := ⟨.hbm, 175, rfl⟩
abbrev main_call7_v2 : Ref sig .tc := ⟨.hbm, 176, rfl⟩
abbrev main_call7_v3 : Ref sig .tc := ⟨.hbm, 177, rfl⟩
abbrev main_call7_v4 : Ref sig .tc := ⟨.hbm, 178, rfl⟩
abbrev main_call7_cst : Ref sig .tc := ⟨.hbm, 179, rfl⟩
abbrev main_call7_v5 : Ref sig .tc := ⟨.hbm, 180, rfl⟩
abbrev main_v92 : Ref sig .tc := ⟨.hbm, 181, rfl⟩
abbrev main_call8_v0 : Ref sig .tc := ⟨.hbm, 182, rfl⟩
abbrev main_call8_c : Ref sig .tc := ⟨.hbm, 183, rfl⟩
abbrev main_call8_v1 : Ref sig .tc := ⟨.hbm, 184, rfl⟩
abbrev main_call8_v2 : Ref sig .tc := ⟨.hbm, 185, rfl⟩
abbrev main_call8_v3 : Ref sig .tc := ⟨.hbm, 186, rfl⟩
abbrev main_call8_v4 : Ref sig .tc := ⟨.hbm, 187, rfl⟩
abbrev main_call8_cst : Ref sig .tc := ⟨.hbm, 188, rfl⟩
abbrev main_call8_v5 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_c_7 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_cst_8 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_call9_cst : Ref sig .tc := ⟨.hbm, 205, rfl⟩
abbrev main_call9_v0 : Ref sig .tc := ⟨.hbm, 206, rfl⟩
abbrev main_call9_v1 : Ref sig .tc := ⟨.hbm, 207, rfl⟩
abbrev main_call9_v2 : Ref sig .tc := ⟨.hbm, 208, rfl⟩
abbrev main_call9_c : Ref sig .tc := ⟨.hbm, 209, rfl⟩
abbrev main_call9_v3 : Ref sig .tc := ⟨.hbm, 210, rfl⟩
abbrev main_call9_v4 : Ref sig .tc := ⟨.hbm, 211, rfl⟩
abbrev main_call9_v5 : Ref sig .tc := ⟨.hbm, 212, rfl⟩
abbrev main_call9_v6 : Ref sig .tc := ⟨.hbm, 213, rfl⟩
abbrev main_call9_cst_0 : Ref sig .tc := ⟨.hbm, 214, rfl⟩
abbrev main_call9_call0_v0 : Ref sig .tc := ⟨.hbm, 215, rfl⟩
abbrev main_call9_call0_v1 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_c_9 : Ref sig .tc := ⟨.hbm, 228, rfl⟩
abbrev main_v117 : Ref sig .tc := ⟨.hbm, 229, rfl⟩
abbrev main_v118 : Ref sig .tc := ⟨.hbm, 230, rfl⟩
abbrev main_v119 : Ref sig .tc := ⟨.hbm, 231, rfl⟩
abbrev main_v120 : Ref sig .tc := ⟨.hbm, 232, rfl⟩
abbrev main_v121 : Ref sig .tc := ⟨.hbm, 233, rfl⟩
abbrev main_call10_v0 : Ref sig .tc := ⟨.hbm, 234, rfl⟩
abbrev main_call10_c : Ref sig .tc := ⟨.hbm, 235, rfl⟩
abbrev main_call10_v1 : Ref sig .tc := ⟨.hbm, 236, rfl⟩
abbrev main_call10_v2 : Ref sig .tc := ⟨.hbm, 237, rfl⟩
abbrev main_call10_v3 : Ref sig .tc := ⟨.hbm, 238, rfl⟩
abbrev main_call10_v4 : Ref sig .tc := ⟨.hbm, 239, rfl⟩
abbrev main_call10_cst : Ref sig .tc := ⟨.hbm, 240, rfl⟩
abbrev main_call10_v5 : Ref sig .tc := ⟨.hbm, 241, rfl⟩
abbrev main_v122 : Ref sig .tc := ⟨.hbm, 242, rfl⟩
abbrev main_call11_v0 : Ref sig .tc := ⟨.hbm, 243, rfl⟩
abbrev main_call11_c : Ref sig .tc := ⟨.hbm, 244, rfl⟩
abbrev main_call11_v1 : Ref sig .tc := ⟨.hbm, 245, rfl⟩
abbrev main_call11_v2 : Ref sig .tc := ⟨.hbm, 246, rfl⟩
abbrev main_call11_v3 : Ref sig .tc := ⟨.hbm, 247, rfl⟩
abbrev main_call11_v4 : Ref sig .tc := ⟨.hbm, 248, rfl⟩
abbrev main_call11_cst : Ref sig .tc := ⟨.hbm, 249, rfl⟩
abbrev main_call11_v5 : Ref sig .tc := ⟨.hbm, 250, rfl⟩
abbrev main_v123 : Ref sig .tc := ⟨.hbm, 251, rfl⟩
abbrev main_v124 : Ref sig .tc := ⟨.hbm, 252, rfl⟩
abbrev main_v125 : Ref sig .tc := ⟨.hbm, 253, rfl⟩
abbrev main_v126 : Ref sig .tc := ⟨.hbm, 254, rfl⟩
abbrev main_v127 : Ref sig .tc := ⟨.hbm, 255, rfl⟩
abbrev main_v128 : Ref sig .tc := ⟨.hbm, 256, rfl⟩
abbrev main_c_10 : Ref sig .tc := ⟨.hbm, 257, rfl⟩
abbrev main_v129 : Ref sig .tc := ⟨.hbm, 258, rfl⟩
abbrev main_v130 : Ref sig .tc := ⟨.hbm, 259, rfl⟩
abbrev main_v131 : Ref sig .tc := ⟨.hbm, 260, rfl⟩
abbrev main_v132 : Ref sig .tc := ⟨.hbm, 261, rfl⟩
abbrev main_cst_11 : Ref sig .tc := ⟨.hbm, 262, rfl⟩
abbrev main_v133 : Ref sig .tc := ⟨.hbm, 263, rfl⟩
abbrev main_v134 : Ref sig .tc := ⟨.hbm, 264, rfl⟩
abbrev main_v135 : Ref sig .tc := ⟨.hbm, 265, rfl⟩
abbrev main_call12_cst : Ref sig .tc := ⟨.hbm, 266, rfl⟩
abbrev main_call12_v0 : Ref sig .tc := ⟨.hbm, 267, rfl⟩
abbrev main_call12_v1 : Ref sig .tc := ⟨.hbm, 268, rfl⟩
abbrev main_call12_v2 : Ref sig .tc := ⟨.hbm, 269, rfl⟩
abbrev main_call12_c : Ref sig .tc := ⟨.hbm, 270, rfl⟩
abbrev main_call12_v3 : Ref sig .tc := ⟨.hbm, 271, rfl⟩
abbrev main_call12_v4 : Ref sig .tc := ⟨.hbm, 272, rfl⟩
abbrev main_call12_v5 : Ref sig .tc := ⟨.hbm, 273, rfl⟩
abbrev main_call12_v6 : Ref sig .tc := ⟨.hbm, 274, rfl⟩
abbrev main_call12_cst_0 : Ref sig .tc := ⟨.hbm, 275, rfl⟩
abbrev main_call12_call0_v0 : Ref sig .tc := ⟨.hbm, 276, rfl⟩
abbrev main_call12_call0_v1 : Ref sig .tc := ⟨.hbm, 277, rfl⟩
abbrev main_v136 : Ref sig .tc := ⟨.hbm, 278, rfl⟩
abbrev main_v137 : Ref sig .tc := ⟨.hbm, 279, rfl⟩
abbrev main_v138 : Ref sig .tc := ⟨.hbm, 280, rfl⟩
abbrev main_v139 : Ref sig .tc := ⟨.hbm, 281, rfl⟩
abbrev main_v140 : Ref sig .tc := ⟨.hbm, 282, rfl⟩
abbrev main_v141 : Ref sig .tc := ⟨.hbm, 283, rfl⟩
abbrev main_v142 : Ref sig .tc := ⟨.hbm, 284, rfl⟩
abbrev main_v143 : Ref sig .tc := ⟨.hbm, 285, rfl⟩
abbrev main_v144 : Ref sig .tc := ⟨.hbm, 286, rfl⟩
abbrev main_v145 : Ref sig .tc := ⟨.hbm, 287, rfl⟩
abbrev main_v146 : Ref sig .tc := ⟨.hbm, 288, rfl⟩
abbrev main_c_12 : Ref sig .tc := ⟨.hbm, 289, rfl⟩
abbrev main_v147 : Ref sig .tc := ⟨.hbm, 290, rfl⟩
abbrev main_v148 : Ref sig .tc := ⟨.hbm, 291, rfl⟩
abbrev main_v149 : Ref sig .tc := ⟨.hbm, 292, rfl⟩
abbrev main_v150 : Ref sig .tc := ⟨.hbm, 293, rfl⟩
abbrev main_v151 : Ref sig .tc := ⟨.hbm, 294, rfl⟩
abbrev main_call13_v0 : Ref sig .tc := ⟨.hbm, 295, rfl⟩
abbrev main_call13_c : Ref sig .tc := ⟨.hbm, 296, rfl⟩
abbrev main_call13_v1 : Ref sig .tc := ⟨.hbm, 297, rfl⟩
abbrev main_call13_v2 : Ref sig .tc := ⟨.hbm, 298, rfl⟩
abbrev main_call13_v3 : Ref sig .tc := ⟨.hbm, 299, rfl⟩
abbrev main_call13_v4 : Ref sig .tc := ⟨.hbm, 300, rfl⟩
abbrev main_call13_cst : Ref sig .tc := ⟨.hbm, 301, rfl⟩
abbrev main_call13_v5 : Ref sig .tc := ⟨.hbm, 302, rfl⟩
abbrev main_v152 : Ref sig .tc := ⟨.hbm, 303, rfl⟩
abbrev main_call14_v0 : Ref sig .tc := ⟨.hbm, 304, rfl⟩
abbrev main_call14_c : Ref sig .tc := ⟨.hbm, 305, rfl⟩
abbrev main_call14_v1 : Ref sig .tc := ⟨.hbm, 306, rfl⟩
abbrev main_call14_v2 : Ref sig .tc := ⟨.hbm, 307, rfl⟩
abbrev main_call14_v3 : Ref sig .tc := ⟨.hbm, 308, rfl⟩
abbrev main_call14_v4 : Ref sig .tc := ⟨.hbm, 309, rfl⟩
abbrev main_call14_cst : Ref sig .tc := ⟨.hbm, 310, rfl⟩
abbrev main_call14_v5 : Ref sig .tc := ⟨.hbm, 311, rfl⟩
abbrev main_v153 : Ref sig .tc := ⟨.hbm, 312, rfl⟩
abbrev main_v154 : Ref sig .tc := ⟨.hbm, 313, rfl⟩
abbrev main_v155 : Ref sig .tc := ⟨.hbm, 314, rfl⟩
abbrev main_v156 : Ref sig .tc := ⟨.hbm, 315, rfl⟩
abbrev main_v157 : Ref sig .tc := ⟨.hbm, 316, rfl⟩
abbrev main_v158 : Ref sig .tc := ⟨.hbm, 317, rfl⟩
abbrev main_c_13 : Ref sig .tc := ⟨.hbm, 318, rfl⟩
abbrev main_v159 : Ref sig .tc := ⟨.hbm, 319, rfl⟩
abbrev main_v160 : Ref sig .tc := ⟨.hbm, 320, rfl⟩
abbrev main_v161 : Ref sig .tc := ⟨.hbm, 321, rfl⟩
abbrev main_v162 : Ref sig .tc := ⟨.hbm, 322, rfl⟩
abbrev main_cst_14 : Ref sig .tc := ⟨.hbm, 323, rfl⟩
abbrev main_v163 : Ref sig .tc := ⟨.hbm, 324, rfl⟩
abbrev main_v164 : Ref sig .tc := ⟨.hbm, 325, rfl⟩
abbrev main_v165 : Ref sig .tc := ⟨.hbm, 326, rfl⟩
abbrev main_call15_cst : Ref sig .tc := ⟨.hbm, 327, rfl⟩
abbrev main_call15_v0 : Ref sig .tc := ⟨.hbm, 328, rfl⟩
abbrev main_call15_v1 : Ref sig .tc := ⟨.hbm, 329, rfl⟩
abbrev main_call15_v2 : Ref sig .tc := ⟨.hbm, 330, rfl⟩
abbrev main_call15_c : Ref sig .tc := ⟨.hbm, 331, rfl⟩
abbrev main_call15_v3 : Ref sig .tc := ⟨.hbm, 332, rfl⟩
abbrev main_call15_v4 : Ref sig .tc := ⟨.hbm, 333, rfl⟩
abbrev main_call15_v5 : Ref sig .tc := ⟨.hbm, 334, rfl⟩
abbrev main_call15_v6 : Ref sig .tc := ⟨.hbm, 335, rfl⟩
abbrev main_call15_cst_0 : Ref sig .tc := ⟨.hbm, 336, rfl⟩
abbrev main_call15_call0_v0 : Ref sig .tc := ⟨.hbm, 337, rfl⟩
abbrev main_call15_call0_v1 : Ref sig .tc := ⟨.hbm, 338, rfl⟩
abbrev main_v166 : Ref sig .tc := ⟨.hbm, 339, rfl⟩
abbrev main_v167 : Ref sig .tc := ⟨.hbm, 340, rfl⟩
abbrev main_v168 : Ref sig .tc := ⟨.hbm, 341, rfl⟩
abbrev main_v169 : Ref sig .tc := ⟨.hbm, 342, rfl⟩
abbrev main_v170 : Ref sig .tc := ⟨.hbm, 343, rfl⟩
abbrev main_v171 : Ref sig .tc := ⟨.hbm, 344, rfl⟩
abbrev main_v172 : Ref sig .tc := ⟨.hbm, 345, rfl⟩
abbrev main_v173 : Ref sig .tc := ⟨.hbm, 346, rfl⟩
abbrev main_v174 : Ref sig .tc := ⟨.hbm, 347, rfl⟩
abbrev main_v175 : Ref sig .tc := ⟨.hbm, 348, rfl⟩
abbrev main_v176 : Ref sig .tc := ⟨.hbm, 349, rfl⟩
abbrev main_c_15 : Ref sig .tc := ⟨.hbm, 350, rfl⟩
abbrev main_v177 : Ref sig .tc := ⟨.hbm, 351, rfl⟩
abbrev main_v178 : Ref sig .tc := ⟨.hbm, 352, rfl⟩
abbrev main_v179 : Ref sig .tc := ⟨.hbm, 353, rfl⟩
abbrev main_v180 : Ref sig .tc := ⟨.hbm, 354, rfl⟩
abbrev main_v181 : Ref sig .tc := ⟨.hbm, 355, rfl⟩
abbrev main_call16_v0 : Ref sig .tc := ⟨.hbm, 356, rfl⟩
abbrev main_call16_c : Ref sig .tc := ⟨.hbm, 357, rfl⟩
abbrev main_call16_v1 : Ref sig .tc := ⟨.hbm, 358, rfl⟩
abbrev main_call16_v2 : Ref sig .tc := ⟨.hbm, 359, rfl⟩
abbrev main_call16_v3 : Ref sig .tc := ⟨.hbm, 360, rfl⟩
abbrev main_call16_v4 : Ref sig .tc := ⟨.hbm, 361, rfl⟩
abbrev main_call16_cst : Ref sig .tc := ⟨.hbm, 362, rfl⟩
abbrev main_call16_v5 : Ref sig .tc := ⟨.hbm, 363, rfl⟩
abbrev main_v182 : Ref sig .tc := ⟨.hbm, 364, rfl⟩
abbrev main_call17_v0 : Ref sig .tc := ⟨.hbm, 365, rfl⟩
abbrev main_call17_c : Ref sig .tc := ⟨.hbm, 366, rfl⟩
abbrev main_call17_v1 : Ref sig .tc := ⟨.hbm, 367, rfl⟩
abbrev main_call17_v2 : Ref sig .tc := ⟨.hbm, 368, rfl⟩
abbrev main_call17_v3 : Ref sig .tc := ⟨.hbm, 369, rfl⟩
abbrev main_call17_v4 : Ref sig .tc := ⟨.hbm, 370, rfl⟩
abbrev main_call17_cst : Ref sig .tc := ⟨.hbm, 371, rfl⟩
abbrev main_call17_v5 : Ref sig .tc := ⟨.hbm, 372, rfl⟩
abbrev main_v183 : Ref sig .tc := ⟨.hbm, 373, rfl⟩
abbrev main_v184 : Ref sig .tc := ⟨.hbm, 374, rfl⟩
abbrev main_v185 : Ref sig .tc := ⟨.hbm, 375, rfl⟩
abbrev main_v186 : Ref sig .tc := ⟨.hbm, 376, rfl⟩
abbrev main_v187 : Ref sig .tc := ⟨.hbm, 377, rfl⟩
abbrev main_v188 : Ref sig .tc := ⟨.hbm, 378, rfl⟩
abbrev main_c_16 : Ref sig .tc := ⟨.hbm, 379, rfl⟩
abbrev main_v189 : Ref sig .tc := ⟨.hbm, 380, rfl⟩
abbrev main_v190 : Ref sig .tc := ⟨.hbm, 381, rfl⟩
abbrev main_v191 : Ref sig .tc := ⟨.hbm, 382, rfl⟩
abbrev main_v192 : Ref sig .tc := ⟨.hbm, 383, rfl⟩
abbrev main_cst_17 : Ref sig .tc := ⟨.hbm, 384, rfl⟩
abbrev main_v193 : Ref sig .tc := ⟨.hbm, 385, rfl⟩
abbrev main_v194 : Ref sig .tc := ⟨.hbm, 386, rfl⟩
abbrev main_v195 : Ref sig .tc := ⟨.hbm, 387, rfl⟩
abbrev main_call18_cst : Ref sig .tc := ⟨.hbm, 388, rfl⟩
abbrev main_call18_v0 : Ref sig .tc := ⟨.hbm, 389, rfl⟩
abbrev main_call18_v1 : Ref sig .tc := ⟨.hbm, 390, rfl⟩
abbrev main_call18_v2 : Ref sig .tc := ⟨.hbm, 391, rfl⟩
abbrev main_call18_c : Ref sig .tc := ⟨.hbm, 392, rfl⟩
abbrev main_call18_v3 : Ref sig .tc := ⟨.hbm, 393, rfl⟩
abbrev main_call18_v4 : Ref sig .tc := ⟨.hbm, 394, rfl⟩
abbrev main_call18_v5 : Ref sig .tc := ⟨.hbm, 395, rfl⟩
abbrev main_call18_v6 : Ref sig .tc := ⟨.hbm, 396, rfl⟩
abbrev main_call18_cst_0 : Ref sig .tc := ⟨.hbm, 397, rfl⟩
abbrev main_call18_call0_v0 : Ref sig .tc := ⟨.hbm, 398, rfl⟩
abbrev main_call18_call0_v1 : Ref sig .tc := ⟨.hbm, 399, rfl⟩
abbrev main_v196 : Ref sig .tc := ⟨.hbm, 400, rfl⟩
abbrev main_v197 : Ref sig .tc := ⟨.hbm, 401, rfl⟩
abbrev main_v198 : Ref sig .tc := ⟨.hbm, 402, rfl⟩
abbrev main_v199 : Ref sig .tc := ⟨.hbm, 403, rfl⟩
abbrev main_v200 : Ref sig .tc := ⟨.hbm, 404, rfl⟩
abbrev main_v201 : Ref sig .tc := ⟨.hbm, 405, rfl⟩
abbrev main_v202 : Ref sig .tc := ⟨.hbm, 406, rfl⟩
abbrev main_v203 : Ref sig .tc := ⟨.hbm, 407, rfl⟩
abbrev main_v204 : Ref sig .tc := ⟨.hbm, 408, rfl⟩
abbrev main_v205 : Ref sig .tc := ⟨.hbm, 409, rfl⟩
abbrev main_v206 : Ref sig .tc := ⟨.hbm, 410, rfl⟩
abbrev main_c_18 : Ref sig .tc := ⟨.hbm, 411, rfl⟩
abbrev main_v207 : Ref sig .tc := ⟨.hbm, 412, rfl⟩
abbrev main_v208 : Ref sig .tc := ⟨.hbm, 413, rfl⟩
abbrev main_v209 : Ref sig .tc := ⟨.hbm, 414, rfl⟩
abbrev main_v210 : Ref sig .tc := ⟨.hbm, 415, rfl⟩
abbrev main_v211 : Ref sig .tc := ⟨.hbm, 416, rfl⟩
abbrev main_call19_v0 : Ref sig .tc := ⟨.hbm, 417, rfl⟩
abbrev main_call19_c : Ref sig .tc := ⟨.hbm, 418, rfl⟩
abbrev main_call19_v1 : Ref sig .tc := ⟨.hbm, 419, rfl⟩
abbrev main_call19_v2 : Ref sig .tc := ⟨.hbm, 420, rfl⟩
abbrev main_call19_v3 : Ref sig .tc := ⟨.hbm, 421, rfl⟩
abbrev main_call19_v4 : Ref sig .tc := ⟨.hbm, 422, rfl⟩
abbrev main_call19_cst : Ref sig .tc := ⟨.hbm, 423, rfl⟩
abbrev main_call19_v5 : Ref sig .tc := ⟨.hbm, 424, rfl⟩
abbrev main_v212 : Ref sig .tc := ⟨.hbm, 425, rfl⟩
abbrev main_call20_v0 : Ref sig .tc := ⟨.hbm, 426, rfl⟩
abbrev main_call20_c : Ref sig .tc := ⟨.hbm, 427, rfl⟩
abbrev main_call20_v1 : Ref sig .tc := ⟨.hbm, 428, rfl⟩
abbrev main_call20_v2 : Ref sig .tc := ⟨.hbm, 429, rfl⟩
abbrev main_call20_v3 : Ref sig .tc := ⟨.hbm, 430, rfl⟩
abbrev main_call20_v4 : Ref sig .tc := ⟨.hbm, 431, rfl⟩
abbrev main_call20_cst : Ref sig .tc := ⟨.hbm, 432, rfl⟩
abbrev main_call20_v5 : Ref sig .tc := ⟨.hbm, 433, rfl⟩
abbrev main_v213 : Ref sig .tc := ⟨.hbm, 434, rfl⟩
abbrev main_v214 : Ref sig .tc := ⟨.hbm, 435, rfl⟩
abbrev main_v215 : Ref sig .tc := ⟨.hbm, 436, rfl⟩
abbrev main_v216 : Ref sig .tc := ⟨.hbm, 437, rfl⟩
abbrev main_v217 : Ref sig .tc := ⟨.hbm, 438, rfl⟩
abbrev main_v218 : Ref sig .tc := ⟨.hbm, 439, rfl⟩
abbrev main_c_19 : Ref sig .tc := ⟨.hbm, 440, rfl⟩
abbrev main_v219 : Ref sig .tc := ⟨.hbm, 441, rfl⟩
abbrev main_v220 : Ref sig .tc := ⟨.hbm, 442, rfl⟩
abbrev main_v221 : Ref sig .tc := ⟨.hbm, 443, rfl⟩
abbrev main_v222 : Ref sig .tc := ⟨.hbm, 444, rfl⟩
abbrev main_cst_20 : Ref sig .tc := ⟨.hbm, 445, rfl⟩
abbrev main_v223 : Ref sig .tc := ⟨.hbm, 446, rfl⟩
abbrev main_v224 : Ref sig .tc := ⟨.hbm, 447, rfl⟩
abbrev main_v225 : Ref sig .tc := ⟨.hbm, 448, rfl⟩
abbrev main_call21_cst : Ref sig .tc := ⟨.hbm, 449, rfl⟩
abbrev main_call21_v0 : Ref sig .tc := ⟨.hbm, 450, rfl⟩
abbrev main_call21_v1 : Ref sig .tc := ⟨.hbm, 451, rfl⟩
abbrev main_call21_v2 : Ref sig .tc := ⟨.hbm, 452, rfl⟩
abbrev main_call21_c : Ref sig .tc := ⟨.hbm, 453, rfl⟩
abbrev main_call21_v3 : Ref sig .tc := ⟨.hbm, 454, rfl⟩
abbrev main_call21_v4 : Ref sig .tc := ⟨.hbm, 455, rfl⟩
abbrev main_call21_v5 : Ref sig .tc := ⟨.hbm, 456, rfl⟩
abbrev main_call21_v6 : Ref sig .tc := ⟨.hbm, 457, rfl⟩
abbrev main_call21_cst_0 : Ref sig .tc := ⟨.hbm, 458, rfl⟩
abbrev main_call21_call0_v0 : Ref sig .tc := ⟨.hbm, 459, rfl⟩
abbrev main_call21_call0_v1 : Ref sig .tc := ⟨.hbm, 460, rfl⟩
abbrev main_v226 : Ref sig .tc := ⟨.hbm, 461, rfl⟩
abbrev main_v227 : Ref sig .tc := ⟨.hbm, 462, rfl⟩
abbrev main_v228 : Ref sig .tc := ⟨.hbm, 463, rfl⟩
abbrev main_v229 : Ref sig .tc := ⟨.hbm, 464, rfl⟩
abbrev main_v230 : Ref sig .tc := ⟨.hbm, 465, rfl⟩
abbrev main_v231 : Ref sig .tc := ⟨.hbm, 466, rfl⟩
abbrev main_v232 : Ref sig .tc := ⟨.hbm, 467, rfl⟩
abbrev main_v233 : Ref sig .tc := ⟨.hbm, 468, rfl⟩
abbrev main_v234 : Ref sig .tc := ⟨.hbm, 469, rfl⟩
abbrev main_v235 : Ref sig .tc := ⟨.hbm, 470, rfl⟩
abbrev main_v236 : Ref sig .tc := ⟨.hbm, 471, rfl⟩
abbrev main_c_21 : Ref sig .tc := ⟨.hbm, 472, rfl⟩
abbrev main_v237 : Ref sig .tc := ⟨.hbm, 473, rfl⟩
abbrev main_v238 : Ref sig .tc := ⟨.hbm, 474, rfl⟩
abbrev main_v239 : Ref sig .tc := ⟨.hbm, 475, rfl⟩
abbrev main_v240 : Ref sig .tc := ⟨.hbm, 476, rfl⟩
abbrev main_v241 : Ref sig .tc := ⟨.hbm, 477, rfl⟩
abbrev main_call22_v0 : Ref sig .tc := ⟨.hbm, 478, rfl⟩
abbrev main_call22_c : Ref sig .tc := ⟨.hbm, 479, rfl⟩
abbrev main_call22_v1 : Ref sig .tc := ⟨.hbm, 480, rfl⟩
abbrev main_call22_v2 : Ref sig .tc := ⟨.hbm, 481, rfl⟩
abbrev main_call22_v3 : Ref sig .tc := ⟨.hbm, 482, rfl⟩
abbrev main_call22_v4 : Ref sig .tc := ⟨.hbm, 483, rfl⟩
abbrev main_call22_cst : Ref sig .tc := ⟨.hbm, 484, rfl⟩
abbrev main_call22_v5 : Ref sig .tc := ⟨.hbm, 485, rfl⟩
abbrev main_v242 : Ref sig .tc := ⟨.hbm, 486, rfl⟩
abbrev main_call23_v0 : Ref sig .tc := ⟨.hbm, 487, rfl⟩
abbrev main_call23_c : Ref sig .tc := ⟨.hbm, 488, rfl⟩
abbrev main_call23_v1 : Ref sig .tc := ⟨.hbm, 489, rfl⟩
abbrev main_call23_v2 : Ref sig .tc := ⟨.hbm, 490, rfl⟩
abbrev main_call23_v3 : Ref sig .tc := ⟨.hbm, 491, rfl⟩
abbrev main_call23_v4 : Ref sig .tc := ⟨.hbm, 492, rfl⟩
abbrev main_call23_cst : Ref sig .tc := ⟨.hbm, 493, rfl⟩
abbrev main_call23_v5 : Ref sig .tc := ⟨.hbm, 494, rfl⟩
abbrev main_v243 : Ref sig .tc := ⟨.hbm, 495, rfl⟩
abbrev main_v244 : Ref sig .tc := ⟨.hbm, 496, rfl⟩
abbrev main_v245 : Ref sig .tc := ⟨.hbm, 497, rfl⟩
abbrev main_v246 : Ref sig .tc := ⟨.hbm, 498, rfl⟩
abbrev main_v247 : Ref sig .tc := ⟨.hbm, 499, rfl⟩
abbrev main_v248 : Ref sig .tc := ⟨.hbm, 500, rfl⟩
abbrev main_c_22 : Ref sig .tc := ⟨.hbm, 501, rfl⟩
abbrev main_v249 : Ref sig .tc := ⟨.hbm, 502, rfl⟩
abbrev main_v250 : Ref sig .tc := ⟨.hbm, 503, rfl⟩
abbrev main_v251 : Ref sig .tc := ⟨.hbm, 504, rfl⟩
abbrev main_v252 : Ref sig .tc := ⟨.hbm, 505, rfl⟩
abbrev main_cst_23 : Ref sig .tc := ⟨.hbm, 506, rfl⟩
abbrev main_v253 : Ref sig .tc := ⟨.hbm, 507, rfl⟩
abbrev main_v254 : Ref sig .tc := ⟨.hbm, 508, rfl⟩
abbrev main_v255 : Ref sig .tc := ⟨.hbm, 509, rfl⟩
abbrev main_call24_cst : Ref sig .tc := ⟨.hbm, 510, rfl⟩
abbrev main_call24_v0 : Ref sig .tc := ⟨.hbm, 511, rfl⟩
abbrev main_call24_v1 : Ref sig .tc := ⟨.hbm, 512, rfl⟩
abbrev main_call24_v2 : Ref sig .tc := ⟨.hbm, 513, rfl⟩
abbrev main_call24_c : Ref sig .tc := ⟨.hbm, 514, rfl⟩
abbrev main_call24_v3 : Ref sig .tc := ⟨.hbm, 515, rfl⟩
abbrev main_call24_v4 : Ref sig .tc := ⟨.hbm, 516, rfl⟩
abbrev main_call24_v5 : Ref sig .tc := ⟨.hbm, 517, rfl⟩
abbrev main_call24_v6 : Ref sig .tc := ⟨.hbm, 518, rfl⟩
abbrev main_call24_cst_0 : Ref sig .tc := ⟨.hbm, 519, rfl⟩
abbrev main_call24_call0_v0 : Ref sig .tc := ⟨.hbm, 520, rfl⟩
abbrev main_call24_call0_v1 : Ref sig .tc := ⟨.hbm, 521, rfl⟩
abbrev main_v256 : Ref sig .tc := ⟨.hbm, 522, rfl⟩
abbrev main_v257 : Ref sig .tc := ⟨.hbm, 523, rfl⟩
abbrev main_v258 : Ref sig .tc := ⟨.hbm, 524, rfl⟩
abbrev main_v259 : Ref sig .tc := ⟨.hbm, 525, rfl⟩
abbrev main_v260 : Ref sig .tc := ⟨.hbm, 526, rfl⟩
abbrev main_v261 : Ref sig .tc := ⟨.hbm, 527, rfl⟩
abbrev main_v262 : Ref sig .tc := ⟨.hbm, 528, rfl⟩
abbrev main_v263 : Ref sig .tc := ⟨.hbm, 529, rfl⟩
abbrev main_v264 : Ref sig .tc := ⟨.hbm, 530, rfl⟩
abbrev main_v265 : Ref sig .tc := ⟨.hbm, 531, rfl⟩
abbrev main_v266 : Ref sig .tc := ⟨.hbm, 532, rfl⟩
abbrev main_c_24 : Ref sig .tc := ⟨.hbm, 533, rfl⟩
abbrev main_v267 : Ref sig .tc := ⟨.hbm, 534, rfl⟩
abbrev main_v268 : Ref sig .tc := ⟨.hbm, 535, rfl⟩
abbrev main_v269 : Ref sig .tc := ⟨.hbm, 536, rfl⟩
abbrev main_v270 : Ref sig .tc := ⟨.hbm, 537, rfl⟩
abbrev main_v271 : Ref sig .tc := ⟨.hbm, 538, rfl⟩
abbrev main_v272 : Ref sig .tc := ⟨.hbm, 539, rfl⟩
abbrev main_v273 : Ref sig .tc := ⟨.hbm, 540, rfl⟩
abbrev main_call25_cst : Ref sig .tc := ⟨.hbm, 541, rfl⟩
abbrev main_call25_v0 : Ref sig .tc := ⟨.hbm, 542, rfl⟩
abbrev main_v274 : Ref sig .tc := ⟨.hbm, 543, rfl⟩
abbrev main_v275 : Ref sig .tc := ⟨.hbm, 544, rfl⟩
abbrev main_v276 : Ref sig .tc := ⟨.hbm, 545, rfl⟩
abbrev main_v277 : Ref sig .tc := ⟨.hbm, 546, rfl⟩
abbrev main_v278 : Ref sig .tc := ⟨.hbm, 547, rfl⟩
abbrev main_v279 : Ref sig .tc := ⟨.hbm, 548, rfl⟩

abbrev nD : Nat := 1
abbrev τ : Topo := Topo.v7x

variable {F : FTy → Type} [FloatOps F]

class Facts₀ : Prop where
  transposes_S400x4096_S4096x400_1_0 : S400x4096.Transposes [1, 0] S4096x400
  bcast_S400_S1x400_1 : S400.BroadcastsInDim S1x400 (![1] : Fin 1 → Fin S1x400.rank)
  bcast_S1x400_S16384x400_0_1 : S1x400.BroadcastsInDim S16384x400 (![0, 1] : Fin 2 → Fin S16384x400.rank)
  bcast_S_S16384x400 : S_.BroadcastsInDim S16384x400 (![] : Fin 0 → Fin S16384x400.rank)
  transposes_S64x400_S400x64_1_0 : S64x400.Transposes [1, 0] S400x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  transposes_S3520x400_S400x3520_1_0 : S3520x400.Transposes [1, 0] S400x3520
  bcast_S3520_S1x3520_1 : S3520.BroadcastsInDim S1x3520 (![1] : Fin 1 → Fin S1x3520.rank)
  bcast_S1x3520_S16384x3520_0_1 : S1x3520.BroadcastsInDim S16384x3520 (![0, 1] : Fin 2 → Fin S16384x3520.rank)
  reducesTo_S16384x3520_S3520_d0 : S16384x3520.ReducesTo [0] S3520
  h_S_ : 0 < S_.numel
  bcast_S_S3520 : S_.BroadcastsInDim S3520 (![] : Fin 0 → Fin S3520.rank)
  bcast_S_S16384x64 : S_.BroadcastsInDim S16384x64 (![] : Fin 0 → Fin S16384x64.rank)
  slices_S3520_S440_0 : S3520.Slices ![0] S440
  slices_S440_S400_0 : S440.Slices ![0] S400
  shapeCasts_S400_S20x20 : S400.ShapeCasts S20x20
  bcast_S_S20x20 : S_.BroadcastsInDim S20x20 (![] : Fin 0 → Fin S20x20.rank)
  transposes_S20x20_S20x20_1_0 : S20x20.Transposes [1, 0] S20x20
  slices_S440_S20_400 : S440.Slices ![400] S20
  slices_S440_S20_420 : S440.Slices ![420] S20
  pads_S20_S20_000 : S20.Pads (![0] : Fin 1 → Nat) ![0] ![0] S20
  bcast_S20_S20x1_0 : S20.BroadcastsInDim S20x1 (![0] : Fin 1 → Fin S20x1.rank)
  bcast_S20x1_S20x20_0_1 : S20x1.BroadcastsInDim S20x20 (![0, 1] : Fin 2 → Fin S20x20.rank)
  slices_S16384x64_S16384x20_0_0 : S16384x64.Slices ![0, 0] S16384x20
  bcast_S20_S1x20_1 : S20.BroadcastsInDim S1x20 (![1] : Fin 1 → Fin S1x20.rank)
  bcast_S1x20_S16384x20_0_1 : S1x20.BroadcastsInDim S16384x20 (![0, 1] : Fin 2 → Fin S16384x20.rank)
  bcast_S_S1 : S_.BroadcastsInDim S1 (![] : Fin 0 → Fin S1.rank)
  slices_S3520_S440_440 : S3520.Slices ![440] S440
  slices_S3520_S440_880 : S3520.Slices ![880] S440
  slices_S3520_S440_1320 : S3520.Slices ![1320] S440
  slices_S3520_S440_1760 : S3520.Slices ![1760] S440
  slices_S3520_S440_2200 : S3520.Slices ![2200] S440
  slices_S3520_S440_2640 : S3520.Slices ![2640] S440
  slices_S3520_S440_3080 : S3520.Slices ![3080] S440
  transposes_S400x64_S64x400_1_0 : S400x64.Transposes [1, 0] S64x400
  transposes_S4096x400_S400x4096_1_0 : S4096x400.Transposes [1, 0] S400x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x400_S16384x400_1_0_0_1_n_n_wf : DotDims.WF S16384x4096 S4096x400 S16384x400 [1] [0] [0] [1] [] []
  dot_S16384x400_S400x64_S16384x64_1_0_0_1_n_n_wf : DotDims.WF S16384x400 S400x64 S16384x64 [1] [0] [0] [1] [] []
  dot_S16384x400_S400x3520_S16384x3520_1_0_0_1_n_n_wf : DotDims.WF S16384x400 S400x3520 S16384x3520 [1] [0] [0] [1] [] []
  dot_S16384x20_S20x20_S16384x20_1_0_0_1_n_n_wf : DotDims.WF S16384x20 S20x20 S16384x20 [1] [0] [0] [1] [] []
  scatter_S16384x64_S1_S16384x20_01_n_1_0_wf : ScatterDims.WF S16384x64 S1 S16384x20 [0, 1] [] [1] 0
  dot_S16384x64_S64x400_S16384x400_1_0_0_1_n_n_wf : DotDims.WF S16384x64 S64x400 S16384x400 [1] [0] [0] [1] [] []
  dot_S16384x400_S400x4096_S16384x4096_1_0_0_1_n_n_wf : DotDims.WF S16384x400 S400x4096 S16384x4096 [1] [0] [0] [1] [] []

variable [Facts₀]

def dot_S16384x4096_S4096x400_S16384x400_1_0_0_1_n_n : DotDims S16384x4096 S4096x400 S16384x400 where
  lhsContracting := [1]
  rhsContracting := [0]
  lhsNonContracting := [0]
  rhsNonContracting := [1]
  lhsBatch := []
  rhsBatch := []
  wf := dot_S16384x4096_S4096x400_S16384x400_1_0_0_1_n_n_wf
def dot_S16384x400_S400x64_S16384x64_1_0_0_1_n_n : DotDims S16384x400 S400x64 S16384x64 where
  lhsContracting := [1]
  rhsContracting := [0]
  lhsNonContracting := [0]
  rhsNonContracting := [1]
  lhsBatch := []
  rhsBatch := []
  wf := dot_S16384x400_S400x64_S16384x64_1_0_0_1_n_n_wf
def dot_S16384x400_S400x3520_S16384x3520_1_0_0_1_n_n : DotDims S16384x400 S400x3520 S16384x3520 where
  lhsContracting := [1]
  rhsContracting := [0]
  lhsNonContracting := [0]
  rhsNonContracting := [1]
  lhsBatch := []
  rhsBatch := []
  wf := dot_S16384x400_S400x3520_S16384x3520_1_0_0_1_n_n_wf
def dot_S16384x20_S20x20_S16384x20_1_0_0_1_n_n : DotDims S16384x20 S20x20 S16384x20 where
  lhsContracting := [1]
  rhsContracting := [0]
  lhsNonContracting := [0]
  rhsNonContracting := [1]
  lhsBatch := []
  rhsBatch := []
  wf := dot_S16384x20_S20x20_S16384x20_1_0_0_1_n_n_wf
def scatter_S16384x64_S1_S16384x20_01_n_1_0 : ScatterDims S16384x64 S1 S16384x20 where
  updateWindowDims := [0, 1]
  insertedWindowDims := []
  scatterDimsToOperandDims := [1]
  indexVectorDim := 0
  wf := scatter_S16384x64_S1_S16384x20_01_n_1_0_wf
def dot_S16384x64_S64x400_S16384x400_1_0_0_1_n_n : DotDims S16384x64 S64x400 S16384x400 where
  lhsContracting := [1]
  rhsContracting := [0]
  lhsNonContracting := [0]
  rhsNonContracting := [1]
  lhsBatch := []
  rhsBatch := []
  wf := dot_S16384x64_S64x400_S16384x400_1_0_0_1_n_n_wf
def dot_S16384x400_S400x4096_S16384x4096_1_0_0_1_n_n : DotDims S16384x400 S400x4096 S16384x4096 where
  lhsContracting := [1]
  rhsContracting := [0]
  lhsNonContracting := [0]
  rhsNonContracting := [1]
  lhsBatch := []
  rhsBatch := []
  wf := dot_S16384x400_S400x4096_S16384x4096_1_0_0_1_n_n_wf

class Facts : Prop extends Facts₀ where

variable [Facts]
-- ==== Proof.Spec.lean ====
import Idealize.ShloMosaic.PureOps.Ideal

noncomputable section

namespace Cert.Sylvester

open Idealize.ShloMosaic

abbrev half : EReal := Ideal.ofBits .f32 0x3F000000#32

/-- The encoder's hidden layer on one input row: relu of the affine image. -/
def hiddenRow (xr : Fin 4096 → EReal) (W1 : Fin 400 → Fin 4096 → EReal) (b1 : Fin 400 → EReal) : Fin 400 → EReal :=
  fun j => max ((∑ k : Fin 4096, xr k * W1 j k) + b1 j) 0

/-- An affine image of a hidden row; mu, logvar and the flow parameters' rows are three of these. -/
def affineRow {w : ℕ} (h : Fin 400 → EReal) (W : Fin w → Fin 400 → EReal) (b : Fin w → EReal) : Fin w → EReal :=
  fun n => (∑ j : Fin 400, h j * W n j) + b n

/-- The flow parameters: the batch mean of the third affine image, as the sum times 1/16384. -/
def flowMean (x : Fin 16384 → Fin 4096 → EReal) (W1 : Fin 400 → Fin 4096 → EReal) (b1 : Fin 400 → EReal)
    (W23 : Fin 3520 → Fin 400 → EReal) (b23 : Fin 3520 → EReal) : Fin 3520 → EReal :=
  fun p => (∑ b : Fin 16384, affineRow (hiddenRow (x b) W1 b1) W23 b23 p) * ((1 / 16384 : ℝ) : EReal)

/-- The reparameterised latent row eps · exp(logvar / 2) + mu. -/
def latentRow (epsr lvr mur : Fin 64 → EReal) : Fin 64 → EReal :=
  fun n => epsr n * Ideal.exp (half * lvr n) + mur n

def paramSlice (flow : Fin 3520 → EReal) (k : Fin 8) : Fin 440 → EReal :=
  fun i => flow ⟨440 * k.val + i.val, by have := k.isLt; have := i.isLt; omega⟩

def sqM (P : Fin 440 → EReal) (r c : Fin 20) : EReal := P ⟨20 * r.val + c.val, by have := r.isLt; have := c.isLt; omega⟩

def upper (P : Fin 440 → EReal) (r c : Fin 20) : EReal := if r.val ≤ c.val then sqM P r c else 0

def lower (P : Fin 440 → EReal) (r c : Fin 20) : EReal := if c.val ≤ r.val then sqM P r c else 0

def outerM (even : Bool) (P : Fin 440 → EReal) (r c : Fin 20) : EReal := if even then upper P c r else upper P r c

/-- The inner triangular factor: the lower triangle (transposed in an odd step) with the slice's own diagonal. -/
def innerM (even : Bool) (P : Fin 440 → EReal) (r c : Fin 20) : EReal :=
  if r = c then P ⟨400 + r.val, by have := r.isLt; omega⟩ else (if even then lower P r c else lower P c r)

def biasV (P : Fin 440 → EReal) (j : Fin 20) : EReal := P ⟨420 + j.val, by have := j.isLt; omega⟩

def preRow (even : Bool) (P : Fin 440 → EReal) (zr : Fin 64 → EReal) (j : Fin 20) : EReal :=
  (∑ i : Fin 20, zr ⟨i.val, by have := i.isLt; omega⟩ * innerM even P j i) + biasV P j

def updRow (even : Bool) (P : Fin 440 → EReal) (zr : Fin 64 → EReal) (n : Fin 20) : EReal :=
  ∑ j : Fin 20, Ideal.tanh (preRow even P zr j) * outerM even P n j

/-- One Sylvester step on a row: z + R tanh(R̂ z₀ + b) on the first twenty coordinates, nothing on the rest. -/
def stepRow (even : Bool) (P : Fin 440 → EReal) (zr : Fin 64 → EReal) : Fin 64 → EReal :=
  fun n => zr n + (if h : n.val < 20 then updRow even P zr ⟨n.val, h⟩ else 0)

/-- The eight steps in order, parities alternating from even. -/
def flowRow (flow : Fin 3520 → EReal) (zr : Fin 64 → EReal) : Fin 64 → EReal :=
  stepRow false (paramSlice flow 7) (stepRow true (paramSlice flow 6) (stepRow false (paramSlice flow 5)
    (stepRow true (paramSlice flow 4) (stepRow false (paramSlice flow 3) (stepRow true (paramSlice flow 2)
      (stepRow false (paramSlice flow 1) (stepRow true (paramSlice flow 0) zr)))))))

def decodeRow (zr : Fin 64 → EReal) (W3 : Fin 400 → Fin 64 → EReal) (b3 : Fin 400 → EReal)
    (W4 : Fin 4096 → Fin 400 → EReal) (b4 : Fin 4096 → EReal) : Fin 4096 → EReal :=
  fun d => (∑ j : Fin 400, max ((∑ n : Fin 64, zr n * W3 j n) + b3 j) 0 * W4 d j) + b4 d

/-- A reconstructed row: the decoder of the flowed latent row. -/
def reconRow (mur lvr epsr : Fin 64 → EReal) (flow : Fin 3520 → EReal) (W3 : Fin 400 → Fin 64 → EReal) (b3 : Fin 400 → EReal)
    (W4 : Fin 4096 → Fin 400 → EReal) (b4 : Fin 4096 → EReal) : Fin 4096 → EReal :=
  decodeRow (flowRow flow (latentRow epsr lvr mur)) W3 b3 W4 b4

end Cert.Sylvester

end
-- ==== Proof.Whole.lean ====
import proofs.«125444_j2207613190724_1_alg».proof.Proof.Spec
import Idealize.ShloMosaic.Lib.ValueIdx

noncomputable section

namespace Cert.Sylvester

open Idealize.ShloMosaic Idealize.ShloMosaic.ValueIdx

abbrev cur2 {a b : ℕ} (v : (⟨2, ![a, b]⟩ : Shape).Idx → EReal) : Fin a → Fin b → EReal := fun i j => v (ix2 i j)

abbrev cur1 {a : ℕ} (v : (⟨1, ![a]⟩ : Shape).Idx → EReal) : Fin a → EReal := fun i => v (ix1 i)

/-- An affine image of the hidden layer as an array: row i 0, position i 1. -/
def affineArr (x : (⟨2, ![16384, 4096]⟩ : Shape).Idx → EReal) (W1 : (⟨2, ![400, 4096]⟩ : Shape).Idx → EReal)
    (b1 : (⟨1, ![400]⟩ : Shape).Idx → EReal) (W : (⟨2, ![64, 400]⟩ : Shape).Idx → EReal) (b : (⟨1, ![64]⟩ : Shape).Idx → EReal) :
    (⟨2, ![16384, 64]⟩ : Shape).Idx → EReal :=
  fun i => affineRow (hiddenRow (cur2 x (i 0)) (cur2 W1) (cur1 b1)) (cur2 W) (cur1 b) (i 1)

def flowVec (x : (⟨2, ![16384, 4096]⟩ : Shape).Idx → EReal) (W1 : (⟨2, ![400, 4096]⟩ : Shape).Idx → EReal)
    (b1 : (⟨1, ![400]⟩ : Shape).Idx → EReal) (W23 : (⟨2, ![3520, 400]⟩ : Shape).Idx → EReal) (b23 : (⟨1, ![3520]⟩ : Shape).Idx → EReal) :
    Fin 3520 → EReal :=
  flowMean (cur2 x) (cur2 W1) (cur1 b1) (cur2 W23) (cur1 b23)

def reconArr (mu lv eps : (⟨2, ![16384, 64]⟩ : Shape).Idx → EReal) (flow : Fin 3520 → EReal)
    (W3 : (⟨2, ![400, 64]⟩ : Shape).Idx → EReal) (b3 : (⟨1, ![400]⟩ : Shape).Idx → EReal)
    (W4 : (⟨2, ![4096, 400]⟩ : Shape).Idx → EReal) (b4 : (⟨1, ![4096]⟩ : Shape).Idx → EReal) :
    (⟨2, ![16384, 4096]⟩ : Shape).Idx → EReal :=
  fun i => reconRow (cur2 mu (i 0)) (cur2 lv (i 0)) (cur2 eps (i 0)) flow (cur2 W3) (cur1 b3) (cur2 W4) (cur1 b4) (i 1)

/-- The reconstruction as a function of the fourteen arguments: both programs end at this array. -/
def reconOf (x : (⟨2, ![16384, 4096]⟩ : Shape).Idx → EReal) (eps : (⟨2, ![16384, 64]⟩ : Shape).Idx → EReal)
    (W1 : (⟨2, ![400, 4096]⟩ : Shape).Idx → EReal) (b1 : (⟨1, ![400]⟩ : Shape).Idx → EReal)
    (W21 : (⟨2, ![64, 400]⟩ : Shape).Idx → EReal) (b21 : (⟨1, ![64]⟩ : Shape).Idx → EReal)
    (W22 : (⟨2, ![64, 400]⟩ : Shape).Idx → EReal) (b22 : (⟨1, ![64]⟩ : Shape).Idx → EReal)
    (W23 : (⟨2, ![3520, 400]⟩ : Shape).Idx → EReal) (b23 : (⟨1, ![3520]⟩ : Shape).Idx → EReal)
    (W3 : (⟨2, ![400, 64]⟩ : Shape).Idx → EReal) (b3 : (⟨1, ![400]⟩ : Shape).Idx → EReal)
    (W4 : (⟨2, ![4096, 400]⟩ : Shape).Idx → EReal) (b4 : (⟨1, ![4096]⟩ : Shape).Idx → EReal) :
    (⟨2, ![16384, 4096]⟩ : Shape).Idx → EReal :=
  reconArr (affineArr x W1 b1 W21 b21) (affineArr x W1 b1 W22 b22) eps (flowVec x W1 b1 W23 b23) W3 b3 W4 b4

end Cert.Sylvester

end
-- ==== Proof.LibPlainDot.lean ====
import Idealize.ShloMosaic.PureOps.Dims
import Idealize.ShloMosaic.Lib.ValueIdx

namespace PlainDot

open Idealize.ShloMosaic Idealize.ShloMosaic.ValueIdx

variable {R K C : Nat}

private theorem coord_val_congr {s : Shape} (j : s.Idx) (a b : Nat) (ha : a < s.rank) (hb : b < s.rank) (h : a = b) :
    (j ⟨a, ha⟩).val = (j ⟨b, hb⟩).val := by
  subst h; rfl

theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- A contraction of the second axis of A with the first of B is the plain sum over k of A p k · B k q. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.EncPayload.lean ====
import proofs.«125444_j2207613190724_1_alg».proof.Proof.Gen.KernelIdeal.Skeleton
import proofs.«125444_j2207613190724_1_alg».proof.Proof.Whole
import proofs.«125444_j2207613190724_1_alg».proof.Proof.LibPlainDot
import Idealize.ShloMosaic.PureOps.Ideal.Laws
import Idealize.ShloMosaic.Lib.ValueLayout

noncomputable section

namespace Cert.KernelIdeal.Enc

open Idealize.ShloMosaic Idealize.ShloMosaic.ValueIdx Cert.Sylvester

theorem matmul_plain {R K C : ℕ} {φ₁ φ₂ : FTy} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (l : FVec Ideal ⟨2, ![R, K]⟩ φ₁) (r : FVec Ideal ⟨2, ![K, C]⟩ φ₂) (p : Fin R) (q : Fin C) :
    matmul d prec l r (constant (F := Ideal) ⟨2, ![R, C]⟩ .f32 0x00000000#32) (ix2 p q)
      = ∑ k : Fin K, l (ix2 p k) * r (ix2 k q) :=
  (Ideal.matmul_constant_zero_apply d prec l r (ix2 p q)).trans (PlainDot.sum_eq d hlb hln hlc hrb hrn hrc l r p q)

theorem bias_row {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

theorem sum_rows {a b : ℕ} (x : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (c : Fin b) :
    multiReduction .add [0] ⟨1, ![b]⟩ x 0x00000000#32 h hφ hacc (ix1 c) = ∑ r : Fin a, x (ix2 r c) := by
  refine (Ideal.multiReduction_add_single x _ h hφ hacc (ix1 c)).trans ?_
  refine Finset.sum_congr rfl fun r _ => congrArg x ?_
  funext ax
  apply Fin.ext
  match ax with
  | ⟨0, _⟩ => rfl
  | ⟨1, _⟩ => rfl

theorem pay3_at (i : S1x3520.Idx) : Gen.k0_pay3 (F := Ideal) i = 0 := by
  unfold Gen.k0_pay3
  exact Ideal.ofBits_zero_f32

theorem ofBits_inv_16384 : Ideal.ofBits .f32 0x38800000#32 = ((1 / 16384 : ℝ) : EReal) := by
  simp [Ideal.ofBits, Ideal.ieee, -EReal.coe_mul]; norm_num

theorem pay2_at (v51 : Vec Ideal S1x3520 .f32) (p : Fin 3520) :
    Gen.k0_pay2 (F := Ideal) v51 (ix2 (0 : Fin 1) p) = v51 (ix2 (0 : Fin 1) p) * ((1 / 16384 : ℝ) : EReal) := by
  unfold Gen.k0_pay2
  rw [← ofBits_inv_16384, shapeCast_self]
  rfl

theorem pay4_at (v3 : Vec Ideal S256x4096 .f32) (v5 : Vec Ideal S400x4096 .f32) (v9 : Vec Ideal S400 .f32)
    (r : Fin 256) (j : Fin 400) :
    Gen.k0_pay4 (F := Ideal) v3 v5 v9 (ix2 r j) = Sylvester.hiddenRow (cur2 v3 r) (cur2 v5) (cur1 v9) j := by
  unfold Gen.k0_pay4
  rw [truncf_apply, maximumf_apply, addf_apply, broadcast_apply, bias_row,
    matmul_plain _ rfl rfl rfl rfl rfl rfl]
  unfold Sylvester.hiddenRow
  refine congrArg₂ max (congrArg₂ (· + ·) (Finset.sum_congr rfl fun k _ => congrArg₂ (· * ·) rfl ?_) rfl) Ideal.ofBits_zero_f32
  exact transpose_ix2_apply _ _ k j

theorem pay5_at (v3 : Vec Ideal S256x4096 .f32) (v5 : Vec Ideal S400x4096 .f32) (v9 : Vec Ideal S400 .f32)
    (v16 : Vec Ideal S64x400 .f32) (v20 : Vec Ideal S64 .f32) (r : Fin 256) (n : Fin 64) :
    Gen.k0_pay5 (F := Ideal) v3 v5 v9 v16 v20 (ix2 r n)
      = Sylvester.affineRow (Sylvester.hiddenRow (cur2 v3 r) (cur2 v5) (cur1 v9)) (cur2 v16) (cur1 v20) n := by
  unfold Gen.k0_pay5
  rw [addf_apply, bias_row, matmul_plain _ rfl rfl rfl rfl rfl rfl]
  unfold Sylvester.affineRow
  refine congrArg₂ (· + ·) (Finset.sum_congr rfl fun k _ => congrArg₂ (· * ·) (pay4_at v3 v5 v9 r k) ?_) rfl
  exact transpose_ix2_apply _ _ k n

theorem pay6_at (v3 : Vec Ideal S256x4096 .f32) (v5 : Vec Ideal S400x4096 .f32) (v9 : Vec Ideal S400 .f32)
    (v25 : Vec Ideal S64x400 .f32) (v29 : Vec Ideal S64 .f32) (r : Fin 256) (n : Fin 64) :
    Gen.k0_pay6 (F := Ideal) v3 v5 v9 v25 v29 (ix2 r n)
      = Sylvester.affineRow (Sylvester.hiddenRow (cur2 v3 r) (cur2 v5) (cur1 v9)) (cur2 v25) (cur1 v29) n := by
  unfold Gen.k0_pay6
  rw [addf_apply, bias_row, matmul_plain _ rfl rfl rfl rfl rfl rfl]
  unfold Sylvester.affineRow
  refine congrArg₂ (· + ·) (Finset.sum_congr rfl fun k _ => congrArg₂ (· * ·) (pay4_at v3 v5 v9 r k) ?_) rfl
  exact transpose_ix2_apply _ _ k n

theorem pay1_at (v15 : FVec Ideal S256x400 .bf16) (v34 : Vec Ideal S3520x400 .f32) (v38 : Vec Ideal S3520 .f32)
    (v44 : Vec Ideal S1x3520 .f32) (p : Fin 3520) :
    Gen.k0_pay1 (F := Ideal) v15 v34 v38 v44 (ix2 (0 : Fin 1) p)
      = v44 (ix2 (0 : Fin 1) p) + ∑ r : Fin 256, Sylvester.affineRow (cur2 v15 r) (cur2 v34) (cur1 v38) p := by
  unfold Gen.k0_pay1
  rw [addf_apply, shapeCast_self, shapeCast_a_1a_apply]
  refine congrArg (v44 (ix2 (0 : Fin 1) p) + ·) ?_
  refine (sum_rows _ Gen.reduces_S256x3520_S3520 _ _ p).trans ?_
  refine Finset.sum_congr rfl fun r _ => ?_
  rw [addf_apply, bias_row, matmul_plain _ rfl rfl rfl rfl rfl rfl]
  unfold Sylvester.affineRow
  refine congrArg₂ (· + ·) (Finset.sum_congr rfl fun k _ => congrArg (_ * ·) ?_) rfl
  exact transpose_ix2_apply _ _ k p

end Cert.KernelIdeal.Enc

end
-- ==== Proof.EncPiece.lean ====
import proofs.«125444_j2207613190724_1_alg».proof.Proof.Gen.KernelIdeal.Frame
import Idealize.ShloMosaic.Lib.Pipeline.Value
import Idealize.ShloMosaic.Lib.Tactic

noncomputable section

namespace Cert.KernelIdeal.Enc

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

variable (c : Dev nD) (i : grid0.Coords) (a1 : Memref sig .tc .vmem S256x4096 .f32) (h1 : a1.IsWhole) (a2 : Memref sig .tc .vmem S400x4096 .f32) (h2 : a2.IsWhole) (a3 : Memref sig .tc .vmem S400 .f32) (h3 : a3.IsWhole) (a4 : Memref sig .tc .vmem S64x400 .f32) (h4 : a4.IsWhole) (a5 : Memref sig .tc .vmem S64 .f32) (h5 : a5.IsWhole) (a6 : Memref sig .tc .vmem S64x400 .f32) (h6 : a6.IsWhole) (a7 : Memref sig .tc .vmem S64 .f32) (h7 : a7.IsWhole) (a8 : Memref sig .tc .vmem S3520x400 .f32) (h8 : a8.IsWhole) (a9 : Memref sig .tc .vmem S3520 .f32) (h9 : a9.IsWhole) (a10 : Memref sig .tc .vmem S256x64 .f32) (h10 : a10.IsWhole) (a11 : Memref sig .tc .vmem S256x64 .f32) (h11 : a11.IsWhole) (a12 : Memref sig .tc .vmem S1x3520 .f32) (h12 : a12.IsWhole)

section A

variable (hc0 : cond0_0 i) (hc1 : ¬cond0_1 i)
  (x0 : Vec F S256x4096 .f32) (x1 : Vec F S400x4096 .f32) (x2 : Vec F S400 .f32) (x3 : Vec F S64x400 .f32) (x4 : Vec F S64 .f32) (x5 : Vec F S64x400 .f32) (x6 : Vec F S64 .f32) (x7 : Vec F S3520x400 .f32) (x8 : Vec F S3520 .f32)

theorem mu_A :
    out0_A_9 c i a1 h1 a2 h2 a3 h3 a4 h4 a5 h5 a6 h6 a7 h7 a8 h8 a9 h9 a10 h10 a11 h11 a12 h12 hc0 hc1 x0 x1 x2 x3 x4 x5 x6 x7 x8 = k0_pay5 x0 x1 x2 x3 x4 := by
  unfold out0_A_9
  rw [View.read_writes_eq_canon _ _ _ (cover0_A_9 c i a1 h1 a2 h2 a3 h3 a4 h4 a5 h5 a6 h6 a7 h7 a8 h8 a9 h9 a10 h10 a11 h11 a12 h12 hc0 hc1 x0 x1 x2 x3 x4 x5 x6 x7 x8)]
  unfold kernelRun0_A
  dsimp only
  sl_unfold_words
  rw [View.canon_unit_zero (S := S256x64) hz2]
  simp only [View.readAt_eq_ld, h1.read_unread, h2.read_unread, h3.read_unread, h4.read_unread, h5.read_unread, h6.read_unread, h7.read_unread, h8.read_unread, h9.read_unread, h12.read_unread,
    View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2,
    View.readCov_unit_zero (S := S1x3520) _ hz2]

theorem logvar_A :
    out0_A_10 c i a1 h1 a2 h2 a3 h3 a4 h4 a5 h5 a6 h6 a7 h7 a8 h8 a9 h9 a10 h10 a11 h11 a12 h12 hc0 hc1 x0 x1 x2 x3 x4 x5 x6 x7 x8 = k0_pay6 x0 x1 x2 x5 x6 := by
  unfold out0_A_10
  rw [View.read_writes_eq_canon _ _ _ (cover0_A_10 c i a1 h1 a2 h2 a3 h3 a4 h4 a5 h5 a6 h6 a7 h7 a8 h8 a9 h9 a10 h10 a11 h11 a12 h12 hc0 hc1 x0 x1 x2 x3 x4 x5 x6 x7 x8)]
  unfold kernelRun0_A
  dsimp only
  sl_unfold_words
  rw [View.canon_unit_zero (S := S256x64) hz2]
  simp only [View.readAt_eq_ld, h1.read_unread, h2.read_unread, h3.read_unread, h4.read_unread, h5.read_unread, h6.read_unread, h7.read_unread, h8.read_unread, h9.read_unread, h12.read_unread,
    View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2,
    View.readCov_unit_zero (S := S1x3520) _ hz2]

theorem acc_A :
    out0_A_11 c i a1 h1 a2 h2 a3 h3 a4 h4 a5 h5 a6 h6 a7 h7 a8 h8 a9 h9 a10 h10 a11 h11 a12 h12 hc0 hc1 x0 x1 x2 x3 x4 x5 x6 x7 x8 = k0_pay1 (k0_pay4 x0 x1 x2) x7 x8 (k0_pay3 (F := F)) := by
  unfold out0_A_11
  rw [View.read_writes_eq_canon _ _ _ (cover0_A_11 c i a1 h1 a2 h2 a3 h3 a4 h4 a5 h5 a6 h6 a7 h7 a8 h8 a9 h9 a10 h10 a11 h11 a12 h12 hc0 hc1 x0 x1 x2 x3 x4 x5 x6 x7 x8)]
  unfold kernelRun0_A
  dsimp only
  sl_unfold_words
  rw [View.canon_cons_unit_zero (S := S1x3520) hz2]
  simp only [View.readAt_eq_ld, h1.read_unread, h2.read_unread, h3.read_unread, h4.read_unread, h5.read_unread, h6.read_unread, h7.read_unread, h8.read_unread, h9.read_unread, h12.read_unread,
    View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2,
    View.readCov_unit_zero (S := S1x3520) _ hz2]

end A

section B

variable (hc0 : ¬cond0_0 i) (hc1 : ¬cond0_1 i)
  (x0 : Vec F S256x4096 .f32) (x1 : Vec F S400x4096 .f32) (x2 : Vec F S400 .f32) (x3 : Vec F S64x400 .f32) (x4 : Vec F S64 .f32) (x5 : Vec F S64x400 .f32) (x6 : Vec F S64 .f32) (x7 : Vec F S3520x400 .f32) (x8 : Vec F S3520 .f32) (xo : Vec F S1x3520 .f32)

theorem mu_B :
    out0_B_9 c i a1 h1 a2 h2 a3 h3 a4 h4 a5 h5 a6 h6 a7 h7 a8 h8 a9 h9 a10 h10 a11 h11 a12 h12 hc0 hc1 x0 x1 x2 x3 x4 x5 x6 x7 x8 xo = k0_pay5 x0 x1 x2 x3 x4 := by
  unfold out0_B_9
  rw [View.read_writes_eq_canon _ _ _ (cover0_B_9 c i a1 h1 a2 h2 a3 h3 a4 h4 a5 h5 a6 h6 a7 h7 a8 h8 a9 h9 a10 h10 a11 h11 a12 h12 hc0 hc1 x0 x1 x2 x3 x4 x5 x6 x7 x8 xo)]
  unfold kernelRun0_B
  dsimp only
  sl_unfold_words
  rw [View.canon_unit_zero (S := S256x64) hz2]
  simp only [View.readAt_eq_ld, h1.read_unread, h2.read_unread, h3.read_unread, h4.read_unread, h5.read_unread, h6.read_unread, h7.read_unread, h8.read_unread, h9.read_unread, h12.read_unread,
    View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2,
    View.readCov_unit_zero (S := S1x3520) _ hz2]

theorem logvar_B :
    out0_B_10 c i a1 h1 a2 h2 a3 h3 a4 h4 a5 h5 a6 h6 a7 h7 a8 h8 a9 h9 a10 h10 a11 h11 a12 h12 hc0 hc1 x0 x1 x2 x3 x4 x5 x6 x7 x8 xo = k0_pay6 x0 x1 x2 x5 x6 := by
  unfold out0_B_10
  rw [View.read_writes_eq_canon _ _ _ (cover0_B_10 c i a1 h1 a2 h2 a3 h3 a4 h4 a5 h5 a6 h6 a7 h7 a8 h8 a9 h9 a10 h10 a11 h11 a12 h12 hc0 hc1 x0 x1 x2 x3 x4 x5 x6 x7 x8 xo)]
  unfold kernelRun0_B
  dsimp only
  sl_unfold_words
  rw [View.canon_unit_zero (S := S256x64) hz2]
  simp only [View.readAt_eq_ld, h1.read_unread, h2.read_unread, h3.read_unread, h4.read_unread, h5.read_unread, h6.read_unread, h7.read_unread, h8.read_unread, h9.read_unread, h12.read_unread,
    View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2,
    View.readCov_unit_zero (S := S1x3520) _ hz2]

theorem acc_B :
    out0_B_11 c i a1 h1 a2 h2 a3 h3 a4 h4 a5 h5 a6 h6 a7 h7 a8 h8 a9 h9 a10 h10 a11 h11 a12 h12 hc0 hc1 x0 x1 x2 x3 x4 x5 x6 x7 x8 xo = k0_pay1 (k0_pay4 x0 x1 x2) x7 x8 xo := by
  unfold out0_B_11
  rw [View.read_writes_eq_canon _ _ _ (cover0_B_11 c i a1 h1 a2 h2 a3 h3 a4 h4 a5 h5 a6 h6 a7 h7 a8 h8 a9 h9 a10 h10 a11 h11 a12 h12 hc0 hc1 x0 x1 x2 x3 x4 x5 x6 x7 x8 xo)]
  unfold kernelRun0_B
  dsimp only
  sl_unfold_words
  rw [View.canon_unit_zero (S := S1x3520) hz2]
  simp only [View.readAt_eq_ld, h1.read_unread, h2.read_unread, h3.read_unread, h4.read_unread, h5.read_unread, h6.read_unread, h7.read_unread, h8.read_unread, h9.read_unread, h12.read_unread,
    View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2,
    View.readCov_unit_zero (S := S1x3520) _ hz2]

end B

section C

variable (hc0 : ¬cond0_0 i) (hc1 : cond0_1 i)
  (x0 : Vec F S256x4096 .f32) (x1 : Vec F S400x4096 .f32) (x2 : Vec F S400 .f32) (x3 : Vec F S64x400 .f32) (x4 : Vec F S64 .f32) (x5 : Vec F S64x400 .f32) (x6 : Vec F S64 .f32) (x7 : Vec F S3520x400 .f32) (x8 : Vec F S3520 .f32) (xo : Vec F S1x3520 .f32)

theorem mu_C :
    out0_C_9 c i a1 h1 a2 h2 a3 h3 a4 h4 a5 h5 a6 h6 a7 h7 a8 h8 a9 h9 a10 h10 a11 h11 a12 h12 hc0 hc1 x0 x1 x2 x3 x4 x5 x6 x7 x8 xo = k0_pay5 x0 x1 x2 x3 x4 := by
  unfold out0_C_9
  rw [View.read_writes_eq_canon _ _ _ (cover0_C_9 c i a1 h1 a2 h2 a3 h3 a4 h4 a5 h5 a6 h6 a7 h7 a8 h8 a9 h9 a10 h10 a11 h11 a12 h12 hc0 hc1 x0 x1 x2 x3 x4 x5 x6 x7 x8 xo)]
  unfold kernelRun0_C
  dsimp only
  sl_unfold_words
  rw [View.canon_unit_zero (S := S256x64) hz2]
  simp only [View.readAt_eq_ld, h1.read_unread, h2.read_unread, h3.read_unread, h4.read_unread, h5.read_unread, h6.read_unread, h7.read_unread, h8.read_unread, h9.read_unread, h12.read_unread,
    View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2,
    View.readCov_unit_zero (S := S1x3520) _ hz2]

theorem logvar_C :
    out0_C_10 c i a1 h1 a2 h2 a3 h3 a4 h4 a5 h5 a6 h6 a7 h7 a8 h8 a9 h9 a10 h10 a11 h11 a12 h12 hc0 hc1 x0 x1 x2 x3 x4 x5 x6 x7 x8 xo = k0_pay6 x0 x1 x2 x5 x6 := by
  unfold out0_C_10
  rw [View.read_writes_eq_canon _ _ _ (cover0_C_10 c i a1 h1 a2 h2 a3 h3 a4 h4 a5 h5 a6 h6 a7 h7 a8 h8 a9 h9 a10 h10 a11 h11 a12 h12 hc0 hc1 x0 x1 x2 x3 x4 x5 x6 x7 x8 xo)]
  unfold kernelRun0_C
  dsimp only
  sl_unfold_words
  rw [View.canon_unit_zero (S := S256x64) hz2]
  simp only [View.readAt_eq_ld, h1.read_unread, h2.read_unread, h3.read_unread, h4.read_unread, h5.read_unread, h6.read_unread, h7.read_unread, h8.read_unread, h9.read_unread, h12.read_unread,
    View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2,
    View.readCov_unit_zero (S := S1x3520) _ hz2]

theorem acc_C :
    out0_C_11 c i a1 h1 a2 h2 a3 h3 a4 h4 a5 h5 a6 h6 a7 h7 a8 h8 a9 h9 a10 h10 a11 h11 a12 h12 hc0 hc1 x0 x1 x2 x3 x4 x5 x6 x7 x8 xo = k0_pay2 (k0_pay1 (k0_pay4 x0 x1 x2) x7 x8 xo) := by
  unfold out0_C_11
  rw [View.read_writes_eq_canon _ _ _ (cover0_C_11 c i a1 h1 a2 h2 a3 h3 a4 h4 a5 h5 a6 h6 a7 h7 a8 h8 a9 h9 a10 h10 a11 h11 a12 h12 hc0 hc1 x0 x1 x2 x3 x4 x5 x6 x7 x8 xo)]
  unfold kernelRun0_C
  dsimp only
  sl_unfold_words
  rw [View.canon_cons_unit_zero (S := S1x3520) hz2]
  simp only [View.readAt_eq_ld, h1.read_unread, h2.read_unread, h3.read_unread, h4.read_unread, h5.read_unread, h6.read_unread, h7.read_unread, h8.read_unread, h9.read_unread, h12.read_unread,
    View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2,
    View.readCov_unit_zero (S := S1x3520) _ hz2]

end C

end Cert.KernelIdeal.Enc

end
-- ==== Proof.EncSum.lean ====
import Mathlib.Algebra.BigOperators.Fin
import Mathlib.Data.Fintype.BigOperators
import Mathlib.Logic.Equiv.Fin.Basic

namespace Cert.KernelIdeal.Enc

/-- Summing 64 blocks of 256 consecutive rows is summing all 16384 rows: (t, r) ↦ 256 t + r is a bijection. -/
theorem sum_blocks {M : Type*} [AddCommMonoid M] (g : Fin 16384 → M) :
    ∑ t : Fin 64, ∑ r : Fin 256, g ⟨256 * t.val + r.val, by have := t.isLt; have := r.isLt; omega⟩ = ∑ b : Fin 16384, g b := by
  rw [← Fintype.sum_prod_type']
  refine Fintype.sum_equiv (finProdFinEquiv (m := 64) (n := 256)) _ _ (fun x => ?_)
  congr 1
  exact Fin.ext (by show 256 * x.1.val + x.2.val = x.2.val + 256 * x.1.val; omega)

theorem sum_range_blocks {M : Type*} [AddCommMonoid M] (g : Fin 16384 → M) (G : ℕ → M)
    (hG : ∀ t : Fin 64, G t.val = ∑ r : Fin 256, g ⟨256 * t.val + r.val, by have := t.isLt; have := r.isLt; omega⟩) :
    ∑ s ∈ Finset.range 64, G s = ∑ b : Fin 16384, g b := by
  rw [← sum_blocks g, ← Fin.sum_univ_eq_sum_range]
  exact Finset.sum_congr rfl fun t _ => hG t

end Cert.KernelIdeal.Enc
-- ==== Proof.EncArray.lean ====
import proofs.«125444_j2207613190724_1_alg».proof.Proof.Gen.KernelIdeal.Frame
import proofs.«125444_j2207613190724_1_alg».proof.Proof.Whole
import proofs.«125444_j2207613190724_1_alg».proof.Proof.EncPayload
import proofs.«125444_j2207613190724_1_alg».proof.Proof.EncPiece
import proofs.«125444_j2207613190724_1_alg».proof.Proof.EncSum
import Idealize.ShloMosaic.Lib.Pipeline.Value
import Idealize.ShloMosaic.Lib.Tactic

noncomputable section

namespace Cert.KernelIdeal.Enc

open Idealize.ShloMosaic Idealize.ShloMosaic.TcCoe Idealize.ShloMosaic.ValueIdx Idealize.SL.Sem
open Idealize.ShloMosaic.Pipeline (Dat)
open Cert.KernelIdeal Cert.KernelIdeal.Gen Cert.Sylvester

variable (V : (c : Dev nD) → (b : Ref sig .tc) → Buf (Elt Ideal) ((c : Thread nD τ).loc b))

abbrev xarr (c : Dev nD) : Vec Ideal S16384x4096 .f32 := V c main_arg0
abbrev W1arr (c : Dev nD) : Vec Ideal S400x4096 .f32 := V c main_arg2
abbrev b1arr (c : Dev nD) : Vec Ideal S400 .f32 := V c main_arg3
abbrev W21arr (c : Dev nD) : Vec Ideal S64x400 .f32 := V c main_arg4
abbrev b21arr (c : Dev nD) : Vec Ideal S64 .f32 := V c main_arg5
abbrev W22arr (c : Dev nD) : Vec Ideal S64x400 .f32 := V c main_arg6
abbrev b22arr (c : Dev nD) : Vec Ideal S64 .f32 := V c main_arg7
abbrev W23arr (c : Dev nD) : Vec Ideal S3520x400 .f32 := V c main_arg8
abbrev b23arr (c : Dev nD) : Vec Ideal S3520 .f32 := V c main_arg9

abbrev xblk (c : Dev nD) (t : Fin cfg0.N) : Vec Ideal S256x4096 .f32 := iblk0 V c 0 t
abbrev W1blk (c : Dev nD) (t : Fin cfg0.N) : Vec Ideal S400x4096 .f32 := iblk0 V c 1 t
abbrev b1blk (c : Dev nD) (t : Fin cfg0.N) : Vec Ideal S400 .f32 := iblk0 V c 2 t
abbrev W21blk (c : Dev nD) (t : Fin cfg0.N) : Vec Ideal S64x400 .f32 := iblk0 V c 3 t
abbrev b21blk (c : Dev nD) (t : Fin cfg0.N) : Vec Ideal S64 .f32 := iblk0 V c 4 t
abbrev W22blk (c : Dev nD) (t : Fin cfg0.N) : Vec Ideal S64x400 .f32 := iblk0 V c 5 t
abbrev b22blk (c : Dev nD) (t : Fin cfg0.N) : Vec Ideal S64 .f32 := iblk0 V c 6 t
abbrev W23blk (c : Dev nD) (t : Fin cfg0.N) : Vec Ideal S3520x400 .f32 := iblk0 V c 7 t
abbrev b23blk (c : Dev nD) (t : Fin cfg0.N) : Vec Ideal S3520 .f32 := iblk0 V c 8 t

theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = 0 ∧ win0_11.index t (1 : Fin 2) = 0) :=
  (by decide +kernel : ∀ t : Fin grid0.N, _)

theorem xblk_row (c : Dev nD) (t : Fin cfg0.N) (r : Fin 256) (hb : 256 * t.val + r.val < 16384) :
    cur2 (xblk V c t) r = cur2 (xarr V c) ⟨256 * t.val + r.val, hb⟩ := by
  funext k
  show iblk0 V c 0 t (ix2 r k) = V c main_arg0 (ix2 ⟨256 * t.val + r.val, hb⟩ k)
  unfold iblk0
  rw [View.read_apply]
  show V c main_arg0 _ = V c main_arg0 _
  congr 1
  funext a
  apply Fin.ext
  have hi := (idx_facts t).1
  match a with
  | ⟨0, _⟩ => show win0_0.index t 0 * 256 + 1 * r.val = 256 * t.val + r.val; rw [hi.1]; omega
  | ⟨1, _⟩ => show win0_0.index t 1 * 4096 + 1 * k.val = k.val; rw [hi.2]; omega

theorem W1blk_eq (c : Dev nD) (t : Fin cfg0.N) : W1blk V c t = W1arr V c := by
  funext j
  show iblk0 V c 1 t j = V c main_arg2 j
  unfold iblk0
  rw [View.read_apply]
  show V c main_arg2 _ = V c main_arg2 _
  congr 1
  funext a
  apply Fin.ext
  have hi := (idx_facts t).2.1
  match a with
  | ⟨0, _⟩ => show win0_1.index t 0 * 400 + 1 * (j 0).val = (j 0).val; rw [hi.1]; omega
  | ⟨1, _⟩ => show win0_1.index t 1 * 4096 + 1 * (j 1).val = (j 1).val; rw [hi.2]; omega

theorem b1blk_eq (c : Dev nD) (t : Fin cfg0.N) : b1blk V c t = b1arr V c := by
  funext j
  show iblk0 V c 2 t j = V c main_arg3 j
  unfold iblk0
  rw [View.read_apply]
  show V c main_arg3 _ = V c main_arg3 _
  congr 1
  funext a
  apply Fin.ext
  have hi := (idx_facts t).2.2.1
  match a with
  | ⟨0, _⟩ => show win0_2.index t 0 * 400 + 1 * (j 0).val = (j 0).val; rw [hi]; omega

theorem W21blk_eq (c : Dev nD) (t : Fin cfg0.N) : W21blk V c t = W21arr V c := by
  funext j
  show iblk0 V c 3 t j = V c main_arg4 j
  unfold iblk0
  rw [View.read_apply]
  show V c main_arg4 _ = V c main_arg4 _
  congr 1
  funext a
  apply Fin.ext
  have hi := (idx_facts t).2.2.2.1
  match a with
  | ⟨0, _⟩ => show win0_3.index t 0 * 64 + 1 * (j 0).val = (j 0).val; rw [hi.1]; omega
  | ⟨1, _⟩ => show win0_3.index t 1 * 400 + 1 * (j 1).val = (j 1).val; rw [hi.2]; omega

theorem b21blk_eq (c : Dev nD) (t : Fin cfg0.N) : b21blk V c t = b21arr V c := by
  funext j
  show iblk0 V c 4 t j = V c main_arg5 j
  unfold iblk0
  rw [View.read_apply]
  show V c main_arg5 _ = V c main_arg5 _
  congr 1
  funext a
  apply Fin.ext
  have hi := (idx_facts t).2.2.2.2.1
  match a with
  | ⟨0, _⟩ => show win0_4.index t 0 * 64 + 1 * (j 0).val = (j 0).val; rw [hi]; omega

theorem W22blk_eq (c : Dev nD) (t : Fin cfg0.N) : W22blk V c t = W22arr V c := by
  funext j
  show iblk0 V c 5 t j = V c main_arg6 j
  unfold iblk0
  rw [View.read_apply]
  show V c main_arg6 _ = V c main_arg6 _
  congr 1
  funext a
  apply Fin.ext
  have hi := (idx_facts t).2.2.2.2.2.1
  match a with
  | ⟨0, _⟩ => show win0_5.index t 0 * 64 + 1 * (j 0).val = (j 0).val; rw [hi.1]; omega
  | ⟨1, _⟩ => show win0_5.index t 1 * 400 + 1 * (j 1).val = (j 1).val; rw [hi.2]; omega

theorem b22blk_eq (c : Dev nD) (t : Fin cfg0.N) : b22blk V c t = b22arr V c := by
  funext j
  show iblk0 V c 6 t j = V c main_arg7 j
  unfold iblk0
  rw [View.read_apply]
  show V c main_arg7 _ = V c main_arg7 _
  congr 1
  funext a
  apply Fin.ext
  have hi := (idx_facts t).2.2.2.2.2.2.1
  match a with
  | ⟨0, _⟩ => show win0_6.index t 0 * 64 + 1 * (j 0).val = (j 0).val; rw [hi]; omega

theorem W23blk_eq (c : Dev nD) (t : Fin cfg0.N) : W23blk V c t = W23arr V c := by
  funext j
  show iblk0 V c 7 t j = V c main_arg8 j
  unfold iblk0
  rw [View.read_apply]
  show V c main_arg8 _ = V c main_arg8 _
  congr 1
  funext a
  apply Fin.ext
  have hi := (idx_facts t).2.2.2.2.2.2.2.1
  match a with
  | ⟨0, _⟩ => show win0_7.index t 0 * 3520 + 1 * (j 0).val = (j 0).val; rw [hi.1]; omega
  | ⟨1, _⟩ => show win0_7.index t 1 * 400 + 1 * (j 1).val = (j 1).val; rw [hi.2]; omega

theorem b23blk_eq (c : Dev nD) (t : Fin cfg0.N) : b23blk V c t = b23arr V c := by
  funext j
  show iblk0 V c 8 t j = V c main_arg9 j
  unfold iblk0
  rw [View.read_apply]
  show V c main_arg9 _ = V c main_arg9 _
  congr 1
  funext a
  apply Fin.ext
  have hi := (idx_facts t).2.2.2.2.2.2.2.2.1
  match a with
  | ⟨0, _⟩ => show win0_8.index t 0 * 3520 + 1 * (j 0).val = (j 0).val; rw [hi]; omega

theorem mu_at (c : Dev nD) (t : Fin cfg0.N) :
    (outsAt0 V c t.val t.isLt).1
      = k0_pay5 (F := Ideal) (xblk V c t) (W1blk V c t) (b1blk V c t) (W21blk V c t) (b21blk V c t) := by
  have hN : t.val < 64 := lt_of_lt_of_eq t.isLt (show cfg0.N = 64 from N_0)
  by_cases h0 : t.val % 64 = 0
  · have h1 : ¬t.val % 64 = 63 := by omega
    rw [outsAt0_A V c t h0 h1]; dsimp only
    exact mu_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)
  · by_cases h1 : t.val % 64 = 63
    · rw [outsAt0_C V c t h0 h1]; dsimp only
      exact mu_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2
    · rw [outsAt0_B V c t h0 h1]; dsimp only
      exact mu_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2

theorem logvar_at (c : Dev nD) (t : Fin cfg0.N) :
    (outsAt0 V c t.val t.isLt).2.1
      = k0_pay6 (F := Ideal) (xblk V c t) (W1blk V c t) (b1blk V c t) (W22blk V c t) (b22blk V c t) := by
  have hN : t.val < 64 := lt_of_lt_of_eq t.isLt (show cfg0.N = 64 from N_0)
  by_cases h0 : t.val % 64 = 0
  · have h1 : ¬t.val % 64 = 63 := by omega
    rw [outsAt0_A V c t h0 h1]; dsimp only
    exact logvar_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)
  · by_cases h1 : t.val % 64 = 63
    · rw [outsAt0_C V c t h0 h1]; dsimp only
      exact logvar_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2
    · rw [outsAt0_B V c t h0 h1]; dsimp only
      exact logvar_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2

theorem acc_first (c : Dev nD) (t : Fin cfg0.N) (h0 : t.val % 64 = 0) :
    (outsAt0 V c t.val t.isLt).2.2
      = k0_pay1 (F := Ideal) (k0_pay4 (F := Ideal) (xblk V c t) (W1blk V c t) (b1blk V c t)) (W23blk V c t) (b23blk V c t) (k0_pay3 (F := Ideal)) := by
  have h1 : ¬t.val % 64 = 63 := by omega
  rw [outsAt0_A V c t h0 h1]; dsimp only
  exact acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)

theorem acc_mid (c : Dev nD) (t : Fin cfg0.N) (h0 : ¬t.val % 64 = 0) (h1 : ¬t.val % 64 = 63) :
    (outsAt0 V c t.val t.isLt).2.2
      = k0_pay1 (F := Ideal) (k0_pay4 (F := Ideal) (xblk V c t) (W1blk V c t) (b1blk V c t)) (W23blk V c t) (b23blk V c t) (outsAt0 V c (t.val - 1) (Nat.lt_of_le_of_lt (Nat.sub_le _ _) t.isLt)).2.2 := by
  rw [outsAt0_B V c t h0 h1]; dsimp only
  exact acc_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2

theorem acc_last (c : Dev nD) (t : Fin cfg0.N) (h0 : ¬t.val % 64 = 0) (h1 : t.val % 64 = 63) :
    (outsAt0 V c t.val t.isLt).2.2
      = k0_pay2 (F := Ideal) (k0_pay1 (F := Ideal) (k0_pay4 (F := Ideal) (xblk V c t) (W1blk V c t) (b1blk V c t)) (W23blk V c t) (b23blk V c t) (outsAt0 V c (t.val - 1) (Nat.lt_of_le_of_lt (Nat.sub_le _ _) t.isLt)).2.2) := by
  rw [outsAt0_C V c t h0 h1]; dsimp only
  exact acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2

abbrev rowTerm (c : Dev nD) (p : Fin 3520) (b : Fin 16384) : EReal :=
  affineRow (hiddenRow (cur2 (xarr V c) b) (cur2 (W1arr V c)) (cur1 (b1arr V c))) (cur2 (W23arr V c)) (cur1 (b23arr V c)) p

def blockTerm (c : Dev nD) (p : Fin 3520) (s : ℕ) : EReal :=
  if h : s < 64 then ∑ r : Fin 256, rowTerm V c p ⟨256 * s + r.val, by have := r.isLt; omega⟩ else 0

theorem step_sum (c : Dev nD) (t : Fin cfg0.N) (p : Fin 3520) (acc : Vec Ideal S1x3520 .f32) :
    k0_pay1 (F := Ideal) (k0_pay4 (F := Ideal) (xblk V c t) (W1blk V c t) (b1blk V c t)) (W23blk V c t) (b23blk V c t) acc (ix2 (0 : Fin 1) p)
      = acc (ix2 (0 : Fin 1) p) + blockTerm V c p t.val := by
  have hN : t.val < 64 := lt_of_lt_of_eq t.isLt (show cfg0.N = 64 from N_0)
  refine (pay1_at (k0_pay4 (F := Ideal) (xblk V c t) (W1blk V c t) (b1blk V c t)) (W23blk V c t) (b23blk V c t) acc p).trans ?_
  congr 1
  unfold blockTerm
  rw [dif_pos hN]
  refine Finset.sum_congr rfl fun r _ => ?_
  have hh : cur2 (k0_pay4 (F := Ideal) (xblk V c t) (W1blk V c t) (b1blk V c t)) r
      = hiddenRow (cur2 (xblk V c t) r) (cur2 (W1blk V c t)) (cur1 (b1blk V c t)) :=
    funext fun j => pay4_at (xblk V c t) (W1blk V c t) (b1blk V c t) r j
  rw [hh, xblk_row V c t r (by have := r.isLt; omega), W1blk_eq, b1blk_eq, W23blk_eq, b23blk_eq]

/-- After point n < 63 the accumulator row holds the column sums over the rows of blocks 0 … n: induction on the point. -/
theorem acc_inv (c : Dev nD) (p : Fin 3520) : ∀ (n : ℕ) (h : n < cfg0.N), n < 63 →
    (outsAt0 V c n h).2.2 (ix2 (0 : Fin 1) p) = ∑ s ∈ Finset.range (n + 1), blockTerm V c p s
  | 0, h, _ => by
    refine (congrFun (acc_first V c ⟨0, h⟩ rfl) (ix2 (0 : Fin 1) p)).trans ?_
    refine (step_sum V c ⟨0, h⟩ p (k0_pay3 (F := Ideal))).trans ?_
    rw [pay3_at, zero_add, Finset.sum_range_one]
  | n + 1, h, hn => by
    have ih := acc_inv c p n (Nat.lt_of_succ_lt h) (by omega)
    refine (congrFun (acc_mid V c ⟨n + 1, h⟩ (by dsimp only; omega) (by dsimp only; omega)) (ix2 (0 : Fin 1) p)).trans ?_
    refine (step_sum V c ⟨n + 1, h⟩ p _).trans ?_
    show (outsAt0 V c n _).2.2 (ix2 (0 : Fin 1) p) + blockTerm V c p (n + 1) = _
    rw [ih, Finset.sum_range_succ _ (n + 1)]

/-- The last point adds its block and scales by 1/16384: the batch mean. -/
theorem acc_final (c : Dev nD) (p : Fin 3520) (t : Fin cfg0.N) (ht : t.val = 63) :
    (outsAt0 V c t.val t.isLt).2.2 (ix2 (0 : Fin 1) p)
      = flowVec (xarr V c) (W1arr V c) (b1arr V c) (W23arr V c) (b23arr V c) p := by
  have ih := acc_inv V c p (t.val - 1) (Nat.lt_of_le_of_lt (Nat.sub_le _ _) t.isLt) (by omega)
  refine (congrFun (acc_last V c t (by omega) (by omega)) (ix2 (0 : Fin 1) p)).trans ?_
  refine (pay2_at _ p).trans ?_
  rw [step_sum V c t p, ih, show t.val - 1 + 1 = 63 from by omega, ht, ← Finset.sum_range_succ _ 63]
  exact congrArg (· * ((1 / 16384 : ℝ) : EReal))
    (sum_range_blocks (rowTerm V c p) (blockTerm V c p) (fun t => by unfold blockTerm; rw [dif_pos t.isLt]))

theorem mu_flushed (c : Dev nD) (t : Fin cfg0.N) :
    (dat0 V c).flushed 9 t = ((cfg0.win 9).blk t).view.read (Elt Ideal)
      (affineArr (xarr V c) (W1arr V c) (b1arr V c) (W21arr V c) (b21arr V c)) := by
  have hN : t.val < 64 := lt_of_lt_of_eq t.isLt (show cfg0.N = 64 from N_0)
  show (cfg0.win 9).cut (grid0.coords t) ((dat0 V c).after 9 t) = _
  rw [after0_9, mu_at]
  funext j
  obtain ⟨r, n, rfl⟩ : ∃ (r : Fin 256) (n : Fin 64), j = ix2 r n := ⟨j 0, j 1, eq_ix2 j⟩
  rw [View.read_apply]
  refine (pay5_at (xblk V c t) (W1blk V c t) (b1blk V c t) (W21blk V c t) (b21blk V c t) r n).trans ?_
  rw [xblk_row V c t r (by have := r.isLt; omega), W1blk_eq, b1blk_eq, W21blk_eq, b21blk_eq]
  have hi := (idx_facts t).2.2.2.2.2.2.2.2.2.1
  have e0 : (((cfg0.win 9).blk t).view.emb (ix2 r n)) 0 = (⟨256 * t.val + r.val, by have := r.isLt; omega⟩ : Fin 16384) :=
    Fin.ext (by show win0_9.index t 0 * 256 + 1 * r.val = 256 * t.val + r.val; rw [hi.1]; omega)
  have e1 : (((cfg0.win 9).blk t).view.emb (ix2 r n)) 1 = n :=
    Fin.ext (by show win0_9.index t 1 * 64 + 1 * n.val = n.val; rw [hi.2]; omega)
  show _ = affineRow (hiddenRow (cur2 (xarr V c) ((((cfg0.win 9).blk t).view.emb (ix2 r n)) 0)) (cur2 (W1arr V c)) (cur1 (b1arr V c)))
    (cur2 (W21arr V c)) (cur1 (b21arr V c)) ((((cfg0.win 9).blk t).view.emb (ix2 r n)) 1)
  rw [e0, e1]

theorem mu_cover (i : S16384x64.Idx) : ∃ t : Fin cfg0.N, (cfg0.win 9).flush t = true ∧ i ∈ ((cfg0.win 9).blk t).view.set := by
  have hi0 : (i 0).val < 16384 := (i 0).isLt
  have hi1 : (i 1).val < 64 := (i 1).isLt
  obtain ⟨t, ht⟩ : ∃ t : Fin cfg0.N, t.val = (i 0).val / 256 :=
    ⟨⟨(i 0).val / 256, by rw [show cfg0.N = 64 from N_0]; omega⟩, rfl⟩
  refine ⟨t, flush0_9 t, ?_⟩
  show i ∈ ((View.whole main_v0_0).slice (win0_9.rect t)).set
  rw [View.set_slice_whole, Rect.mem_set_unit]
  have hi := (idx_facts t).2.2.2.2.2.2.2.2.2.1
  intro a
  match a with
  | ⟨0, _⟩ => show win0_9.index t 0 * 256 ≤ (i 0).val ∧ (i 0).val < win0_9.index t 0 * 256 + 256
              rw [hi.1]; omega
  | ⟨1, _⟩ => show win0_9.index t 1 * 64 ≤ (i 1).val ∧ (i 1).val < win0_9.index t 1 * 64 + 64
              rw [hi.2]; omega

/-- Block t of mu is written at point t only, and the blocks cover the array. -/
theorem mu_arr (c : Dev nD) : (Gen.dat0 (F := Ideal) V c).arrAt 9 cfg0.N
    = Sylvester.affineArr (V c main_arg0) (V c main_arg2) (V c main_arg3) (V c main_arg4) (V c main_arg5) :=
  (dat0 V c).arrAt_eq_of_cover 9 (affineArr (xarr V c) (W1arr V c) (b1arr V c) (W21arr V c) (b21arr V c))
    (fun t _ => mu_flushed V c t) mu_cover

theorem logvar_flushed (c : Dev nD) (t : Fin cfg0.N) :
    (dat0 V c).flushed 10 t = ((cfg0.win 10).blk t).view.read (Elt Ideal)
      (affineArr (xarr V c) (W1arr V c) (b1arr V c) (W22arr V c) (b22arr V c)) := by
  have hN : t.val < 64 := lt_of_lt_of_eq t.isLt (show cfg0.N = 64 from N_0)
  show (cfg0.win 10).cut (grid0.coords t) ((dat0 V c).after 10 t) = _
  rw [after0_10, logvar_at]
  funext j
  obtain ⟨r, n, rfl⟩ : ∃ (r : Fin 256) (n : Fin 64), j = ix2 r n := ⟨j 0, j 1, eq_ix2 j⟩
  rw [View.read_apply]
  refine (pay6_at (xblk V c t) (W1blk V c t) (b1blk V c t) (W22blk V c t) (b22blk V c t) r n).trans ?_
  rw [xblk_row V c t r (by have := r.isLt; omega), W1blk_eq, b1blk_eq, W22blk_eq, b22blk_eq]
  have hi := (idx_facts t).2.2.2.2.2.2.2.2.2.2.1
  have e0 : (((cfg0.win 10).blk t).view.emb (ix2 r n)) 0 = (⟨256 * t.val + r.val, by have := r.isLt; omega⟩ : Fin 16384) :=
    Fin.ext (by show win0_10.index t 0 * 256 + 1 * r.val = 256 * t.val + r.val; rw [hi.1]; omega)
  have e1 : (((cfg0.win 10).blk t).view.emb (ix2 r n)) 1 = n :=
    Fin.ext (by show win0_10.index t 1 * 64 + 1 * n.val = n.val; rw [hi.2]; omega)
  show _ = affineRow (hiddenRow (cur2 (xarr V c) ((((cfg0.win 10).blk t).view.emb (ix2 r n)) 0)) (cur2 (W1arr V c)) (cur1 (b1arr V c)))
    (cur2 (W22arr V c)) (cur1 (b22arr V c)) ((((cfg0.win 10).blk t).view.emb (ix2 r n)) 1)
  rw [e0, e1]

theorem logvar_cover (i : S16384x64.Idx) : ∃ t : Fin cfg0.N, (cfg0.win 10).flush t = true ∧ i ∈ ((cfg0.win 10).blk t).view.set := by
  have hi0 : (i 0).val < 16384 := (i 0).isLt
  have hi1 : (i 1).val < 64 := (i 1).isLt
  obtain ⟨t, ht⟩ : ∃ t : Fin cfg0.N, t.val = (i 0).val / 256 :=
    ⟨⟨(i 0).val / 256, by rw [show cfg0.N = 64 from N_0]; omega⟩, rfl⟩
  refine ⟨t, flush0_10 t, ?_⟩
  show i ∈ ((View.whole main_v0_1).slice (win0_10.rect t)).set
  rw [View.set_slice_whole, Rect.mem_set_unit]
  have hi := (idx_facts t).2.2.2.2.2.2.2.2.2.2.1
  intro a
  match a with
  | ⟨0, _⟩ => show win0_10.index t 0 * 256 ≤ (i 0).val ∧ (i 0).val < win0_10.index t 0 * 256 + 256
              rw [hi.1]; omega
  | ⟨1, _⟩ => show win0_10.index t 1 * 64 ≤ (i 1).val ∧ (i 1).val < win0_10.index t 1 * 64 + 64
              rw [hi.2]; omega

theorem logvar_arr (c : Dev nD) : (Gen.dat0 (F := Ideal) V c).arrAt 10 cfg0.N
    = Sylvester.affineArr (V c main_arg0) (V c main_arg2) (V c main_arg3) (V c main_arg6) (V c main_arg7) :=
  (dat0 V c).arrAt_eq_of_cover 10 (affineArr (xarr V c) (W1arr V c) (b1arr V c) (W22arr V c) (b22arr V c))
    (fun t _ => logvar_flushed V c t) logvar_cover

theorem flow_flushed (c : Dev nD) (t : Fin cfg0.N) (hf : (cfg0.win 11).flush t = true) :
    (dat0 V c).flushed 11 t = ((cfg0.win 11).blk t).view.read (Elt Ideal)
      (fun i : S1x3520.Idx => flowVec (xarr V c) (W1arr V c) (b1arr V c) (W23arr V c) (b23arr V c) (i 1)) := by
  have hN : t.val < 64 := lt_of_lt_of_eq t.isLt (show cfg0.N = 64 from N_0)
  have ht : t.val = 63 := by have := (flush0_11 t).mp hf; omega
  show (cfg0.win 11).cut (grid0.coords t) ((dat0 V c).after 11 t) = _
  rw [after0_11]
  funext j
  obtain ⟨r, p, rfl⟩ : ∃ (r : Fin 1) (p : Fin 3520), j = ix2 r p := ⟨j 0, j 1, eq_ix2 j⟩
  obtain rfl : r = 0 := Subsingleton.elim _ _
  rw [View.read_apply]
  refine (acc_final V c p t ht).trans ?_
  have hi := (idx_facts t).2.2.2.2.2.2.2.2.2.2.2
  have e1 : (((cfg0.win 11).blk t).view.emb (ix2 (0 : Fin 1) p)) 1 = p :=
    Fin.ext (by show win0_11.index t 1 * 3520 + 1 * p.val = p.val; rw [hi.2]; omega)
  show _ = flowVec (xarr V c) (W1arr V c) (b1arr V c) (W23arr V c) (b23arr V c) ((((cfg0.win 11).blk t).view.emb (ix2 (0 : Fin 1) p)) 1)
  rw [e1]

theorem flow_cover (i : S1x3520.Idx) : ∃ t : Fin cfg0.N, (cfg0.win 11).flush t = true ∧ i ∈ ((cfg0.win 11).blk t).view.set := by
  have hi0 : (i 0).val < 1 := (i 0).isLt
  have hi1 : (i 1).val < 3520 := (i 1).isLt
  obtain ⟨t, ht⟩ : ∃ t : Fin cfg0.N, t.val = 63 := ⟨⟨63, by rw [show cfg0.N = 64 from N_0]; omega⟩, rfl⟩
  refine ⟨t, (flush0_11 t).mpr (by omega), ?_⟩
  show i ∈ ((View.whole main_v0_2).slice (win0_11.rect t)).set
  rw [View.set_slice_whole, Rect.mem_set_unit]
  have hi := (idx_facts t).2.2.2.2.2.2.2.2.2.2.2
  intro a
  match a with
  | ⟨0, _⟩ => show win0_11.index t 0 * 1 ≤ (i 0).val ∧ (i 0).val < win0_11.index t 0 * 1 + 1
              rw [hi.1]; omega
  | ⟨1, _⟩ => show win0_11.index t 1 * 3520 ≤ (i 1).val ∧ (i 1).val < win0_11.index t 1 * 3520 + 3520
              rw [hi.2]; omega

theorem flow_arr (c : Dev nD) (p : Fin 3520) : (Gen.dat0 (F := Ideal) V c).arrAt 11 cfg0.N (ix2 0 p)
    = Sylvester.flowVec (V c main_arg0) (V c main_arg2) (V c main_arg3) (V c main_arg8) (V c main_arg9) p :=
  congrFun ((dat0 V c).arrAt_eq_of_cover 11
    (fun i : S1x3520.Idx => flowVec (xarr V c) (W1arr V c) (b1arr V c) (W23arr V c) (b23arr V c) (i 1))
    (flow_flushed V c) flow_cover) (ix2 0 p)

end Cert.KernelIdeal.Enc

end
-- ==== Proof.DecStep.lean ====
import proofs.«125444_j2207613190724_1_alg».proof.Proof.Whole
import proofs.«125444_j2207613190724_1_alg».proof.Proof.LibPlainDot
import Idealize.ShloMosaic.Lib.ValueLayout
import Idealize.ShloMosaic.Lib.Pipeline.Value
import Idealize.ShloMosaic.PureOps.Ideal.Laws

noncomputable section

namespace Cert.KernelIdeal.Dec

open Idealize.ShloMosaic Idealize.ShloMosaic.ValueIdx Cert.Sylvester

section Layout
variable {α : Type}

theorem slice1_at {n m : ℕ} (o : ℕ) (x : (⟨1, ![n]⟩ : Shape).Idx → α)
    (h : (⟨1, ![n]⟩ : Shape).Slices ![o] ⟨1, ![m]⟩) (i : Fin m) :
    extractStridedSlice ⟨1, ![m]⟩ ![o] x h (ix1 i)
      = x (ix1 ⟨o + i.val, Nat.lt_of_lt_of_le (Nat.add_lt_add_left i.isLt o) (h.2 0)⟩) :=
  extractStridedSlice_apply _ x h _ _ fun a => match a with | ⟨0, _⟩ => rfl

theorem cols_at {a n m : ℕ} (x : (⟨2, ![a, n]⟩ : Shape).Idx → α)
    (h : (⟨2, ![a, n]⟩ : Shape).Slices ![0, 0] ⟨2, ![a, m]⟩) (p : Fin a) (i : Fin m) :
    extractStridedSlice ⟨2, ![a, m]⟩ ![0, 0] x h (ix2 p i)
      = x (ix2 p ⟨i.val, Nat.lt_of_lt_of_le i.isLt (Nat.le_trans (Nat.le_add_left m 0) (h.2 1))⟩) :=
  extractStridedSlice_apply _ x h _ _ fun b => match b with
    | ⟨0, _⟩ => (Nat.zero_add _).symm
    | ⟨1, _⟩ => (Nat.zero_add _).symm

theorem sq_at (x : (⟨1, ![400]⟩ : Shape).Idx → α) (h : (⟨1, ![400]⟩ : Shape).ShapeCasts ⟨2, ![20, 20]⟩) (r c : Fin 20) :
    shapeCast ⟨2, ![20, 20]⟩ x h (ix2 r c)
      = x (ix1 ⟨20 * r.val + c.val, by have := r.isLt; have := c.isLt; omega⟩) :=
  shapeCast_apply x h _ _ (by
    rw [Shape.rowMajor_val_two, Shape.rowMajor_val_one]
    show 20 * r.val + c.val = r.val * 20 + c.val
    omega)

theorem col_at {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem colBroadcast_at {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem diagSource_at {a b : ℕ} (x : (⟨1, ![a]⟩ : Shape).Idx → α) (h1 : (⟨1, ![a]⟩ : Shape).ShapeCasts ⟨2, ![a, 1]⟩)
    (h2 : (⟨2, ![a, 1]⟩ : Shape).ShapeCasts ⟨2, ![a, 1]⟩) (h3 : (⟨2, ![a, 1]⟩ : Shape).Broadcasts ⟨2, ![a, b]⟩)
    (r : Fin a) (c : Fin b) :
    broadcastTo ⟨2, ![a, b]⟩ (shapeCast ⟨2, ![a, 1]⟩ (shapeCast ⟨2, ![a, 1]⟩ x h1) h2) h3 (ix2 r c) = x (ix1 r) := by
  rw [colBroadcast_at, shapeCast_self, col_at]

theorem rowBroadcast_at {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (j : Fin b) :
    broadcastTo ⟨2, ![a, b]⟩ (shapeCast ⟨2, ![1, b]⟩ x h1) h2 (ix2 p j) = x (ix1 j) := by
  rw [broadcastTo_1b_ab_apply, shapeCast_a_1a_apply]

theorem select_at {s : Shape} (m : IVec s 1) (x y : s.Idx → α) (i : s.Idx) (p : Prop) [Decidable p]
    (hm : m i = 1#1 ↔ p) : select m x y i = if p then x i else y i := by
  rw [select_apply]
  by_cases hp : p
  · rw [if_pos hp, hm.2 hp, select_one]
  · rw [if_neg hp, eq_zero_of_ne_one (fun e => hp (hm.1 e)), select_zero]

end Layout

theorem sge_pred_iff (r c : Fin 20) :
    IntOp.cmpi .sge (IntOp.addi (BitVec.ofNat 32 r.val) 4294967295#32) (BitVec.ofNat 32 c.val) = 1#1 ↔ c.val < r.val := by
  revert r c; decide

theorem sge_zero_iff (r c : Fin 20) :
    IntOp.cmpi .sge (IntOp.addi (BitVec.ofNat 32 r.val) 0#32) (BitVec.ofNat 32 c.val) = 1#1 ↔ c.val ≤ r.val := by
  revert r c; decide

theorem eq_iff (r c : Fin 20) :
    IntOp.cmpi .eq (BitVec.ofNat 32 r.val) (BitVec.ofNat 32 c.val) = 1#1 ↔ r = c := by
  revert r c; decide

theorem maskBelow_at (h0 : (⟨2, ![20, 20]⟩ : Shape).Iotas .tc 32 [0]) (h1 : (⟨2, ![20, 20]⟩ : Shape).Iotas .tc 32 [1]) (r c : Fin 20) :
    cmpi .sge (addi (iota .tc ⟨2, ![20, 20]⟩ 32 [0] h0) (broadcast ⟨2, ![20, 20]⟩ 4294967295#32)) (iota .tc ⟨2, ![20, 20]⟩ 32 [1] h1) (ix2 r c) = 1#1
      ↔ c.val < r.val := by
  show IntOp.cmpi .sge (IntOp.addi (iota .tc ⟨2, ![20, 20]⟩ 32 [0] h0 (ix2 r c)) 4294967295#32) (iota .tc ⟨2, ![20, 20]⟩ 32 [1] h1 (ix2 r c)) = 1#1 ↔ _
  rw [iota_single_apply, iota_single_apply]
  exact sge_pred_iff r c

theorem maskLower_at (h0 : (⟨2, ![20, 20]⟩ : Shape).Iotas .tc 32 [0]) (h1 : (⟨2, ![20, 20]⟩ : Shape).Iotas .tc 32 [1]) (r c : Fin 20) :
    cmpi .sge (addi (iota .tc ⟨2, ![20, 20]⟩ 32 [0] h0) (broadcast ⟨2, ![20, 20]⟩ 0#32)) (iota .tc ⟨2, ![20, 20]⟩ 32 [1] h1) (ix2 r c) = 1#1
      ↔ c.val ≤ r.val := by
  show IntOp.cmpi .sge (IntOp.addi (iota .tc ⟨2, ![20, 20]⟩ 32 [0] h0 (ix2 r c)) 0#32) (iota .tc ⟨2, ![20, 20]⟩ 32 [1] h1 (ix2 r c)) = 1#1 ↔ _
  rw [iota_single_apply, iota_single_apply]
  exact sge_zero_iff r c

theorem maskDiag_at (h0 : (⟨2, ![20, 20]⟩ : Shape).Iotas .tc 32 [0]) (h1 : (⟨2, ![20, 20]⟩ : Shape).Iotas .tc 32 [1]) (r c : Fin 20) :
    cmpi .eq (iota .tc ⟨2, ![20, 20]⟩ 32 [0] h0) (iota .tc ⟨2, ![20, 20]⟩ 32 [1] h1) (ix2 r c) = 1#1 ↔ r = c := by
  show IntOp.cmpi .eq (iota .tc ⟨2, ![20, 20]⟩ 32 [0] h0 (ix2 r c)) (iota .tc ⟨2, ![20, 20]⟩ 32 [1] h1 (ix2 r c)) = 1#1 ↔ _
  rw [iota_single_apply, iota_single_apply]
  exact eq_iff r c

theorem matmul_at {R K C : ℕ} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (A : FVec Ideal ⟨2, ![R, K]⟩ .f32) (B : FVec Ideal ⟨2, ![K, C]⟩ .f32) (p : Fin R) (q : Fin C) :
    matmul d none A B (constant ⟨2, ![R, C]⟩ .f32 0x00000000#32) (ix2 p q) = ∑ k : Fin K, A (ix2 p k) * B (ix2 k q) := by
  show FloatOps.matmul d none A B (constant ⟨2, ![R, C]⟩ .f32 0x00000000#32) (ix2 p q) = _
  rw [Ideal.matmul_constant_zero_apply]
  exact PlainDot.sum_eq d hlb hln hlc hrb hrn hrc A B p q

theorem pad_at {a m k : ℕ} (x : (⟨2, ![a, m]⟩ : Shape).Idx → EReal) (z : EReal) (hz : z = 0)
    (h : Shape.Concatenates [⟨2, ![a, m]⟩, ⟨2, ![a, k]⟩] ⟨2, ![a, m + k]⟩ 1) (p : Fin a) (n : Fin (m + k)) :
    concatenate ⟨2, ![a, m + k]⟩ 1 [⟨⟨2, ![a, m]⟩, x⟩, ⟨⟨2, ![a, k]⟩, broadcast ⟨2, ![a, k]⟩ z⟩] h (ix2 p n)
      = if hn : n.val < m then x (ix2 p ⟨n.val, hn⟩) else 0 := by
  by_cases hn : n.val < m
  · rw [dif_pos hn]
    exact concatenate_pair_apply_left 1 x _ h (ix2 p n) rfl (ix2 p ⟨n.val, hn⟩) fun b => match b with
      | ⟨0, _⟩ => rfl
      | ⟨1, _⟩ => rfl
  · rw [dif_neg hn]
    have hk : n.val - m < k := by have := n.isLt; omega
    rw [concatenate_pair_apply_right 1 x _ h (ix2 p n) rfl rfl (ix2 p ⟨n.val - m, hk⟩)
      (fun b => match b with
        | ⟨0, _⟩ => fun _ => rfl
        | ⟨1, _⟩ => fun hb => absurd rfl hb)
      (by show n.val - m + m = n.val; omega)]
    exact hz

end Cert.KernelIdeal.Dec

end
-- ==== Proof.DecCore.lean ====
import proofs.«125444_j2207613190724_1_alg».proof.Proof.DecStep

noncomputable section

namespace Cert.KernelIdeal.Dec

open Idealize.ShloMosaic Idealize.ShloMosaic.ValueIdx Cert.Sylvester

theorem paramSlice_at (v12 : FVec Ideal ⟨1, ![3520]⟩ .f32) (flow : Fin 3520 → EReal) (h12 : ∀ p, v12 (ix1 p) = flow p)
    (k : Fin 8) (o : ℕ) (ho : o = 440 * k.val) (h : (⟨1, ![3520]⟩ : Shape).Slices ![o] ⟨1, ![440]⟩) (i : Fin 440) :
    extractStridedSlice ⟨1, ![440]⟩ ![o] v12 h (ix1 i) = paramSlice flow k i := by
  subst ho
  rw [slice1_at, h12]
  rfl

section Slice
variable (sl : FVec Ideal ⟨1, ![440]⟩ .f32) (P : Fin 440 → EReal) (hsl : ∀ i, sl (ix1 i) = P i)
include hsl

theorem sqM_at (h1 : (⟨1, ![440]⟩ : Shape).Slices ![0] ⟨1, ![400]⟩) (h2 : (⟨1, ![400]⟩ : Shape).ShapeCasts ⟨2, ![20, 20]⟩)
    (r c : Fin 20) :
    shapeCast ⟨2, ![20, 20]⟩ (extractStridedSlice ⟨1, ![400]⟩ ![0] sl h1) h2 (ix2 r c) = sqM P r c := by
  rw [sq_at, slice1_at, hsl]
  exact congrArg P (Fin.ext (Nat.zero_add _))

theorem diagV_at (h : (⟨1, ![440]⟩ : Shape).Slices ![400] ⟨1, ![20]⟩) (j : Fin 20) :
    extractStridedSlice ⟨1, ![20]⟩ ![400] sl h (ix1 j) = P ⟨400 + j.val, by have := j.isLt; omega⟩ := by
  rw [slice1_at, hsl]

theorem biasV_at (h : (⟨1, ![440]⟩ : Shape).Slices ![420] ⟨1, ![20]⟩) (j : Fin 20) :
    extractStridedSlice ⟨1, ![20]⟩ ![420] sl h (ix1 j) = biasV P j := by
  rw [slice1_at, hsl]
  rfl

end Slice

section Matrix
variable (M : FVec Ideal ⟨2, ![20, 20]⟩ .f32) (P : Fin 440 → EReal) (hM : ∀ a b, M (ix2 a b) = sqM P a b)
include hM

theorem upper_at (h0 : (⟨2, ![20, 20]⟩ : Shape).Iotas .tc 32 [0]) (h1 : (⟨2, ![20, 20]⟩ : Shape).Iotas .tc 32 [1])
    (c0 : Ideal .f32) (hc : c0 = 0) (r c : Fin 20) :
    select (cmpi .sge (addi (iota .tc ⟨2, ![20, 20]⟩ 32 [0] h0) (broadcast ⟨2, ![20, 20]⟩ 4294967295#32)) (iota .tc ⟨2, ![20, 20]⟩ 32 [1] h1))
      (broadcast ⟨2, ![20, 20]⟩ c0) M (ix2 r c) = upper P r c := by
  rw [select_at _ _ _ _ _ (maskBelow_at h0 h1 r c), broadcast_apply, hM, hc]
  unfold upper
  by_cases h : c.val < r.val
  · rw [if_pos h, if_neg (by omega)]
  · rw [if_neg h, if_pos (by omega)]

theorem lower_at (h0 : (⟨2, ![20, 20]⟩ : Shape).Iotas .tc 32 [0]) (h1 : (⟨2, ![20, 20]⟩ : Shape).Iotas .tc 32 [1])
    (c0 : Ideal .f32) (hc : c0 = 0) (r c : Fin 20) :
    select (cmpi .sge (addi (iota .tc ⟨2, ![20, 20]⟩ 32 [0] h0) (broadcast ⟨2, ![20, 20]⟩ 0#32)) (iota .tc ⟨2, ![20, 20]⟩ 32 [1] h1))
      M (broadcast ⟨2, ![20, 20]⟩ c0) (ix2 r c) = lower P r c := by
  rw [select_at _ _ _ _ _ (maskLower_at h0 h1 r c), broadcast_apply, hM, hc]
  rfl

theorem lower_of_mask (m : IVec ⟨2, ![20, 20]⟩ 1) (hm : ∀ a b : Fin 20, m (ix2 a b) = 1#1 ↔ b.val ≤ a.val)
    (c0 : Ideal .f32) (hc : c0 = 0) (r c : Fin 20) :
    select m M (broadcast ⟨2, ![20, 20]⟩ c0) (ix2 r c) = lower P r c := by
  rw [select_at _ _ _ _ _ (hm r c), broadcast_apply, hM, hc]
  rfl

theorem upper_of_mask (m : IVec ⟨2, ![20, 20]⟩ 1) (hm : ∀ a b : Fin 20, m (ix2 a b) = 1#1 ↔ b.val < a.val)
    (c0 : Ideal .f32) (hc : c0 = 0) (r c : Fin 20) :
    select m (broadcast ⟨2, ![20, 20]⟩ c0) M (ix2 r c) = upper P r c := by
  rw [select_at _ _ _ _ _ (hm r c), broadcast_apply, hM, hc]
  unfold upper
  by_cases h : c.val < r.val
  · rw [if_pos h, if_neg (by omega)]
  · rw [if_neg h, if_pos (by omega)]

end Matrix

theorem inner_at (even : Bool) (P : Fin 440 → EReal) (v : FVec Ideal ⟨1, ![20]⟩ .f32)
    (hv : ∀ j : Fin 20, v (ix1 j) = P ⟨400 + j.val, by have := j.isLt; omega⟩)
    (L : FVec Ideal ⟨2, ![20, 20]⟩ .f32) (hL : ∀ a b, L (ix2 a b) = if even then lower P a b else lower P b a)
    (h0 : (⟨2, ![20, 20]⟩ : Shape).Iotas .tc 32 [0]) (h1 : (⟨2, ![20, 20]⟩ : Shape).Iotas .tc 32 [1])
    (hs1 : (⟨1, ![20]⟩ : Shape).ShapeCasts ⟨2, ![20, 1]⟩) (hs2 : (⟨2, ![20, 1]⟩ : Shape).ShapeCasts ⟨2, ![20, 1]⟩)
    (hb : (⟨2, ![20, 1]⟩ : Shape).Broadcasts ⟨2, ![20, 20]⟩) (r c : Fin 20) :
    select (cmpi .eq (iota .tc ⟨2, ![20, 20]⟩ 32 [0] h0) (iota .tc ⟨2, ![20, 20]⟩ 32 [1] h1))
      (broadcastTo ⟨2, ![20, 20]⟩ (shapeCast ⟨2, ![20, 1]⟩ (shapeCast ⟨2, ![20, 1]⟩ v hs1) hs2) hb) L (ix2 r c)
      = innerM even P r c := by
  rw [select_at _ _ _ _ _ (maskDiag_at h0 h1 r c), diagSource_at, hv, hL]
  rfl

theorem cut_at (z : FVec Ideal ⟨2, ![512, 64]⟩ .f32) (zr : Fin 64 → EReal) (r : Fin 512) (hz : ∀ n, z (ix2 r n) = zr n)
    (hs : (⟨2, ![512, 64]⟩ : Shape).Slices ![0, 0] ⟨2, ![512, 20]⟩) (i : Fin 20) :
    extractStridedSlice ⟨2, ![512, 20]⟩ ![0, 0] z hs (ix2 r i) = zr ⟨i.val, by have := i.isLt; omega⟩ := by
  rw [cols_at, hz]

section Step
variable (d : DotDims ⟨2, ![512, 20]⟩ ⟨2, ![20, 20]⟩ ⟨2, ![512, 20]⟩)
  (hlb : d.lhsBatch = []) (hln : d.lhsNonContracting = [0]) (hlc : d.lhsContracting = [1])
  (hrb : d.rhsBatch = []) (hrn : d.rhsNonContracting = [1]) (hrc : d.rhsContracting = [0])
  (even : Bool) (P : Fin 440 → EReal)
  (z : FVec Ideal ⟨2, ![512, 64]⟩ .f32) (zr : Fin 64 → EReal) (r : Fin 512) (hz : ∀ n, z (ix2 r n) = zr n)
include hlb hln hlc hrb hrn hrc

theorem preSum_of_cut (z20 : FVec Ideal ⟨2, ![512, 20]⟩ .f32)
    (hz20 : ∀ i : Fin 20, z20 (ix2 r i) = zr ⟨i.val, by have := i.isLt; omega⟩)
    (A : FVec Ideal ⟨2, ![20, 20]⟩ .f32) (hA : ∀ i j, A (ix2 i j) = innerM even P j i) (j : Fin 20) :
    matmul d none z20 A (constant ⟨2, ![512, 20]⟩ .f32 0x00000000#32) (ix2 r j)
      = ∑ i : Fin 20, zr ⟨i.val, by have := i.isLt; omega⟩ * innerM even P j i := by
  rw [matmul_at d hlb hln hlc hrb hrn hrc]
  refine Finset.sum_congr rfl fun i _ => ?_
  rw [hz20, hA]

theorem pre_of_cut (z20 : FVec Ideal ⟨2, ![512, 20]⟩ .f32)
    (hz20 : ∀ i : Fin 20, z20 (ix2 r i) = zr ⟨i.val, by have := i.isLt; omega⟩)
    (A : FVec Ideal ⟨2, ![20, 20]⟩ .f32) (hA : ∀ i j, A (ix2 i j) = innerM even P j i)
    (bb : FVec Ideal ⟨2, ![512, 20]⟩ .f32) (hb : ∀ j, bb (ix2 r j) = biasV P j) (j : Fin 20) :
    addf (matmul d none z20 A (constant ⟨2, ![512, 20]⟩ .f32 0x00000000#32)) bb (ix2 r j) = preRow even P zr j := by
  rw [addf_apply, preSum_of_cut d hlb hln hlc hrb hrn hrc even P zr r z20 hz20 A hA j, hb]
  rfl

theorem preSum_at (hz : ∀ n, z (ix2 r n) = zr n)
    (A : FVec Ideal ⟨2, ![20, 20]⟩ .f32) (hA : ∀ i j, A (ix2 i j) = innerM even P j i)
    (hs : (⟨2, ![512, 64]⟩ : Shape).Slices ![0, 0] ⟨2, ![512, 20]⟩) (j : Fin 20) :
    matmul d none (extractStridedSlice ⟨2, ![512, 20]⟩ ![0, 0] z hs) A (constant ⟨2, ![512, 20]⟩ .f32 0x00000000#32) (ix2 r j)
      = ∑ i : Fin 20, zr ⟨i.val, by have := i.isLt; omega⟩ * innerM even P j i :=
  preSum_of_cut d hlb hln hlc hrb hrn hrc even P zr r _ (cut_at z zr r hz hs) A hA j

theorem pre_at (hz : ∀ n, z (ix2 r n) = zr n)
    (A : FVec Ideal ⟨2, ![20, 20]⟩ .f32) (hA : ∀ i j, A (ix2 i j) = innerM even P j i)
    (bb : FVec Ideal ⟨2, ![512, 20]⟩ .f32) (hb : ∀ j, bb (ix2 r j) = biasV P j)
    (hs : (⟨2, ![512, 64]⟩ : Shape).Slices ![0, 0] ⟨2, ![512, 20]⟩) (j : Fin 20) :
    addf (matmul d none (extractStridedSlice ⟨2, ![512, 20]⟩ ![0, 0] z hs) A (constant ⟨2, ![512, 20]⟩ .f32 0x00000000#32)) bb (ix2 r j)
      = preRow even P zr j :=
  pre_of_cut d hlb hln hlc hrb hrn hrc even P zr r _ (cut_at z zr r hz hs) A hA bb hb j

theorem tail_at (hz : ∀ n, z (ix2 r n) = zr n)
    (pre : FVec Ideal ⟨2, ![512, 20]⟩ .f32) (hpre : ∀ j, pre (ix2 r j) = preRow even P zr j)
    (B : FVec Ideal ⟨2, ![20, 20]⟩ .f32) (hB : ∀ j n, B (ix2 j n) = outerM even P n j)
    (c0 : Ideal .f32) (h0 : c0 = 0)
    (hc : Shape.Concatenates [⟨2, ![512, 20]⟩, ⟨2, ![512, 44]⟩] ⟨2, ![512, 64]⟩ 1) (n : Fin 64) :
    addf z (concatenate ⟨2, ![512, 64]⟩ 1
      [⟨⟨2, ![512, 20]⟩, matmul d none (tanh pre) B (constant ⟨2, ![512, 20]⟩ .f32 0x00000000#32)⟩,
       ⟨⟨2, ![512, 44]⟩, broadcast ⟨2, ![512, 44]⟩ c0⟩] hc) (ix2 r n) = stepRow even P zr n := by
  rw [addf_apply, hz]
  unfold stepRow
  refine congrArg (zr n + ·) ((pad_at (a := 512) (m := 20) (k := 44) _ c0 h0 hc r n).trans ?_)
  by_cases hn : n.val < 20
  · rw [dif_pos hn, dif_pos hn, matmul_at d hlb hln hlc hrb hrn hrc]
    unfold updRow
    refine Finset.sum_congr rfl fun j _ => ?_
    rw [hB]
    show FloatOps.tanh (pre (ix2 r j)) * _ = _
    rw [hpre]
    rfl
  · rw [dif_neg hn, dif_neg hn]

/-- One step of the kernel's body on a row, from the entries of its two factors and of its bias: the specification's step. -/
theorem step_at (hz : ∀ n, z (ix2 r n) = zr n)
    (A : FVec Ideal ⟨2, ![20, 20]⟩ .f32) (hA : ∀ i j, A (ix2 i j) = innerM even P j i)
    (bb : FVec Ideal ⟨2, ![512, 20]⟩ .f32) (hb : ∀ j, bb (ix2 r j) = biasV P j)
    (B : FVec Ideal ⟨2, ![20, 20]⟩ .f32) (hB : ∀ j n, B (ix2 j n) = outerM even P n j)
    (c0 : Ideal .f32) (h0 : c0 = 0)
    (hs : (⟨2, ![512, 64]⟩ : Shape).Slices ![0, 0] ⟨2, ![512, 20]⟩)
    (hc : Shape.Concatenates [⟨2, ![512, 20]⟩, ⟨2, ![512, 44]⟩] ⟨2, ![512, 64]⟩ 1) (n : Fin 64) :
    addf z (concatenate ⟨2, ![512, 64]⟩ 1
      [⟨⟨2, ![512, 20]⟩, matmul d none (tanh (addf (matmul d none (extractStridedSlice ⟨2, ![512, 20]⟩ ![0, 0] z hs) A
          (constant ⟨2, ![512, 20]⟩ .f32 0x00000000#32)) bb)) B (constant ⟨2, ![512, 20]⟩ .f32 0x00000000#32)⟩,
       ⟨⟨2, ![512, 44]⟩, broadcast ⟨2, ![512, 44]⟩ c0⟩] hc) (ix2 r n) = stepRow even P zr n :=
  tail_at d hlb hln hlc hrb hrn hrc even P z zr r hz _
    (fun j => pre_at d hlb hln hlc hrb hrn hrc even P z zr r hz A hA bb hb hs j) B hB c0 h0 hc n

end Step

end Cert.KernelIdeal.Dec

end
-- ==== Proof.DecPayloadA.lean ====
import proofs.«125444_j2207613190724_1_alg».proof.Proof.Gen.KernelIdeal.Skeleton
import proofs.«125444_j2207613190724_1_alg».proof.Proof.Whole
import proofs.«125444_j2207613190724_1_alg».proof.Proof.DecCore

noncomputable section

namespace Cert.KernelIdeal.Dec

open Idealize.ShloMosaic Idealize.ShloMosaic.ValueIdx Cert.KernelIdeal Cert.KernelIdeal.Gen Cert.Sylvester

abbrev flowOf (v10 : Vec Ideal S1x3520 .f32) : Fin 3520 → EReal := fun p => v10 (ix2 0 p)

def zAfter3 (v0 v2 v4 : Vec Ideal S512x64 .f32) (v10 : Vec Ideal S1x3520 .f32) (r : Fin 512) : Fin 64 → EReal :=
  stepRow true (paramSlice (flowOf v10) 2) (stepRow false (paramSlice (flowOf v10) 1)
    (stepRow true (paramSlice (flowOf v10) 0) (latentRow (cur2 v4 r) (cur2 v2 r) (cur2 v0 r))))

theorem cst29_eq : (Scalar.ofBits .f32 0x00000000#32 : Ideal .f32) = 0 := Ideal.ofBits_zero_f32

theorem pay1_at (v0 v2 v4 : Vec Ideal S512x64 .f32) (r : Fin 512) (n : Fin 64) :
    k1_pay1 v0 v2 v4 (ix2 r n) = latentRow (cur2 v4 r) (cur2 v2 r) (cur2 v0 r) n := by
  unfold k1_pay1
  rw [shapeCast_self, shapeCast_self]
  rfl

theorem pay2_at (v10 : Vec Ideal S1x3520 .f32) (p : Fin 3520) : k1_pay2 v10 (ix1 p) = flowOf v10 p := by
  unfold k1_pay2
  rw [shapeCast_self]
  exact shapeCast_1a_a_apply _ _ p

theorem pay3_at (v10 : Vec Ideal S1x3520 .f32) (i : Fin 440) : k1_pay3 v10 (ix1 i) = paramSlice (flowOf v10) 0 i := by
  unfold k1_pay3
  exact paramSlice_at (k1_pay2 v10) (flowOf v10) (pay2_at v10) 0 0 rfl _ i

theorem pay4_at (v10 : Vec Ideal S1x3520 .f32) (r c : Fin 20) :
    k1_pay4 v10 (ix2 r c) = sqM (paramSlice (flowOf v10) 0) r c := by
  unfold k1_pay4
  exact sqM_at (k1_pay3 v10) _ (pay3_at v10) _ _ r c

theorem pay5_at (v10 : Vec Ideal S1x3520 .f32) (r c : Fin 20) :
    k1_pay5 v10 (ix2 r c) = outerM true (paramSlice (flowOf v10) 0) r c := by
  unfold k1_pay5
  dsimp only
  rw [transpose_ix2_apply]
  exact upper_at (k1_pay4 v10) _ (pay4_at v10) _ _ _ cst29_eq c r

theorem pay6_at (v0 v2 v4 : Vec Ideal S512x64 .f32) (v10 : Vec Ideal S1x3520 .f32) (r : Fin 512) (j : Fin 20) :
    k1_pay6 v0 v2 v4 v10 (ix2 r j)
      = ∑ i : Fin 20, latentRow (cur2 v4 r) (cur2 v2 r) (cur2 v0 r) ⟨i.val, by have := i.isLt; omega⟩
          * innerM true (paramSlice (flowOf v10) 0) j i := by
  unfold k1_pay6
  dsimp only
  refine preSum_at dot_S512x20_S20x20_S512x20_1_0_0_1_n_n rfl rfl rfl rfl rfl rfl true (paramSlice (flowOf v10) 0) _ _ r
    (fun n => pay1_at v0 v2 v4 r n) _ (fun a b => ?_) _ j
  rw [transpose_ix2_apply]
  exact inner_at true _ _ (diagV_at (k1_pay3 v10) _ (pay3_at v10) _) _
    (fun a b => lower_at (k1_pay4 v10) _ (pay4_at v10) _ _ _ cst29_eq a b) _ _ _ _ _ b a

theorem pay7_at (v10 : Vec Ideal S1x3520 .f32) (r : Fin 512) (j : Fin 20) :
    k1_pay7 v10 (ix2 r j) = biasV (paramSlice (flowOf v10) 0) j := by
  unfold k1_pay7
  rw [rowBroadcast_at]
  exact biasV_at (k1_pay3 v10) _ (pay3_at v10) _ j

theorem pay8_at (v9 : FVec Ideal S512x64 .f32) (v12 : FVec Ideal S3520 .f32) (v30 : FVec Ideal S20x20 .f32)
    (v42 v44 : FVec Ideal S512x20 .f32) (flow : Fin 3520 → EReal) (zr : Fin 64 → EReal) (r : Fin 512)
    (h9 : ∀ n, v9 (ix2 r n) = zr n) (h12 : ∀ p, v12 (ix1 p) = flow p)
    (h30 : ∀ a b, v30 (ix2 a b) = outerM true (paramSlice flow 0) a b)
    (h42 : ∀ j, v42 (ix2 r j)
      = ∑ i : Fin 20, zr ⟨i.val, by have := i.isLt; omega⟩ * innerM true (paramSlice flow 0) j i)
    (h44 : ∀ j, v44 (ix2 r j) = biasV (paramSlice flow 0) j) (n : Fin 64) :
    k1_pay8 v9 v12 v30 v42 v44 (ix2 r n)
      = stepRow false (paramSlice flow 1) (stepRow true (paramSlice flow 0) zr) n := by
  have hsl : ∀ i, extractStridedSlice S440 ![440] v12 slices_S3520_o440_S440 (ix1 i) = paramSlice flow 1 i :=
    paramSlice_at v12 flow h12 1 440 rfl _
  have hM := sqM_at _ _ hsl slices_S440_o0_S400 shapeCasts_S400_S20x20
  unfold k1_pay8
  dsimp only
  refine step_at dot_S512x20_S20x20_S512x20_1_0_0_1_n_n rfl rfl rfl rfl rfl rfl false (paramSlice flow 1) _
    (stepRow true (paramSlice flow 0) zr) r (fun m => ?_) _ (fun a b => ?_) _ (fun j => ?_) _ (fun j m => ?_)
    _ cst29_eq _ _ n
  · exact tail_at dot_S512x20_S20x20_S512x20_1_0_0_1_n_n rfl rfl rfl rfl rfl rfl true (paramSlice flow 0) v9 zr r h9 _
      (fun j => by rw [addf_apply, h42, h44]; rfl) _ (fun j m => by rw [transpose_ix2_apply, h30]) _ cst29_eq _ m
  · rw [transpose_ix2_apply]
    exact inner_at false _ _ (diagV_at _ _ hsl _) _
      (fun a b => by rw [transpose_ix2_apply]; exact lower_at _ _ hM _ _ _ cst29_eq b a) _ _ _ _ _ b a
  · rw [rowBroadcast_at]
    exact biasV_at _ _ hsl _ j
  · rw [transpose_ix2_apply]
    exact upper_at _ _ hM _ _ _ cst29_eq m j

theorem pay9_at (v12 : FVec Ideal S3520 .f32) (flow : Fin 3520 → EReal) (h12 : ∀ p, v12 (ix1 p) = flow p) (i : Fin 440) :
    k1_pay9 v12 (ix1 i) = paramSlice flow 2 i := by
  unfold k1_pay9
  exact paramSlice_at v12 flow h12 2 880 rfl _ i

theorem pay10_at (v12 : FVec Ideal S3520 .f32) (flow : Fin 3520 → EReal) (h12 : ∀ p, v12 (ix1 p) = flow p) (r c : Fin 20) :
    k1_pay10 v12 (ix2 r c) = sqM (paramSlice flow 2) r c := by
  unfold k1_pay10
  exact sqM_at (k1_pay9 v12) _ (pay9_at v12 flow h12) _ _ r c

theorem pay11_at (v90 : FVec Ideal S512x64 .f32) (v91 : FVec Ideal S440 .f32) (v93 : FVec Ideal S20x20 .f32)
    (v94 : IVec S20x20 32) (c_m1 : BitVec 32) (P : Fin 440 → EReal) (zr : Fin 64 → EReal) (r : Fin 512)
    (h90 : ∀ n, v90 (ix2 r n) = zr n) (h91 : ∀ i, v91 (ix1 i) = P i) (h93 : ∀ a b, v93 (ix2 a b) = sqM P a b)
    (h94 : v94 = iota .tc S20x20 32 [0] iota_S20x20_d0_w32) (hc : c_m1 = 4294967295#32) (n : Fin 64) :
    k1_pay11 v90 v91 v93 v94 c_m1 (ix2 r n) = stepRow true P zr n := by
  subst h94 hc
  unfold k1_pay11
  dsimp only
  refine step_at dot_S512x20_S20x20_S512x20_1_0_0_1_n_n rfl rfl rfl rfl rfl rfl true P v90 zr r h90
    _ (fun a b => ?_) _ (fun j => ?_) _ (fun j m => ?_) _ cst29_eq _ _ n
  · rw [transpose_ix2_apply]
    exact inner_at true _ _ (diagV_at _ _ h91 _) _
      (fun a b => lower_at _ _ h93 _ _ _ cst29_eq a b) _ _ _ _ _ b a
  · rw [rowBroadcast_at]
    exact biasV_at _ _ h91 _ j
  · rw [transpose_ix2_apply, transpose_ix2_apply]
    exact upper_at _ _ h93 _ _ _ cst29_eq j m

theorem pay12_at (v12 : FVec Ideal S3520 .f32) (flow : Fin 3520 → EReal) (h12 : ∀ p, v12 (ix1 p) = flow p) (i : Fin 440) :
    k1_pay12 v12 (ix1 i) = paramSlice flow 3 i := by
  unfold k1_pay12
  exact paramSlice_at v12 flow h12 3 1320 rfl _ i

theorem pay13_at (v12 : FVec Ideal S3520 .f32) (flow : Fin 3520 → EReal) (h12 : ∀ p, v12 (ix1 p) = flow p) (r c : Fin 20) :
    k1_pay13 v12 (ix2 r c) = sqM (paramSlice flow 3) r c := by
  unfold k1_pay13
  exact sqM_at (k1_pay12 v12) _ (pay12_at v12 flow h12) _ _ r c

theorem pay14_at (v12 : FVec Ideal S3520 .f32) (flow : Fin 3520 → EReal) (h12 : ∀ p, v12 (ix1 p) = flow p) (r c : Fin 20) :
    k1_pay14 v12 (ix2 r c) = upper (paramSlice flow 3) r c := by
  unfold k1_pay14
  exact upper_at (k1_pay13 v12) _ (pay13_at v12 flow h12) _ _ _ cst29_eq r c

theorem v129_at (v0 v2 v4 : Vec Ideal S512x64 .f32) (v10 : Vec Ideal S1x3520 .f32) (r : Fin 512) (n : Fin 64) :
    k1_pay11 (k1_pay8 (k1_pay1 v0 v2 v4) (k1_pay2 v10) (k1_pay5 v10) (k1_pay6 v0 v2 v4 v10) (k1_pay7 v10))
      (k1_pay9 (k1_pay2 v10)) (k1_pay10 (k1_pay2 v10)) (iota .tc S20x20 32 [0] iota_S20x20_d0_w32) 4294967295#32 (ix2 r n)
      = zAfter3 v0 v2 v4 v10 r n :=
  pay11_at _ _ _ _ _ (paramSlice (flowOf v10) 2) _ r
    (fun m => pay8_at _ _ _ _ _ (flowOf v10) _ r (fun k => pay1_at v0 v2 v4 r k) (pay2_at v10) (pay5_at v10)
      (fun j => pay6_at v0 v2 v4 v10 r j) (fun j => pay7_at v10 r j) m)
    (pay9_at _ _ (pay2_at v10)) (pay10_at _ _ (pay2_at v10)) rfl rfl n

theorem v130_at (v10 : Vec Ideal S1x3520 .f32) (i : Fin 440) :
    k1_pay12 (k1_pay2 v10) (ix1 i) = paramSlice (flowOf v10) 3 i :=
  pay12_at _ _ (pay2_at v10) i

theorem v132_at (v10 : Vec Ideal S1x3520 .f32) (r c : Fin 20) :
    k1_pay13 (k1_pay2 v10) (ix2 r c) = sqM (paramSlice (flowOf v10) 3) r c :=
  pay13_at _ _ (pay2_at v10) r c

theorem v139_at (v10 : Vec Ideal S1x3520 .f32) (r c : Fin 20) :
    k1_pay14 (k1_pay2 v10) (ix2 r c) = upper (paramSlice (flowOf v10) 3) r c :=
  pay14_at _ _ (pay2_at v10) r c

theorem v144_at (r c : Fin 20) : k1_pay15 (ix2 r c) = 1#1 ↔ c.val ≤ r.val := by
  unfold k1_pay15
  exact maskLower_at _ _ r c

end Cert.KernelIdeal.Dec

end
-- ==== Proof.DecParamsB.lean ====
import proofs.«125444_j2207613190724_1_alg».proof.Proof.Gen.KernelIdeal.Skeleton
import proofs.«125444_j2207613190724_1_alg».proof.Proof.Whole
import proofs.«125444_j2207613190724_1_alg».proof.Proof.DecStep

noncomputable section

namespace Cert.KernelIdeal.Dec

open Idealize.ShloMosaic Idealize.ShloMosaic.ValueIdx Cert.KernelIdeal Cert.KernelIdeal.Gen Cert.Sylvester

theorem zeroWord_eq : (Scalar.ofBits .f32 0x00000000#32 : Ideal .f32) = 0 := by
  show Ideal.ofBits .f32 _ = 0
  exact Ideal.ofBits_zero_f32

theorem slice440_at (v12 : FVec Ideal S3520 .f32) (flow : Fin 3520 → EReal) (h12 : ∀ p, v12 (ix1 p) = flow p)
    (k : Fin 8) (o : ℕ) (ho : o = 440 * k.val) (h : S3520.Slices ![o] S440) (i : Fin 440) :
    extractStridedSlice S440 ![o] v12 h (ix1 i) = paramSlice flow k i := by
  subst ho
  refine (slice1_at _ v12 h i).trans ?_
  exact h12 _

section Slice
variable (w : FVec Ideal S440 .f32) (P : Fin 440 → EReal) (hw : ∀ i, w (ix1 i) = P i)
include hw

theorem sq_of_slice (h1 : S440.Slices ![0] S400) (h2 : S400.ShapeCasts S20x20) (a b : Fin 20) :
    shapeCast S20x20 (extractStridedSlice S400 ![0] w h1) h2 (ix2 a b) = sqM P a b := by
  refine (sq_at _ h2 a b).trans ?_
  refine (slice1_at 0 w h1 _).trans ?_
  refine (hw _).trans ?_
  exact congrArg P (Fin.ext (Nat.zero_add _))

theorem diag_of_slice (h : S440.Slices ![400] S20) (j : Fin 20) :
    extractStridedSlice S20 ![400] w h (ix1 j) = P ⟨400 + j.val, by have := j.isLt; omega⟩ := by
  refine (slice1_at 400 w h j).trans ?_
  exact hw _

theorem bias_of_slice (h : S440.Slices ![420] S20) (j : Fin 20) :
    extractStridedSlice S20 ![420] w h (ix1 j) = biasV P j := by
  refine (slice1_at 420 w h j).trans ?_
  exact hw _

end Slice

section Triangles
variable (M : FVec Ideal S20x20 .f32) (P : Fin 440 → EReal) (hM : ∀ a b, M (ix2 a b) = sqM P a b)
include hM

theorem upperSel_at (z : Ideal .f32) (hz : z = 0) (h0 : S20x20.Iotas .tc 32 [0]) (h1 : S20x20.Iotas .tc 32 [1]) (r c : Fin 20) :
    select (cmpi .sge (addi (iota .tc S20x20 32 [0] h0) (broadcast S20x20 4294967295#32)) (iota .tc S20x20 32 [1] h1))
      (broadcast S20x20 z) M (ix2 r c) = upper P r c := by
  refine (select_at _ _ _ (ix2 r c) (c.val < r.val) (maskBelow_at h0 h1 r c)).trans ?_
  unfold upper
  by_cases h : c.val < r.val
  · rw [if_pos h, if_neg (by omega)]; exact hz
  · rw [if_neg h, if_pos (by omega)]; exact hM r c

theorem lowerSel_at (z : Ideal .f32) (hz : z = 0) (h0 : S20x20.Iotas .tc 32 [0]) (h1 : S20x20.Iotas .tc 32 [1]) (r c : Fin 20) :
    select (cmpi .sge (addi (iota .tc S20x20 32 [0] h0) (broadcast S20x20 0#32)) (iota .tc S20x20 32 [1] h1))
      M (broadcast S20x20 z) (ix2 r c) = lower P r c := by
  refine (select_at _ _ _ (ix2 r c) (c.val ≤ r.val) (maskLower_at h0 h1 r c)).trans ?_
  unfold lower
  by_cases h : c.val ≤ r.val
  · rw [if_pos h, if_pos h]; exact hM r c
  · rw [if_neg h, if_neg h]; exact hz

end Triangles

theorem diagSel_at (x : FVec Ideal S20 .f32) (L : FVec Ideal S20x20 .f32) (g1 : S20.ShapeCasts S20x1) (g2 : S20x1.ShapeCasts S20x1)
    (g3 : S20x1.Broadcasts S20x20) (h0 : S20x20.Iotas .tc 32 [0]) (h1 : S20x20.Iotas .tc 32 [1]) (r c : Fin 20) :
    select (cmpi .eq (iota .tc S20x20 32 [0] h0) (iota .tc S20x20 32 [1] h1))
      (broadcastTo S20x20 (shapeCast S20x1 (shapeCast S20x1 x g1) g2) g3) L (ix2 r c)
      = if r = c then x (ix1 r) else L (ix2 r c) := by
  refine (select_at _ _ _ (ix2 r c) (r = c) (maskDiag_at h0 h1 r c)).trans ?_
  rw [diagSource_at]

section Params
variable (v12 : FVec Ideal S3520 .f32) (flow : Fin 3520 → EReal) (h12 : ∀ p, v12 (ix1 p) = flow p)
include h12

theorem pay17_at (i : Fin 440) : k1_pay17 v12 (ix1 i) = paramSlice flow 4 i :=
  slice440_at v12 flow h12 4 1760 rfl slices_S3520_o1760_S440 i

theorem pay18_at (a b : Fin 20) : k1_pay18 v12 (ix2 a b) = sqM (paramSlice flow 4) a b :=
  sq_of_slice (k1_pay17 v12) (paramSlice flow 4) (pay17_at v12 flow h12) slices_S440_o0_S400 shapeCasts_S400_S20x20 a b

theorem pay19_at (a b : Fin 20) : k1_pay19 v12 (ix2 a b) = upper (paramSlice flow 4) b a := by
  unfold k1_pay19
  refine (transpose_ix2_apply _ _ a b).trans ?_
  exact upperSel_at (k1_pay18 v12) (paramSlice flow 4) (pay18_at v12 flow h12) _ zeroWord_eq _ _ b a

theorem pay20_at (j : Fin 20) : k1_pay20 v12 (ix1 j) = biasV (paramSlice flow 4) j :=
  bias_of_slice (k1_pay17 v12) (paramSlice flow 4) (pay17_at v12 flow h12) slices_S440_o420_S20 j

theorem pay22_at (i j : Fin 20) : k1_pay22 v12 (ix2 i j) = innerM true (paramSlice flow 4) j i := by
  unfold k1_pay22
  refine (transpose_ix2_apply _ _ i j).trans ?_
  refine (diagSel_at _ _ _ _ _ _ _ j i).trans ?_
  unfold innerM
  by_cases h : j = i
  · rw [if_pos h, if_pos h]
    exact diag_of_slice (k1_pay17 v12) (paramSlice flow 4) (pay17_at v12 flow h12) slices_S440_o400_S20 j
  · rw [if_neg h, if_neg h, if_pos rfl]
    exact lowerSel_at (k1_pay18 v12) (paramSlice flow 4) (pay18_at v12 flow h12) _ zeroWord_eq _ _ j i

theorem pay24_at (i : Fin 440) : k1_pay24 v12 (ix1 i) = paramSlice flow 6 i :=
  slice440_at v12 flow h12 6 2640 rfl slices_S3520_o2640_S440 i

theorem pay26_at (i : Fin 440) : k1_pay26 v12 (ix1 i) = paramSlice flow 7 i :=
  slice440_at v12 flow h12 7 3080 rfl slices_S3520_o3080_S440 i

theorem pay27_at (a b : Fin 20) : k1_pay27 v12 (ix2 a b) = sqM (paramSlice flow 7) a b :=
  sq_of_slice (k1_pay26 v12) (paramSlice flow 7) (pay26_at v12 flow h12) slices_S440_o0_S400 shapeCasts_S400_S20x20 a b

theorem pay28_at (a b : Fin 20) : k1_pay28 v12 (ix2 a b) = upper (paramSlice flow 7) a b :=
  upperSel_at (k1_pay27 v12) (paramSlice flow 7) (pay27_at v12 flow h12) _ zeroWord_eq _ _ a b

end Params

end Cert.KernelIdeal.Dec

end
-- ==== Proof.DecPayloadB.lean ====
import proofs.«125444_j2207613190724_1_alg».proof.Proof.Gen.KernelIdeal.Frame
import proofs.«125444_j2207613190724_1_alg».proof.Proof.Whole
import proofs.«125444_j2207613190724_1_alg».proof.Proof.DecStep
import proofs.«125444_j2207613190724_1_alg».proof.Proof.DecPayloadA
import proofs.«125444_j2207613190724_1_alg».proof.Proof.DecParamsB

noncomputable section

namespace Cert.KernelIdeal.Dec

open Idealize.ShloMosaic Idealize.ShloMosaic.ValueIdx Cert.KernelIdeal Cert.KernelIdeal.Gen Cert.Sylvester

namespace Tail

theorem mm_zero_apply {R K C : ℕ} {φ₁ φ₂ : FTy} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (A : FVec Ideal ⟨2, ![R, K]⟩ φ₁) (B : FVec Ideal ⟨2, ![K, C]⟩ φ₂) (p : Fin R) (q : Fin C) :
    matmul d none A B (constant (F := Ideal) ⟨2, ![R, C]⟩ .f32 0x00000000#32) (ix2 p q)
      = ∑ k : Fin K, (A (ix2 p k) : EReal) * B (ix2 k q) := by
  simp only [matmul]
  rw [Ideal.matmul_constant_zero_apply]
  exact PlainDot.sum_eq (M := EReal) d hlb hln hlc hrb hrn hrc A B p q

theorem zeroWord_eq : (Scalar.ofBits .f32 0x00000000#32 : Ideal .f32) = 0 := Ideal.ofBits_zero_f32

theorem hidden_apply (z : FVec Ideal S512x64 .f32) (W3 : Vec Ideal S400x64 .f32) (b3 : Vec Ideal S400 .f32)
    (r : Fin 512) (zr : Fin 64 → EReal) (hz : ∀ n, z (ix2 r n) = zr n) (j : Fin 400) :
    maximumf (addf (matmul dot_S512x64_S64x400_S512x400_1_0_0_1_n_n none (truncf .bf16 z bitsLt_bf16_f32)
        (transpose S64x400 [1, 0] (truncf .bf16 W3 bitsLt_bf16_f32) transposes_S400x64_p1_0_S64x400)
        (constant S512x400 .f32 0x00000000#32))
      (broadcastTo S512x400 (shapeCast S1x400 b3 shapeCasts_S400_S1x400) broadcasts_S1x400_S512x400))
      (broadcast S512x400 (Scalar.ofBits .f32 0x00000000#32)) (ix2 r j)
      = max ((∑ n : Fin 64, zr n * cur2 W3 j n) + cur1 b3 j) 0 := by
  rw [maximumf_apply, addf_apply, broadcast_apply, zeroWord_eq, rowBroadcast_at,
    mm_zero_apply dot_S512x64_S64x400_S512x400_1_0_0_1_n_n rfl rfl rfl rfl rfl rfl]
  refine congrArg (fun s => max (s + b3 (ix1 j)) 0) (Finset.sum_congr rfl fun n _ => ?_)
  rw [truncf_apply, hz, transpose_ix2_apply, truncf_apply]

theorem output_apply (h : FVec Ideal S512x400 .f32) (W4 : Vec Ideal S4096x400 .f32) (b4 : Vec Ideal S4096 .f32)
    (r : Fin 512) (hr : Fin 400 → EReal) (hh : ∀ j, h (ix2 r j) = hr j) (d : Fin 4096) :
    addf (matmul dot_S512x400_S400x4096_S512x4096_1_0_0_1_n_n none (truncf .bf16 h bitsLt_bf16_f32)
        (transpose S400x4096 [1, 0] (truncf .bf16 W4 bitsLt_bf16_f32) transposes_S4096x400_p1_0_S400x4096)
        (constant S512x4096 .f32 0x00000000#32))
      (broadcastTo S512x4096 (shapeCast S1x4096 b4 shapeCasts_S4096_S1x4096) broadcasts_S1x4096_S512x4096) (ix2 r d)
      = (∑ j : Fin 400, hr j * cur2 W4 d j) + cur1 b4 d := by
  rw [addf_apply, rowBroadcast_at,
    mm_zero_apply dot_S512x400_S400x4096_S512x4096_1_0_0_1_n_n rfl rfl rfl rfl rfl rfl]
  refine congrArg (fun s => s + b4 (ix1 d)) (Finset.sum_congr rfl fun j _ => ?_)
  rw [truncf_apply, hh, transpose_ix2_apply, truncf_apply]

theorem decode_apply (z : FVec Ideal S512x64 .f32) (W3 : Vec Ideal S400x64 .f32) (b3 : Vec Ideal S400 .f32)
    (W4 : Vec Ideal S4096x400 .f32) (b4 : Vec Ideal S4096 .f32)
    (r : Fin 512) (zr : Fin 64 → EReal) (hz : ∀ n, z (ix2 r n) = zr n) (d : Fin 4096) :
    addf (matmul dot_S512x400_S400x4096_S512x4096_1_0_0_1_n_n none
        (truncf .bf16 (maximumf (addf (matmul dot_S512x64_S64x400_S512x400_1_0_0_1_n_n none (truncf .bf16 z bitsLt_bf16_f32)
              (transpose S64x400 [1, 0] (truncf .bf16 W3 bitsLt_bf16_f32) transposes_S400x64_p1_0_S64x400)
              (constant S512x400 .f32 0x00000000#32))
            (broadcastTo S512x400 (shapeCast S1x400 b3 shapeCasts_S400_S1x400) broadcasts_S1x400_S512x400))
            (broadcast S512x400 (Scalar.ofBits .f32 0x00000000#32))) bitsLt_bf16_f32)
        (transpose S400x4096 [1, 0] (truncf .bf16 W4 bitsLt_bf16_f32) transposes_S4096x400_p1_0_S400x4096)
        (constant S512x4096 .f32 0x00000000#32))
      (broadcastTo S512x4096 (shapeCast S1x4096 b4 shapeCasts_S4096_S1x4096) broadcasts_S1x4096_S512x4096) (ix2 r d)
      = decodeRow zr (cur2 W3) (cur1 b3) (cur2 W4) (cur1 b4) d :=
  output_apply _ W4 b4 r _ (fun j => hidden_apply z W3 b3 r zr hz j) d

end Tail

namespace StepB

section Pieces
variable (sl : FVec Ideal S440 .f32) (P : Fin 440 → EReal) (hsl : ∀ i, sl (ix1 i) = P i)
include hsl

theorem sqM_at (h1 : S440.Slices ![0] S400) (h2 : S400.ShapeCasts S20x20) (a b : Fin 20) :
    shapeCast S20x20 (extractStridedSlice S400 ![0] sl h1) h2 (ix2 a b) = sqM P a b := by
  rw [sq_at, slice1_at, hsl]
  exact congrArg P (Fin.ext (Nat.zero_add _))

theorem biasV_at (h : S440.Slices ![420] S20) (j : Fin 20) :
    extractStridedSlice S20 ![420] sl h (ix1 j) = biasV P j := by
  rw [slice1_at, hsl]; rfl

theorem diag_at (md : IVec S20x20 1) (hmd : ∀ a b : Fin 20, md (ix2 a b) = 1#1 ↔ a = b) (L : FVec Ideal S20x20 .f32)
    (hs : S440.Slices ![400] S20) (h1 : S20.ShapeCasts S20x1) (h2 : S20x1.ShapeCasts S20x1) (h3 : S20x1.Broadcasts S20x20)
    (a b : Fin 20) :
    select md (broadcastTo S20x20 (shapeCast S20x1 (shapeCast S20x1 (extractStridedSlice S20 ![400] sl hs) h1) h2) h3) L (ix2 a b)
      = if a = b then P ⟨400 + a.val, by have := a.isLt; omega⟩ else L (ix2 a b) := by
  rw [select_at md _ _ _ (a = b) (hmd a b), diagSource_at, slice1_at, hsl]

end Pieces

section Triangles
variable (P : Fin 440 → EReal) (M : FVec Ideal S20x20 .f32) (hM : ∀ a b, M (ix2 a b) = sqM P a b)
  (c0 : Ideal .f32) (h0 : c0 = 0)
include hM h0

theorem upper_at (m : IVec S20x20 1) (hm : ∀ a b : Fin 20, m (ix2 a b) = 1#1 ↔ b.val < a.val) (a b : Fin 20) :
    select m (broadcast S20x20 c0) M (ix2 a b) = upper P a b := by
  rw [select_at m _ _ _ (b.val < a.val) (hm a b), broadcast_apply, hM, h0]
  unfold upper
  by_cases h : b.val < a.val
  · rw [if_pos h, if_neg (by omega)]
  · rw [if_neg h, if_pos (by omega)]

theorem lower_at (m : IVec S20x20 1) (hm : ∀ a b : Fin 20, m (ix2 a b) = 1#1 ↔ b.val ≤ a.val) (a b : Fin 20) :
    select m M (broadcast S20x20 c0) (ix2 a b) = lower P a b := by
  rw [select_at m _ _ _ (b.val ≤ a.val) (hm a b), broadcast_apply, hM, h0]
  rfl

end Triangles

section Halves
variable {R : ℕ} (d : DotDims ⟨2, ![R, 20]⟩ ⟨2, ![20, 20]⟩ ⟨2, ![R, 20]⟩)
  (hlb : d.lhsBatch = []) (hln : d.lhsNonContracting = [0]) (hlc : d.lhsContracting = [1])
  (hrb : d.rhsBatch = []) (hrn : d.rhsNonContracting = [1]) (hrc : d.rhsContracting = [0])
  (even : Bool) (P : Fin 440 → EReal) (r : Fin R) (zr : Fin 64 → EReal)
include hlb hln hlc hrb hrn hrc

theorem pre_at (z20 : FVec Ideal ⟨2, ![R, 20]⟩ .f32) (A : FVec Ideal ⟨2, ![20, 20]⟩ .f32) (bb : FVec Ideal ⟨2, ![R, 20]⟩ .f32)
    (hz20 : ∀ i : Fin 20, z20 (ix2 r i) = zr ⟨i.val, by have := i.isLt; omega⟩)
    (hA : ∀ i j, A (ix2 i j) = innerM even P j i) (hb : ∀ j, bb (ix2 r j) = biasV P j) (j : Fin 20) :
    addf (matmul d none z20 A (constant ⟨2, ![R, 20]⟩ .f32 0x00000000#32)) bb (ix2 r j) = preRow even P zr j := by
  rw [addf_apply, matmul_at d hlb hln hlc hrb hrn hrc, hb]
  unfold preRow
  refine congrArg (· + biasV P j) (Finset.sum_congr rfl fun i _ => ?_)
  rw [hz20, hA]

theorem tail_at (z : FVec Ideal ⟨2, ![R, 64]⟩ .f32) (pre : FVec Ideal ⟨2, ![R, 20]⟩ .f32) (B : FVec Ideal ⟨2, ![20, 20]⟩ .f32)
    (c0 : Ideal .f32) (hc : Shape.Concatenates [⟨2, ![R, 20]⟩, ⟨2, ![R, 44]⟩] ⟨2, ![R, 64]⟩ 1)
    (hz : ∀ n, z (ix2 r n) = zr n) (hpre : ∀ j, pre (ix2 r j) = preRow even P zr j)
    (hB : ∀ j n, B (ix2 j n) = outerM even P n j) (h0 : c0 = 0) (n : Fin 64) :
    addf z (concatenate ⟨2, ![R, 64]⟩ 1
        [⟨⟨2, ![R, 20]⟩, matmul d none (tanh pre) B (constant ⟨2, ![R, 20]⟩ .f32 0x00000000#32)⟩,
         ⟨⟨2, ![R, 44]⟩, broadcast ⟨2, ![R, 44]⟩ c0⟩] hc) (ix2 r n)
      = stepRow even P zr n := by
  rw [addf_apply, hz]
  have hp := pad_at (a := R) (m := 20) (k := 44)
    (matmul d none (tanh pre) B (constant ⟨2, ![R, 20]⟩ .f32 0x00000000#32)) c0 h0 hc r n
  unfold stepRow
  refine congrArg (zr n + ·) (hp.trans ?_)
  by_cases hn : n.val < 20
  · rw [dif_pos hn, dif_pos hn, matmul_at d hlb hln hlc hrb hrn hrc]
    unfold updRow
    refine Finset.sum_congr rfl fun j _ => ?_
    rw [hB]
    show Ideal.tanh (pre (ix2 r j)) * _ = _
    rw [hpre]
  · rw [dif_neg hn, dif_neg hn]

end Halves

end StepB

namespace StepB

theorem innerM_true (P : Fin 440 → EReal) (a b : Fin 20) :
    innerM true P a b = if a = b then P ⟨400 + a.val, by have := a.isLt; omega⟩ else lower P a b := rfl

theorem innerM_false (P : Fin 440 → EReal) (a b : Fin 20) :
    innerM false P a b = if a = b then P ⟨400 + a.val, by have := a.isLt; omega⟩ else lower P b a := rfl

theorem outerM_true (P : Fin 440 → EReal) (a b : Fin 20) : outerM true P a b = upper P b a := rfl

theorem outerM_false (P : Fin 440 → EReal) (a b : Fin 20) : outerM false P a b = upper P a b := rfl

theorem paramSlice_at (v12 : FVec Ideal S3520 .f32) (flow : Fin 3520 → EReal) (h12 : ∀ p, v12 (ix1 p) = flow p)
    (k : Fin 8) (o : ℕ) (ho : o = 440 * k.val) (h : S3520.Slices ![o] S440) (i : Fin 440) :
    extractStridedSlice S440 ![o] v12 h (ix1 i) = paramSlice flow k i := by
  subst ho
  rw [slice1_at, h12]; rfl

end StepB

namespace StepB

theorem maskLower_of (x y : IVec S20x20 32) (hx : ∀ a b : Fin 20, x (ix2 a b) = BitVec.ofNat 32 a.val)
    (hy : ∀ a b : Fin 20, y (ix2 a b) = 0#32) (h1 : S20x20.Iotas .tc 32 [1]) (a b : Fin 20) :
    cmpi .sge (addi x y) (iota .tc S20x20 32 [1] h1) (ix2 a b) = 1#1 ↔ b.val ≤ a.val := by
  show IntOp.cmpi .sge (IntOp.addi (x (ix2 a b)) (y (ix2 a b))) (iota .tc S20x20 32 [1] h1 (ix2 a b)) = 1#1 ↔ _
  rw [hx, hy, iota_single_apply]
  exact sge_zero_iff a b

end StepB

local notation "D20" => dot_S512x20_S20x20_S512x20_1_0_0_1_n_n

theorem pay29_at (a b : Fin 20) : k1_pay29 (ix2 a b) = 0#32 := rfl

theorem pay16_at (v129 : FVec Ideal S512x64 .f32) (v130 : FVec Ideal S440 .f32) (v132 v139 : FVec Ideal S20x20 .f32)
    (v144 : IVec S20x20 1) (cst_29 : Ideal .f32) (P : Fin 440 → EReal) (r : Fin 512) (zr : Fin 64 → EReal)
    (hz : ∀ n, v129 (ix2 r n) = zr n) (h130 : ∀ i, v130 (ix1 i) = P i) (h132 : ∀ a b, v132 (ix2 a b) = sqM P a b)
    (h139 : ∀ a b, v139 (ix2 a b) = upper P a b) (h144 : ∀ a b, v144 (ix2 a b) = 1#1 ↔ b.val ≤ a.val)
    (h0 : cst_29 = 0) (n : Fin 64) :
    k1_pay16 v129 v130 v132 v139 v144 cst_29 (ix2 r n) = stepRow false P zr n := by
  unfold k1_pay16
  dsimp only
  refine StepB.tail_at D20 rfl rfl rfl rfl rfl rfl false P r zr v129 _ _ _ _ hz (fun j => ?_) (fun j m => ?_)
    Tail.zeroWord_eq n
  · refine StepB.pre_at D20 rfl rfl rfl rfl rfl rfl false P r zr _ _ _ (fun i => ?_) (fun i j => ?_) (fun j => ?_) j
    · rw [cols_at]; exact hz _
    · rw [transpose_ix2_apply, StepB.diag_at v130 P h130 _ (maskDiag_at _ _), transpose_ix2_apply,
        StepB.lower_at P v132 h132 cst_29 h0 v144 h144, StepB.innerM_false]
    · rw [rowBroadcast_at, StepB.biasV_at v130 P h130]
  · rw [transpose_ix2_apply, h139, StepB.outerM_false]

theorem pay21_at (v129 : FVec Ideal S512x64 .f32) (v130 : FVec Ideal S440 .f32) (v132 v139 : FVec Ideal S20x20 .f32)
    (v144 : IVec S20x20 1) (cst_29 : Ideal .f32) (P : Fin 440 → EReal) (r : Fin 512) (zr : Fin 64 → EReal)
    (hz : ∀ n, v129 (ix2 r n) = zr n) (h130 : ∀ i, v130 (ix1 i) = P i) (h132 : ∀ a b, v132 (ix2 a b) = sqM P a b)
    (h139 : ∀ a b, v139 (ix2 a b) = upper P a b) (h144 : ∀ a b, v144 (ix2 a b) = 1#1 ↔ b.val ≤ a.val)
    (h0 : cst_29 = 0) (i : Fin 20) :
    k1_pay21 v129 v130 v132 v139 v144 cst_29 (ix2 r i) = stepRow false P zr ⟨i.val, by have := i.isLt; omega⟩ := by
  unfold k1_pay21
  rw [cols_at]
  exact pay16_at v129 v130 v132 v139 v144 cst_29 P r zr hz h130 h132 h139 h144 h0 _

theorem pay23_at (v12 : FVec Ideal S3520 .f32) (v168 : FVec Ideal S512x64 .f32) (v186 : FVec Ideal S20x20 .f32)
    (v188 : FVec Ideal S20 .f32) (v196 : FVec Ideal S512x20 .f32) (v197 : FVec Ideal S20x20 .f32)
    (flow : Fin 3520 → EReal) (r : Fin 512) (zr : Fin 64 → EReal) (h12 : ∀ p, v12 (ix1 p) = flow p)
    (h168 : ∀ n, v168 (ix2 r n) = zr n) (h186 : ∀ a b, v186 (ix2 a b) = upper (paramSlice flow 4) b a)
    (h188 : ∀ j, v188 (ix1 j) = biasV (paramSlice flow 4) j)
    (h196 : ∀ i : Fin 20, v196 (ix2 r i) = zr ⟨i.val, by have := i.isLt; omega⟩)
    (h197 : ∀ i j, v197 (ix2 i j) = innerM true (paramSlice flow 4) j i) (n : Fin 64) :
    k1_pay23 v12 v168 v186 v188 v196 v197 (ix2 r n)
      = stepRow false (paramSlice flow 5) (stepRow true (paramSlice flow 4) zr) n := by

  have h4 : ∀ m, addf v168 (concatenate S512x64 1
      [⟨S512x20, matmul D20 none (tanh (addf (matmul D20 none v196 v197 (constant S512x20 .f32 0x00000000#32))
          (broadcastTo S512x20 (shapeCast S1x20 v188 shapeCasts_S20_S1x20) broadcasts_S1x20_S512x20)))
          (transpose S20x20 [1, 0] v186 transposes_S20x20_p1_0_S20x20) (constant S512x20 .f32 0x00000000#32)⟩,
       ⟨S512x44, broadcast S512x44 (Scalar.ofBits .f32 0x00000000#32)⟩] concatenates_S512x20_S512x44_S512x64_d1) (ix2 r m)
      = stepRow true (paramSlice flow 4) zr m := by
    intro m
    refine StepB.tail_at D20 rfl rfl rfl rfl rfl rfl true (paramSlice flow 4) r zr v168 _ _ _ _ h168 (fun j => ?_)
      (fun j k => ?_) Tail.zeroWord_eq m
    · exact StepB.pre_at D20 rfl rfl rfl rfl rfl rfl true (paramSlice flow 4) r zr v196 v197 _ h196 h197
        (fun j => by rw [rowBroadcast_at, h188]) j
    · rw [transpose_ix2_apply, h186, StepB.outerM_true]

  unfold k1_pay23
  dsimp only
  have hsl := StepB.paramSlice_at v12 flow h12 5 2200 rfl slices_S3520_o2200_S440
  have hM := StepB.sqM_at _ (paramSlice flow 5) hsl slices_S440_o0_S400 shapeCasts_S400_S20x20
  refine StepB.tail_at D20 rfl rfl rfl rfl rfl rfl false (paramSlice flow 5) r _ _ _ _ _ _ h4 (fun j => ?_)
    (fun j m => ?_) Tail.zeroWord_eq n
  · refine StepB.pre_at D20 rfl rfl rfl rfl rfl rfl false (paramSlice flow 5) r _ _ _ _ (fun i => ?_) (fun i j => ?_)
      (fun j => ?_) j
    · rw [cols_at]; exact h4 _
    · rw [transpose_ix2_apply, StepB.diag_at _ _ hsl _ (maskDiag_at _ _), transpose_ix2_apply,
        StepB.lower_at _ _ hM _ Tail.zeroWord_eq _ (maskLower_at _ _), StepB.innerM_false]
    · rw [rowBroadcast_at, StepB.biasV_at _ _ hsl]
  · rw [transpose_ix2_apply, StepB.upper_at _ _ hM _ Tail.zeroWord_eq _ (maskBelow_at _ _), StepB.outerM_false]

theorem pay25_at (v246 : FVec Ideal S512x64 .f32) (v247 : FVec Ideal S440 .f32) (P : Fin 440 → EReal) (r : Fin 512)
    (zr : Fin 64 → EReal) (hz : ∀ n, v246 (ix2 r n) = zr n) (h247 : ∀ i, v247 (ix1 i) = P i) (n : Fin 64) :
    k1_pay25 v246 v247 (ix2 r n) = stepRow true P zr n := by
  unfold k1_pay25
  dsimp only
  have hM := StepB.sqM_at v247 P h247 slices_S440_o0_S400 shapeCasts_S400_S20x20
  refine StepB.tail_at D20 rfl rfl rfl rfl rfl rfl true P r zr v246 _ _ _ _ hz (fun j => ?_) (fun j m => ?_)
    Tail.zeroWord_eq n
  · refine StepB.pre_at D20 rfl rfl rfl rfl rfl rfl true P r zr _ _ _ (fun i => ?_) (fun i j => ?_) (fun j => ?_) j
    · rw [cols_at]; exact hz _
    · rw [transpose_ix2_apply, StepB.diag_at v247 P h247 _ (maskDiag_at _ _),
        StepB.lower_at P _ hM _ Tail.zeroWord_eq _ (maskLower_at _ _), StepB.innerM_true]
    · rw [rowBroadcast_at, StepB.biasV_at v247 P h247]
  · rw [transpose_ix2_apply, transpose_ix2_apply, StepB.upper_at P _ hM _ Tail.zeroWord_eq _ (maskBelow_at _ _),
      StepB.outerM_true]

theorem pay30_at (v285 : FVec Ideal S512x64 .f32) (v286 : FVec Ideal S440 .f32) (v288 v295 : FVec Ideal S20x20 .f32)
    (v296 v297 : IVec S20x20 32) (v326 : Vec Ideal S400x64 .f32) (v330 : Vec Ideal S400 .f32)
    (v337 : Vec Ideal S4096x400 .f32) (v341 : Vec Ideal S4096 .f32) (P : Fin 440 → EReal) (r : Fin 512)
    (zr : Fin 64 → EReal) (hz : ∀ n, v285 (ix2 r n) = zr n) (h286 : ∀ i, v286 (ix1 i) = P i)
    (h288 : ∀ a b, v288 (ix2 a b) = sqM P a b) (h295 : ∀ a b, v295 (ix2 a b) = upper P a b)
    (h296 : ∀ a b : Fin 20, v296 (ix2 a b) = BitVec.ofNat 32 a.val) (h297 : ∀ a b : Fin 20, v297 (ix2 a b) = 0#32)
    (d : Fin 4096) :
    k1_pay30 v285 v286 v288 v295 v296 v297 v326 v330 v337 v341 (ix2 r d)
      = decodeRow (stepRow false P zr) (cur2 v326) (cur1 v330) (cur2 v337) (cur1 v341) d := by
  unfold k1_pay30
  dsimp only
  refine Tail.decode_apply _ v326 v330 v337 v341 r _ (fun n => ?_) d
  refine StepB.tail_at D20 rfl rfl rfl rfl rfl rfl false P r zr v285 _ _ _ _ hz (fun j => ?_) (fun j m => ?_)
    Tail.zeroWord_eq n
  · refine StepB.pre_at D20 rfl rfl rfl rfl rfl rfl false P r zr _ _ _ (fun i => ?_) (fun i j => ?_) (fun j => ?_) j
    · rw [cols_at]; exact hz _
    · rw [transpose_ix2_apply, StepB.diag_at v286 P h286 _ (maskDiag_at _ _), transpose_ix2_apply,
        StepB.lower_at P v288 h288 _ Tail.zeroWord_eq _ (StepB.maskLower_of v296 v297 h296 h297 _), StepB.innerM_false]
    · rw [rowBroadcast_at, StepB.biasV_at v286 P h286]
  · rw [transpose_ix2_apply, h295, StepB.outerM_false]

theorem zeroOff2 : (![0, 0] : Fin 2 → Nat) = fun _ => 0 := funext fun a => by fin_cases a <;> rfl

theorem zeroOff1 : (![0] : Fin 1 → Nat) = fun _ => 0 := funext fun a => by fin_cases a; rfl

theorem out_block (x0 x1 x2 : Vec Ideal S512x64 .f32) (x3 : Vec Ideal S1x3520 .f32) (x4 : Vec Ideal S400x64 .f32)
    (x5 : Vec Ideal S400 .f32) (x6 : Vec Ideal S4096x400 .f32) (x7 : Vec Ideal S4096 .f32) (r : Fin 512) (d : Fin 4096) :
    Gen.out1_8 (F := Ideal) x0 x1 x2 x3 x4 x5 x6 x7 (ix2 r d) =
      Sylvester.reconRow (cur2 x0 r) (cur2 x1 r) (cur2 x2 r) (fun p => x3 (ix2 0 p)) (cur2 x4) (cur1 x5) (cur2 x6) (cur1 x7) d := by
  unfold Gen.out1_8
  rw [View.canon_unit_zero zeroOff2]
  simp only [View.ld_unit_zero (S := S512x64) zeroOff2, View.ld_unit_zero (S := S1x3520) zeroOff2,
    View.ld_unit_zero (S := S400x64) zeroOff2, View.ld_unit_zero (S := S400) zeroOff1,
    View.ld_unit_zero (S := S4096x400) zeroOff2, View.ld_unit_zero (S := S4096) zeroOff1]
  have h12 : ∀ p, k1_pay2 x3 (ix1 p) = flowOf x3 p := pay2_at x3

  have z4 := fun n => pay16_at _ _ _ _ _ _ (paramSlice (flowOf x3) 3) r _ (fun n => v129_at x0 x1 x2 x3 r n)
    (v130_at x3) (v132_at x3) (v139_at x3) v144_at cst29_eq n
  have z4' := fun i => pay21_at _ _ _ _ _ _ (paramSlice (flowOf x3) 3) r _ (fun n => v129_at x0 x1 x2 x3 r n)
    (v130_at x3) (v132_at x3) (v139_at x3) v144_at cst29_eq i

  have z6 := fun n => pay23_at _ _ _ _ _ _ (flowOf x3) r _ h12 z4 (pay19_at _ _ h12) (pay20_at _ _ h12) z4'
    (pay22_at _ _ h12) n

  have z7 := fun n => pay25_at _ _ (paramSlice (flowOf x3) 6) r _ z6 (pay24_at _ _ h12) n

  refine (pay30_at _ _ _ _ _ _ x4 x5 x6 x7 (paramSlice (flowOf x3) 7) r _ z7 (pay26_at _ _ h12) (pay27_at _ _ h12)
    (pay28_at _ _ h12) (fun a b => iota_single_apply .tc S20x20 32 0 iota_S20x20_d0_w32 (ix2 a b)) pay29_at d).trans ?_
  rfl

end Cert.KernelIdeal.Dec

end
-- ==== Proof.DecArray.lean ====
import proofs.«125444_j2207613190724_1_alg».proof.Proof.Gen.KernelIdeal.Frame
import proofs.«125444_j2207613190724_1_alg».proof.Proof.Whole
import proofs.«125444_j2207613190724_1_alg».proof.Proof.DecPayloadB
import Idealize.ShloMosaic.Lib.Pipeline.Value
import Idealize.ShloMosaic.Lib.Tactic

noncomputable section

namespace Cert.KernelIdeal.Dec

open Idealize.ShloMosaic Idealize.ShloMosaic.TcCoe Idealize.ShloMosaic.ValueIdx Idealize.SL.Sem
open Idealize.ShloMosaic.Pipeline (Dat)
open Cert.KernelIdeal Cert.KernelIdeal.Gen Cert.Sylvester

variable (V : (c : Dev nD) → (b : Ref sig .tc) → Buf (Elt Ideal) ((c : Thread nD τ).loc b))

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

theorem blk0_apply (c : Dev nD) (t : Fin cfg1.N) (r : Fin 512) (n : Fin 64) (k : Fin 16384) (hk : k.val = 512 * t.val + r.val) :
    (iblk1 V c 0 t : Vec Ideal S512x64 .f32) (ix2 r n) = (V c main_v0_0 : S16384x64.Idx → EReal) (ix2 k n) := by
  obtain ⟨e0, e1, -⟩ := idx_facts t
  unfold iblk1
  rw [View.read_apply]
  show V c main_v0_0 _ = V c main_v0_0 _
  congr 1
  funext a
  apply Fin.ext
  match a with
  | ⟨0, _⟩ => show win1_0.index t 0 * 512 + 1 * r.val = k.val; rw [e0, hk]; omega
  | ⟨1, _⟩ => show win1_0.index t 1 * 64 + 1 * n.val = n.val; rw [e1]; omega

theorem blk1_apply (c : Dev nD) (t : Fin cfg1.N) (r : Fin 512) (n : Fin 64) (k : Fin 16384) (hk : k.val = 512 * t.val + r.val) :
    (iblk1 V c 1 t : Vec Ideal S512x64 .f32) (ix2 r n) = (V c main_v0_1 : S16384x64.Idx → EReal) (ix2 k n) := by
  obtain ⟨-, -, e0, e1, -⟩ := idx_facts t
  unfold iblk1
  rw [View.read_apply]
  show V c main_v0_1 _ = V c main_v0_1 _
  congr 1
  funext a
  apply Fin.ext
  match a with
  | ⟨0, _⟩ => show win1_1.index t 0 * 512 + 1 * r.val = k.val; rw [e0, hk]; omega
  | ⟨1, _⟩ => show win1_1.index t 1 * 64 + 1 * n.val = n.val; rw [e1]; omega

theorem blk2_apply (c : Dev nD) (t : Fin cfg1.N) (r : Fin 512) (n : Fin 64) (k : Fin 16384) (hk : k.val = 512 * t.val + r.val) :
    (iblk1 V c 2 t : Vec Ideal S512x64 .f32) (ix2 r n) = (V c main_arg1 : S16384x64.Idx → EReal) (ix2 k n) := by
  obtain ⟨-, -, -, -, e0, e1, -⟩ := idx_facts t
  unfold iblk1
  rw [View.read_apply]
  show V c main_arg1 _ = V c main_arg1 _
  congr 1
  funext a
  apply Fin.ext
  match a with
  | ⟨0, _⟩ => show win1_2.index t 0 * 512 + 1 * r.val = k.val; rw [e0, hk]; omega
  | ⟨1, _⟩ => show win1_2.index t 1 * 64 + 1 * n.val = n.val; rw [e1]; omega

theorem blk3_apply (c : Dev nD) (t : Fin cfg1.N) (p : Fin 3520) :
    (iblk1 V c 3 t : Vec Ideal S1x3520 .f32) (ix2 0 p) = (V c main_v0_2 : S1x3520.Idx → EReal) (ix2 0 p) := by
  obtain ⟨-, -, -, -, -, -, e0, e1, -⟩ := idx_facts t
  unfold iblk1
  rw [View.read_apply]
  show V c main_v0_2 _ = V c main_v0_2 _
  congr 1
  funext a
  apply Fin.ext
  match a with
  | ⟨0, _⟩ => show win1_3.index t 0 * 1 + 1 * 0 = 0; rw [e0]
  | ⟨1, _⟩ => show win1_3.index t 1 * 3520 + 1 * p.val = p.val; rw [e1]; omega

theorem blk4_apply (c : Dev nD) (t : Fin cfg1.N) (j : Fin 400) (n : Fin 64) :
    (iblk1 V c 4 t : Vec Ideal S400x64 .f32) (ix2 j n) = (V c main_arg10 : S400x64.Idx → EReal) (ix2 j n) := by
  obtain ⟨-, -, -, -, -, -, -, -, e0, e1, -⟩ := idx_facts t
  unfold iblk1
  rw [View.read_apply]
  show V c main_arg10 _ = V c main_arg10 _
  congr 1
  funext a
  apply Fin.ext
  match a with
  | ⟨0, _⟩ => show win1_4.index t 0 * 400 + 1 * j.val = j.val; rw [e0]; omega
  | ⟨1, _⟩ => show win1_4.index t 1 * 64 + 1 * n.val = n.val; rw [e1]; omega

theorem blk5_apply (c : Dev nD) (t : Fin cfg1.N) (j : Fin 400) :
    (iblk1 V c 5 t : Vec Ideal S400 .f32) (ix1 j) = (V c main_arg11 : S400.Idx → EReal) (ix1 j) := by
  obtain ⟨-, -, -, -, -, -, -, -, -, -, e0, -⟩ := idx_facts t
  unfold iblk1
  rw [View.read_apply]
  show V c main_arg11 _ = V c main_arg11 _
  congr 1
  funext a
  apply Fin.ext
  match a with
  | ⟨0, _⟩ => show win1_5.index t 0 * 400 + 1 * j.val = j.val; rw [e0]; omega

theorem blk6_apply (c : Dev nD) (t : Fin cfg1.N) (d : Fin 4096) (j : Fin 400) :
    (iblk1 V c 6 t : Vec Ideal S4096x400 .f32) (ix2 d j) = (V c main_arg12 : S4096x400.Idx → EReal) (ix2 d j) := by
  obtain ⟨-, -, -, -, -, -, -, -, -, -, -, e0, e1, -⟩ := idx_facts t
  unfold iblk1
  rw [View.read_apply]
  show V c main_arg12 _ = V c main_arg12 _
  congr 1
  funext a
  apply Fin.ext
  match a with
  | ⟨0, _⟩ => show win1_6.index t 0 * 4096 + 1 * d.val = d.val; rw [e0]; omega
  | ⟨1, _⟩ => show win1_6.index t 1 * 400 + 1 * j.val = j.val; rw [e1]; omega

theorem blk7_apply (c : Dev nD) (t : Fin cfg1.N) (d : Fin 4096) :
    (iblk1 V c 7 t : Vec Ideal S4096 .f32) (ix1 d) = (V c main_arg13 : S4096.Idx → EReal) (ix1 d) := by
  obtain ⟨-, -, -, -, -, -, -, -, -, -, -, -, -, e0, -⟩ := idx_facts t
  unfold iblk1
  rw [View.read_apply]
  show V c main_arg13 _ = V c main_arg13 _
  congr 1
  funext a
  apply Fin.ext
  match a with
  | ⟨0, _⟩ => show win1_7.index t 0 * 4096 + 1 * d.val = d.val; rw [e0]; omega

abbrev recon (c : Dev nD) : S16384x4096.Idx → EReal :=
  Sylvester.reconArr (V c main_v0_0) (V c main_v0_1) (V c main_arg1) (fun p => V c main_v0_2 (ix2 0 p))
    (V c main_arg10) (V c main_arg11) (V c main_arg12) (V c main_arg13)

theorem flushed_eq (c : Dev nD) (t : Fin cfg1.N) :
    (dat1 (F := Ideal) V c).flushed 8 t = ((cfg1.win 8).blk t).view.read (Elt Ideal) (recon V c) := by
  show (cfg1.win 8).cut (grid1.coords t) ((dat1 (F := Ideal) V c).after 8 t) = _
  rw [after1_8]
  funext y
  obtain ⟨r, d, rfl⟩ : ∃ (r : Fin 512) (d : Fin 4096), y = ix2 r d := ⟨y 0, y 1, eq_ix2 y⟩
  have ht : t.val < 32 := lt_of_lt_of_eq t.isLt (show cfg1.N = 32 from N_1)
  obtain ⟨-, -, -, -, -, -, -, -, -, -, -, -, -, -, e0, e1⟩ := idx_facts t
  rw [View.read_apply]
  have hi : ((cfg1.win 8).blk t).view.emb (ix2 r d) = (ix2 (⟨512 * t.val + r.val, by omega⟩ : Fin 16384) d : S16384x4096.Idx) := by
    funext a
    apply Fin.ext
    match a with
    | ⟨0, _⟩ => show win1_8.index t 0 * 512 + 1 * r.val = 512 * t.val + r.val; rw [e0]; omega
    | ⟨1, _⟩ => show win1_8.index t 1 * 4096 + 1 * d.val = d.val; rw [e1]; omega
  rw [hi]
  refine (out_block (iblk1 V c 0 t) (iblk1 V c 1 t) (iblk1 V c 2 t) (iblk1 V c 3 t) (iblk1 V c 4 t) (iblk1 V c 5 t) (iblk1 V c 6 t) (iblk1 V c 7 t) r d).trans ?_
  show reconRow _ _ _ _ _ _ _ _ d = reconRow _ _ _ _ _ _ _ _ d
  have h0 : cur2 (iblk1 V c 0 t : Vec Ideal S512x64 .f32) r = cur2 (V c main_v0_0 : S16384x64.Idx → EReal) ⟨512 * t.val + r.val, by omega⟩ :=
    funext fun n => blk0_apply V c t r n _ rfl
  have h1 : cur2 (iblk1 V c 1 t : Vec Ideal S512x64 .f32) r = cur2 (V c main_v0_1 : S16384x64.Idx → EReal) ⟨512 * t.val + r.val, by omega⟩ :=
    funext fun n => blk1_apply V c t r n _ rfl
  have h2 : cur2 (iblk1 V c 2 t : Vec Ideal S512x64 .f32) r = cur2 (V c main_arg1 : S16384x64.Idx → EReal) ⟨512 * t.val + r.val, by omega⟩ :=
    funext fun n => blk2_apply V c t r n _ rfl
  have h3 : (fun p => (iblk1 V c 3 t : Vec Ideal S1x3520 .f32) (ix2 0 p)) = fun p => (V c main_v0_2 : S1x3520.Idx → EReal) (ix2 0 p) :=
    funext fun p => blk3_apply V c t p
  have h4 : cur2 (iblk1 V c 4 t : Vec Ideal S400x64 .f32) = cur2 (V c main_arg10 : S400x64.Idx → EReal) :=
    funext fun j => funext fun n => blk4_apply V c t j n
  have h5 : cur1 (iblk1 V c 5 t : Vec Ideal S400 .f32) = cur1 (V c main_arg11 : S400.Idx → EReal) :=
    funext fun j => blk5_apply V c t j
  have h6 : cur2 (iblk1 V c 6 t : Vec Ideal S4096x400 .f32) = cur2 (V c main_arg12 : S4096x400.Idx → EReal) :=
    funext fun d => funext fun j => blk6_apply V c t d j
  have h7 : cur1 (iblk1 V c 7 t : Vec Ideal S4096 .f32) = cur1 (V c main_arg13 : S4096.Idx → EReal) :=
    funext fun d => blk7_apply V c t d
  rw [h0, h1, h2, h3, h4, h5, h6, h7]

theorem mem_blk (t : Fin cfg1.N) (i : S16384x4096.Idx) :
    i ∈ ((cfg1.win 8).blk t).view.set ↔ ∀ a : Fin 2, win1_8.index t a * S512x4096.size a ≤ (i a).val ∧ (i a).val < win1_8.index t a * S512x4096.size a + S512x4096.size a := by
  show i ∈ ((View.whole main_v1).slice (win1_8.rect t)).set ↔ _
  rw [View.set_slice_whole, Rect.mem_set_unit]
  exact Iff.rfl

theorem cover (i : S16384x4096.Idx) :
    ∃ t : Fin cfg1.N, (cfg1.win 8).flush t = true ∧ i ∈ ((cfg1.win 8).blk t).view.set := by
  have hi0 : (i 0).val < 16384 := (i 0).isLt
  have hi1 : (i 1).val < 4096 := (i 1).isLt
  have hN : cfg1.N = 32 := N_1
  obtain ⟨t, ht⟩ : ∃ t : Fin cfg1.N, t.val = (i 0).val / 512 := ⟨⟨(i 0).val / 512, by rw [hN]; omega⟩, rfl⟩
  obtain ⟨-, -, -, -, -, -, -, -, -, -, -, -, -, -, e0, e1⟩ := idx_facts t
  refine ⟨t, flush1_8 t, ?_⟩
  rw [mem_blk]
  intro a
  match a with
  | ⟨0, _⟩ => show win1_8.index t 0 * 512 ≤ (i 0).val ∧ (i 0).val < win1_8.index t 0 * 512 + 512; rw [e0, ht]; omega
  | ⟨1, _⟩ => show win1_8.index t 1 * 4096 ≤ (i 1).val ∧ (i 1).val < win1_8.index t 1 * 4096 + 4096; rw [e1]; omega

/-- Every block of the reconstruction is the decoder of its own 512 rows, and the 32 blocks cover the array. -/
theorem recon_arr (c : Dev nD) : (Gen.dat1 (F := Ideal) V c).arrAt 8 cfg1.N
    = Sylvester.reconArr (V c main_v0_0) (V c main_v0_1) (V c main_arg1) (fun p => V c main_v0_2 (ix2 0 p))
        (V c main_arg10) (V c main_arg11) (V c main_arg12) (V c main_arg13) :=
  (dat1 (F := Ideal) V c).arrAt_eq_of_cover 8 (recon V c) (fun t _ => flushed_eq V c t) cover

end Cert.KernelIdeal.Dec

end
-- ==== Proof.KernelValue.lean ====
import proofs.«125444_j2207613190724_1_alg».proof.Proof.EncArray
import proofs.«125444_j2207613190724_1_alg».proof.Proof.DecArray

set_option maxRecDepth 16384

noncomputable section

namespace Cert.KernelIdeal.Value

open Cert.KernelIdeal Cert.KernelIdeal.Gen Cert.Sylvester
open Idealize.ShloMosaic Idealize.ShloMosaic.TcCoe Idealize.SL.Sem Idealize.ShloMosaic.ValueIdx

variable (m : (ℓ : Loc nD τ sig) → Buf (Elt Ideal) ℓ) (ρ : Dev nD → PrngReg)

theorem entry1_kept (c : Dev nD) (b : Ref sig .tc) (hb : ∀ w, Pipeline.arrRef spec0 w ≠ b) :
    V1 (F := Ideal) m ρ c b = m ((c.tc : Thread nD τ).loc b) := W1_of_ne m ρ c b hb

theorem entry1_mu (c : Dev nD) : V1 (F := Ideal) m ρ c main_v0_0
    = affineArr (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (W1_arr m ρ c 9).trans (Enc.mu_arr (V0 m ρ) c)

theorem entry1_logvar (c : Dev nD) : V1 (F := Ideal) m ρ c main_v0_1
    = affineArr (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) :=
  (W1_arr m ρ c 10).trans (Enc.logvar_arr (V0 m ρ) c)

theorem entry1_flow (c : Dev nD) : (fun p => V1 (F := Ideal) m ρ c main_v0_2 (ix2 0 p))
    = flowVec (m ((c.tc : Thread nD τ).loc main_arg0)) (m ((c.tc : Thread nD τ).loc main_arg2)) (m ((c.tc : Thread nD τ).loc main_arg3)) (m ((c.tc : Thread nD τ).loc main_arg8)) (m ((c.tc : Thread nD τ).loc main_arg9)) := by
  funext p
  exact (congrFun (W1_arr m ρ c 11) (ix2 0 p)).trans (Enc.flow_arr (V0 m ρ) c p)

theorem mu (c : Dev nD) : W2 (F := Ideal) m ρ c (Proc.devRef .tc main_v0_0)
    = affineArr (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  ((W2_arr m ρ c 0).trans (((dat1 (V1 m ρ) c).arrAt_in 0 rfl _).trans (A_eq1 (V1 m ρ) c 0))).trans (entry1_mu m ρ c)

theorem logvar (c : Dev nD) : W2 (F := Ideal) m ρ c (Proc.devRef .tc main_v0_1)
    = affineArr (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) :=
  ((W2_arr m ρ c 1).trans (((dat1 (V1 m ρ) c).arrAt_in 1 rfl _).trans (A_eq1 (V1 m ρ) c 1))).trans (entry1_logvar m ρ c)

/-- The decoder reads the encoder's three results, so its result is the reconstruction of the arguments. -/
theorem recon (c : Dev nD) : W2 (F := Ideal) m ρ c (Proc.devRef .tc main_v1)
    = reconOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  have e8 : W2 (F := Ideal) m ρ c (Proc.devRef .tc main_v1) = (dat1 (V1 m ρ) c).arrAt 8 cfg1.N := W2_arr m ρ c 8
  rw [e8, Dec.recon_arr (V1 m ρ) c, entry1_mu m ρ c, entry1_logvar m ρ c, entry1_flow m ρ c,
    entry1_kept m ρ c main_arg1 (by decide), entry1_kept m ρ c main_arg10 (by decide), entry1_kept m ρ c main_arg11 (by decide),
    entry1_kept m ρ c main_arg12 (by decide), entry1_kept m ρ c main_arg13 (by decide)]
  rfl

end Cert.KernelIdeal.Value

end
-- ==== Proof.RefTerms.lean ====
import proofs.«125444_j2207613190724_1_alg».proof.ReferenceIdeal
import Idealize.ShloMosaic.PureOps.Ideal

noncomputable section

namespace Cert.ReferenceIdeal.Terms

open Idealize.ShloMosaic Cert.ReferenceIdeal Cert.ReferenceIdeal.Facts₀

variable [Facts]

structure Args where
  x : FVec Ideal S16384x4096 .f32
  eps : FVec Ideal S16384x64 .f32
  W1 : FVec Ideal S400x4096 .f32
  b1 : FVec Ideal S400 .f32
  W21 : FVec Ideal S64x400 .f32
  b21 : FVec Ideal S64 .f32
  W22 : FVec Ideal S64x400 .f32
  b22 : FVec Ideal S64 .f32
  W23 : FVec Ideal S3520x400 .f32
  b23 : FVec Ideal S3520 .f32
  W3 : FVec Ideal S400x64 .f32
  b3 : FVec Ideal S400 .f32
  W4 : FVec Ideal S4096x400 .f32
  b4 : FVec Ideal S4096 .f32

def t_v0 (A : Args) : FVec Ideal S4096x400 .f32 :=
  transpose S4096x400 [1, 0] A.W1 transposes_S400x4096_S4096x400_1_0

def t_v1 (A : Args) : FVec Ideal S16384x400 .f32 :=
  Host.dotGeneral dot_S16384x4096_S4096x400_S16384x400_1_0_0_1_n_n none A.x (t_v0 A)

def t_v2 (A : Args) : FVec Ideal S1x400 .f32 :=
  broadcastInDim S1x400 ![1] bcast_S400_S1x400_1 A.b1

def t_v3 (A : Args) : FVec Ideal S16384x400 .f32 :=
  broadcastInDim S16384x400 ![0, 1] bcast_S1x400_S16384x400_0_1 (t_v2 A)

def t_v4 (A : Args) : FVec Ideal S16384x400 .f32 :=
  addf (t_v1 A) (t_v3 A)

def t_call0_cst (A : Args) : FVec Ideal S_ .f32 :=
  constant S_ .f32 0x00000000#32

def t_call0_v0 (A : Args) : FVec Ideal S16384x400 .f32 :=
  broadcastInDim S16384x400 ![] bcast_S_S16384x400 (t_call0_cst A)

def t_v5 (A : Args) : FVec Ideal S16384x400 .f32 :=
  maximumf (t_v4 A) (t_call0_v0 A)

def t_v6 (A : Args) : FVec Ideal S400x64 .f32 :=
  transpose S400x64 [1, 0] A.W21 transposes_S64x400_S400x64_1_0

def t_v7 (A : Args) : FVec Ideal S16384x64 .f32 :=
  Host.dotGeneral dot_S16384x400_S400x64_S16384x64_1_0_0_1_n_n none (t_v5 A) (t_v6 A)

def t_v8 (A : Args) : FVec Ideal S1x64 .f32 :=
  broadcastInDim S1x64 ![1] bcast_S64_S1x64_1 A.b21

def t_v9 (A : Args) : FVec Ideal S16384x64 .f32 :=
  broadcastInDim S16384x64 ![0, 1] bcast_S1x64_S16384x64_0_1 (t_v8 A)

def t_v10 (A : Args) : FVec Ideal S16384x64 .f32 :=
  addf (t_v7 A) (t_v9 A)

def t_v11 (A : Args) : FVec Ideal S400x64 .f32 :=
  transpose S400x64 [1, 0] A.W22 transposes_S64x400_S400x64_1_0

def t_v12 (A : Args) : FVec Ideal S16384x64 .f32 :=
  Host.dotGeneral dot_S16384x400_S400x64_S16384x64_1_0_0_1_n_n none (t_v5 A) (t_v11 A)

def t_v13 (A : Args) : FVec Ideal S1x64 .f32 :=
  broadcastInDim S1x64 ![1] bcast_S64_S1x64_1 A.b22

def t_v14 (A : Args) : FVec Ideal S16384x64 .f32 :=
  broadcastInDim S16384x64 ![0, 1] bcast_S1x64_S16384x64_0_1 (t_v13 A)

def t_v15 (A : Args) : FVec Ideal S16384x64 .f32 :=
  addf (t_v12 A) (t_v14 A)

def t_v16 (A : Args) : FVec Ideal S400x3520 .f32 :=
  transpose S400x3520 [1, 0] A.W23 transposes_S3520x400_S400x3520_1_0

def t_v17 (A : Args) : FVec Ideal S16384x3520 .f32 :=
  Host.dotGeneral dot_S16384x400_S400x3520_S16384x3520_1_0_0_1_n_n none (t_v5 A) (t_v16 A)

def t_v18 (A : Args) : FVec Ideal S1x3520 .f32 :=
  broadcastInDim S1x3520 ![1] bcast_S3520_S1x3520_1 A.b23

def t_v19 (A : Args) : FVec Ideal S16384x3520 .f32 :=
  broadcastInDim S16384x3520 ![0, 1] bcast_S1x3520_S16384x3520_0_1 (t_v18 A)

def t_v20 (A : Args) : FVec Ideal S16384x3520 .f32 :=
  addf (t_v17 A) (t_v19 A)

def t_cst (A : Args) : FVec Ideal S_ .f32 :=
  constant S_ .f32 0x00000000#32

def t_v21 (A : Args) : FVec Ideal S3520 .f32 :=
  Host.reduceAdd (t_v20 A) (t_cst A) reducesTo_S16384x3520_S3520_d0 h_S_

def t_cst_0 (A : Args) : FVec Ideal S_ .f32 :=
  constant S_ .f32 0x46800000#32

def t_v22 (A : Args) : FVec Ideal S3520 .f32 :=
  broadcastInDim S3520 ![] bcast_S_S3520 (t_cst_0 A)

def t_v23 (A : Args) : FVec Ideal S3520 .f32 :=
  Host.divf (t_v21 A) (t_v22 A)

def t_cst_1 (A : Args) : FVec Ideal S_ .f32 :=
  constant S_ .f32 0x3F000000#32

def t_v24 (A : Args) : FVec Ideal S16384x64 .f32 :=
  broadcastInDim S16384x64 ![] bcast_S_S16384x64 (t_cst_1 A)

def t_v25 (A : Args) : FVec Ideal S16384x64 .f32 :=
  mulf (t_v24 A) (t_v15 A)

def t_v26 (A : Args) : FVec Ideal S16384x64 .f32 :=
  Host.exp (t_v25 A)

def t_v27 (A : Args) : FVec Ideal S16384x64 .f32 :=
  mulf A.eps (t_v26 A)

def t_v28 (A : Args) : FVec Ideal S16384x64 .f32 :=
  addf (t_v27 A) (t_v10 A)

namespace Step

variable (a b c : FVec Ideal S20x20 .f32) (P : FVec Ideal S440 .f32) (z : FVec Ideal S16384x64 .f32)

def s1 : FVec Ideal S400 .f32 :=
  extractStridedSlice S400 ![0] P slices_S440_S400_0

def s2 : FVec Ideal S20x20 .f32 :=
  shapeCast S20x20 (s1 P) shapeCasts_S400_S20x20

def s3 : IVec S20x20 32 :=
  iotaInDim S20x20 32 0

def s4 : IVec S_ 32 :=
  constantI S_ 32 4294967295#32

def s5 : IVec S20x20 32 :=
  broadcastInDim S20x20 ![] bcast_S_S20x20 s4

def s6 : IVec S20x20 32 :=
  addi s3 s5

def s7 : IVec S20x20 32 :=
  iotaInDim S20x20 32 1

def s8 : IVec S20x20 1 :=
  cmpi .sge s6 s7

def s9 : FVec Ideal S_ .f32 :=
  constant S_ .f32 0x00000000#32

def s10 : FVec Ideal S20x20 .f32 :=
  broadcastInDim S20x20 ![] bcast_S_S20x20 s9

def s11 : FVec Ideal S20x20 .f32 :=
  select s8 s10 (s2 P)

def s12 : IVec S20x20 32 :=
  iotaInDim S20x20 32 0

def s13 : IVec S_ 32 :=
  constantI S_ 32 0#32

def s14 : IVec S20x20 32 :=
  broadcastInDim S20x20 ![] bcast_S_S20x20 s13

def s15 : IVec S20x20 32 :=
  addi s12 s14

def s16 : IVec S20x20 32 :=
  iotaInDim S20x20 32 1

def s17 : IVec S20x20 1 :=
  cmpi .sge s15 s16

def s18 : FVec Ideal S_ .f32 :=
  constant S_ .f32 0x00000000#32

def s19 : FVec Ideal S20x20 .f32 :=
  broadcastInDim S20x20 ![] bcast_S_S20x20 s18

def s20 : FVec Ideal S20x20 .f32 :=
  select s17 (s2 P) s19

def s21 : FVec Ideal S20x20 .f32 :=
  transpose S20x20 [1, 0] a transposes_S20x20_S20x20_1_0

def s22 : FVec Ideal S20 .f32 :=
  extractStridedSlice S20 ![400] P slices_S440_S20_400

def s23 : FVec Ideal S20 .f32 :=
  extractStridedSlice S20 ![420] P slices_S440_S20_420

def s24 : IVec S20x20 32 :=
  iotaInDim S20x20 32 0

def s25 : IVec S20x20 32 :=
  iotaInDim S20x20 32 1

def s26 : IVec S_ 32 :=
  constantI S_ 32 0#32

def s27 : IVec S20x20 32 :=
  broadcastInDim S20x20 ![] bcast_S_S20x20 s26

def s28 : IVec S20x20 32 :=
  addi s24 s27

def s29 : IVec S20x20 1 :=
  cmpi .eq s28 s25

def s30 : FVec Ideal S20x20 .f32 :=
  uitofp .f32 s29

def s31 : FVec Ideal S_ .f32 :=
  constant S_ .f32 0x3F800000#32

def s32 : FVec Ideal S20x20 .f32 :=
  broadcastInDim S20x20 ![] bcast_S_S20x20 s31

def s33 : FVec Ideal S20x20 .f32 :=
  subf s32 s30

def s34 : FVec Ideal S20x20 .f32 :=
  mulf b s33

def s35 : FVec Ideal S_ .f32 :=
  constant S_ .f32 0x00000000#32

def s36 : FVec Ideal S20 .f32 :=
  pad S20 ![0] ![0] ![0] (s22 P) s35 pads_S20_S20_000 h_S_

def s37 : IVec S20x20 32 :=
  iotaInDim S20x20 32 0

def s38 : IVec S20x20 32 :=
  iotaInDim S20x20 32 1

def s39 : IVec S_ 32 :=
  constantI S_ 32 0#32

def s40 : IVec S20x20 32 :=
  broadcastInDim S20x20 ![] bcast_S_S20x20 s39

def s41 : IVec S20x20 32 :=
  addi s37 s40

def s42 : IVec S20x20 1 :=
  cmpi .eq s41 s38

def s43 : FVec Ideal S20x1 .f32 :=
  broadcastInDim S20x1 ![0] bcast_S20_S20x1_0 (s36 P)

def s44 : FVec Ideal S_ .f32 :=
  constant S_ .f32 0x00000000#32

def s45 : FVec Ideal S20x20 .f32 :=
  broadcastInDim S20x20 ![0, 1] bcast_S20x1_S20x20_0_1 (s43 P)

def s46 : FVec Ideal S20x20 .f32 :=
  broadcastInDim S20x20 ![] bcast_S_S20x20 s44

def s47 : FVec Ideal S20x20 .f32 :=
  select s42 (s45 P) s46

def s48 : FVec Ideal S20x20 .f32 :=
  addf (s34 b) (s47 P)

def s49 : FVec Ideal S16384x20 .f32 :=
  extractStridedSlice S16384x20 ![0, 0] z slices_S16384x64_S16384x20_0_0

def s50 : FVec Ideal S20x20 .f32 :=
  transpose S20x20 [1, 0] (s48 b P) transposes_S20x20_S20x20_1_0

def s51 : FVec Ideal S16384x20 .f32 :=
  Host.dotGeneral dot_S16384x20_S20x20_S16384x20_1_0_0_1_n_n none (s49 z) (s50 b P)

def s52 : FVec Ideal S1x20 .f32 :=
  broadcastInDim S1x20 ![1] bcast_S20_S1x20_1 (s23 P)

def s53 : FVec Ideal S16384x20 .f32 :=
  broadcastInDim S16384x20 ![0, 1] bcast_S1x20_S16384x20_0_1 (s52 P)

def s54 : FVec Ideal S16384x20 .f32 :=
  addf (s51 b P z) (s53 P)

def s55 : FVec Ideal S16384x20 .f32 :=
  Host.tanh (s54 b P z)

def s56 : FVec Ideal S20x20 .f32 :=
  transpose S20x20 [1, 0] c transposes_S20x20_S20x20_1_0

def s57 : FVec Ideal S16384x20 .f32 :=
  Host.dotGeneral dot_S16384x20_S20x20_S16384x20_1_0_0_1_n_n none (s55 b P z) (s56 c)

def s58 : IVec S_ 32 :=
  constantI S_ 32 0#32

def s59 : IVec S1 32 :=
  broadcastInDim S1 ![] bcast_S_S1 s58

/-- What one step leaves: z with the update added into its first twenty columns; the even and the odd step differ in b (the lower factor's source) and c (the upper factor). -/
def s60 : FVec Ideal S16384x64 .f32 :=
  Host.scatter scatter_S16384x64_S1_S16384x20_01_n_1_0 FloatOps.addf z s59 (s57 b c P z)

end Step

def t_v29 (A : Args) : FVec Ideal S440 .f32 :=
  extractStridedSlice S440 ![0] (t_v23 A) slices_S3520_S440_0

def t_v33 (A : Args) : FVec Ideal S20x20 .f32 := Step.s20 (t_v29 A)

def t_v34 (A : Args) : FVec Ideal S20x20 .f32 := Step.s21 (Step.s11 (t_v29 A))

def t_v35 (A : Args) : FVec Ideal S20 .f32 := Step.s22 (t_v29 A)

def t_v36 (A : Args) : FVec Ideal S20 .f32 := Step.s23 (t_v29 A)

def t_v37 (A : Args) : IVec S20x20 32 := Step.s24

def t_v38 (A : Args) : IVec S20x20 32 := Step.s25

def t_v54 (A : Args) : FVec Ideal S16384x20 .f32 := Step.s55 (Step.s20 (t_v29 A)) (t_v29 A) (t_v28 A)

def t_v58 (A : Args) : FVec Ideal S16384x64 .f32 := Step.s60 (Step.s20 (t_v29 A)) (Step.s21 (Step.s11 (t_v29 A))) (t_v29 A) (t_v28 A)

def t_v59 (A : Args) : FVec Ideal S440 .f32 :=
  extractStridedSlice S440 ![440] (t_v23 A) slices_S3520_S440_440

def t_v62 (A : Args) : FVec Ideal S20x20 .f32 := Step.s11 (t_v59 A)

def t_v64 (A : Args) : FVec Ideal S20x20 .f32 := Step.s21 (Step.s20 (t_v59 A))

def t_v65 (A : Args) : FVec Ideal S20 .f32 := Step.s22 (t_v59 A)

def t_v66 (A : Args) : FVec Ideal S20 .f32 := Step.s23 (t_v59 A)

def t_v72 (A : Args) : FVec Ideal S20x20 .f32 := Step.s30

def t_v73 (A : Args) : FVec Ideal S20x20 .f32 := Step.s32

def t_v88 (A : Args) : FVec Ideal S16384x64 .f32 := Step.s60 (Step.s21 (Step.s20 (t_v59 A))) (Step.s11 (t_v59 A)) (t_v59 A) (t_v58 A)

def t_v89 (A : Args) : FVec Ideal S440 .f32 :=
  extractStridedSlice S440 ![880] (t_v23 A) slices_S3520_S440_880

def t_v91 (A : Args) : FVec Ideal S20x20 .f32 := Step.s2 (t_v89 A)

def t_call7_v4 (A : Args) : IVec S20x20 1 := Step.s8

def t_call7_v5 (A : Args) : FVec Ideal S20x20 .f32 := Step.s10

def t_v94 (A : Args) : FVec Ideal S20x20 .f32 := Step.s21 (Step.s11 (t_v89 A))

def t_v96 (A : Args) : FVec Ideal S20 .f32 := Step.s23 (t_v89 A)

def t_v107 (A : Args) : FVec Ideal S20x20 .f32 := Step.s48 (Step.s20 (t_v89 A)) (t_v89 A)

def t_v108 (A : Args) : FVec Ideal S16384x20 .f32 := Step.s49 (t_v88 A)

def t_v118 (A : Args) : FVec Ideal S16384x64 .f32 := Step.s60 (Step.s20 (t_v89 A)) (Step.s21 (Step.s11 (t_v89 A))) (t_v89 A) (t_v88 A)

def t_v119 (A : Args) : FVec Ideal S440 .f32 :=
  extractStridedSlice S440 ![1320] (t_v23 A) slices_S3520_S440_1320

def t_v122 (A : Args) : FVec Ideal S20x20 .f32 := Step.s11 (t_v119 A)

def t_v124 (A : Args) : FVec Ideal S20x20 .f32 := Step.s21 (Step.s20 (t_v119 A))

def t_v125 (A : Args) : FVec Ideal S20 .f32 := Step.s22 (t_v119 A)

def t_v146 (A : Args) : FVec Ideal S16384x20 .f32 := Step.s57 (Step.s21 (Step.s20 (t_v119 A))) (Step.s11 (t_v119 A)) (t_v119 A) (t_v118 A)

def t_v148 (A : Args) : FVec Ideal S16384x64 .f32 := Step.s60 (Step.s21 (Step.s20 (t_v119 A))) (Step.s11 (t_v119 A)) (t_v119 A) (t_v118 A)

def t_v149 (A : Args) : FVec Ideal S440 .f32 :=
  extractStridedSlice S440 ![1760] (t_v23 A) slices_S3520_S440_1760

def t_v153 (A : Args) : FVec Ideal S20x20 .f32 := Step.s20 (t_v149 A)

def t_v154 (A : Args) : FVec Ideal S20x20 .f32 := Step.s21 (Step.s11 (t_v149 A))

def t_v155 (A : Args) : FVec Ideal S20 .f32 := Step.s22 (t_v149 A)

def t_v156 (A : Args) : FVec Ideal S20 .f32 := Step.s23 (t_v149 A)

def t_v162 (A : Args) : FVec Ideal S20x20 .f32 := Step.s30

def t_cst_14 (A : Args) : FVec Ideal S_ .f32 := Step.s31

def t_v178 (A : Args) : FVec Ideal S16384x64 .f32 := Step.s60 (Step.s20 (t_v149 A)) (Step.s21 (Step.s11 (t_v149 A))) (t_v149 A) (t_v148 A)

def t_v179 (A : Args) : FVec Ideal S440 .f32 :=
  extractStridedSlice S440 ![2200] (t_v23 A) slices_S3520_S440_2200

def t_v181 (A : Args) : FVec Ideal S20x20 .f32 := Step.s2 (t_v179 A)

def t_call16_v4 (A : Args) : IVec S20x20 1 := Step.s8

def t_v182 (A : Args) : FVec Ideal S20x20 .f32 := Step.s11 (t_v179 A)

def t_v186 (A : Args) : FVec Ideal S20 .f32 := Step.s23 (t_v179 A)

def t_v195 (A : Args) : FVec Ideal S20x20 .f32 := Step.s34 (Step.s21 (Step.s20 (t_v179 A)))

def t_v196 (A : Args) : FVec Ideal S20x20 .f32 := Step.s47 (t_v179 A)

def t_v208 (A : Args) : FVec Ideal S16384x64 .f32 := Step.s60 (Step.s21 (Step.s20 (t_v179 A))) (Step.s11 (t_v179 A)) (t_v179 A) (t_v178 A)

def t_v209 (A : Args) : FVec Ideal S440 .f32 :=
  extractStridedSlice S440 ![2640] (t_v23 A) slices_S3520_S440_2640

def t_v213 (A : Args) : FVec Ideal S20x20 .f32 := Step.s20 (t_v209 A)

def t_v214 (A : Args) : FVec Ideal S20x20 .f32 := Step.s21 (Step.s11 (t_v209 A))

def t_v215 (A : Args) : FVec Ideal S20 .f32 := Step.s22 (t_v209 A)

def t_v216 (A : Args) : FVec Ideal S20 .f32 := Step.s23 (t_v209 A)

def t_v217 (A : Args) : IVec S20x20 32 := Step.s24

def t_v218 (A : Args) : IVec S20x20 32 := Step.s25

def t_v236 (A : Args) : FVec Ideal S16384x20 .f32 := Step.s57 (Step.s20 (t_v209 A)) (Step.s21 (Step.s11 (t_v209 A))) (t_v209 A) (t_v208 A)

def t_c_21 (A : Args) : IVec S_ 32 := Step.s58

def t_v238 (A : Args) : FVec Ideal S16384x64 .f32 := Step.s60 (Step.s20 (t_v209 A)) (Step.s21 (Step.s11 (t_v209 A))) (t_v209 A) (t_v208 A)

def t_v239 (A : Args) : FVec Ideal S440 .f32 :=
  extractStridedSlice S440 ![3080] (t_v23 A) slices_S3520_S440_3080

def t_v242 (A : Args) : FVec Ideal S20x20 .f32 := Step.s11 (t_v239 A)

def t_v244 (A : Args) : FVec Ideal S20x20 .f32 := Step.s21 (Step.s20 (t_v239 A))

def t_v245 (A : Args) : FVec Ideal S20 .f32 := Step.s22 (t_v239 A)

def t_v246 (A : Args) : FVec Ideal S20 .f32 := Step.s23 (t_v239 A)

def t_v252 (A : Args) : FVec Ideal S20x20 .f32 := Step.s30

def t_v268 (A : Args) : FVec Ideal S16384x64 .f32 := Step.s60 (Step.s21 (Step.s20 (t_v239 A))) (Step.s11 (t_v239 A)) (t_v239 A) (t_v238 A)

def t_v269 (A : Args) : FVec Ideal S64x400 .f32 :=
  transpose S64x400 [1, 0] A.W3 transposes_S400x64_S64x400_1_0

def t_v270 (A : Args) : FVec Ideal S16384x400 .f32 :=
  Host.dotGeneral dot_S16384x64_S64x400_S16384x400_1_0_0_1_n_n none (t_v268 A) (t_v269 A)

def t_v271 (A : Args) : FVec Ideal S1x400 .f32 :=
  broadcastInDim S1x400 ![1] bcast_S400_S1x400_1 A.b3

def t_v272 (A : Args) : FVec Ideal S16384x400 .f32 :=
  broadcastInDim S16384x400 ![0, 1] bcast_S1x400_S16384x400_0_1 (t_v271 A)

def t_v273 (A : Args) : FVec Ideal S16384x400 .f32 :=
  addf (t_v270 A) (t_v272 A)

def t_call25_cst (A : Args) : FVec Ideal S_ .f32 :=
  constant S_ .f32 0x00000000#32

def t_call25_v0 (A : Args) : FVec Ideal S16384x400 .f32 :=
  broadcastInDim S16384x400 ![] bcast_S_S16384x400 (t_call25_cst A)

def t_v274 (A : Args) : FVec Ideal S16384x400 .f32 :=
  maximumf (t_v273 A) (t_call25_v0 A)

def t_v275 (A : Args) : FVec Ideal S400x4096 .f32 :=
  transpose S400x4096 [1, 0] A.W4 transposes_S4096x400_S400x4096_1_0

def t_v276 (A : Args) : FVec Ideal S16384x4096 .f32 :=
  Host.dotGeneral dot_S16384x400_S400x4096_S16384x4096_1_0_0_1_n_n none (t_v274 A) (t_v275 A)

def t_v277 (A : Args) : FVec Ideal S1x4096 .f32 :=
  broadcastInDim S1x4096 ![1] bcast_S4096_S1x4096_1 A.b4

def t_v278 (A : Args) : FVec Ideal S16384x4096 .f32 :=
  broadcastInDim S16384x4096 ![0, 1] bcast_S1x4096_S16384x4096_0_1 (t_v277 A)

def t_v279 (A : Args) : FVec Ideal S16384x4096 .f32 :=
  addf (t_v276 A) (t_v278 A)

end Cert.ReferenceIdeal.Terms

end
-- ==== Proof.RefRunBase.lean ====
import proofs.«125444_j2207613190724_1_alg».proof.Proof.RefTerms
import Idealize.ShloMosaic.Lib.StableHlo.Run

noncomputable section

namespace Cert.ReferenceIdeal.HandRun

open Cert.ReferenceIdeal Idealize.ShloMosaic Idealize.ShloMosaic.TcCoe Idealize.SL.Sem Idealize.ShloMosaic.StableHlo

variable [Facts]

theorem after_app {Val : EltTy → Type} : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

theorem forall_app {α : Type} {P : α → Prop} : ∀ {l₁ l₂ : List α}, l₁.Forall P → l₂.Forall P → (l₁ ++ l₂).Forall P
  | [], _, _, h₂ => h₂
  | a :: l₁, l₂, h₁, h₂ => by
    rw [List.cons_append, List.forall_cons] at *
    exact ⟨h₁.1, forall_app h₁.2 h₂⟩

abbrev argsOfV (V : Valuation τ sig (Elt Ideal)) : Terms.Args :=
  ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13)⟩

abbrev argRefs : List (Ref sig .tc) := [main_arg0, main_arg1, main_arg2, main_arg3, main_arg4, main_arg5, main_arg6, main_arg7, main_arg8, main_arg9, main_arg10, main_arg11, main_arg12, main_arg13]

/-- The argument buffers hold the arrays A: true at every cut, since no operation writes an argument. -/
structure ArgsAt (A : Terms.Args) (V : Valuation τ sig (Elt Ideal)) : Prop where
  arg0 : V (Proc.devRef .tc main_arg0) = A.x
  arg1 : V (Proc.devRef .tc main_arg1) = A.eps
  arg2 : V (Proc.devRef .tc main_arg2) = A.W1
  arg3 : V (Proc.devRef .tc main_arg3) = A.b1
  arg4 : V (Proc.devRef .tc main_arg4) = A.W21
  arg5 : V (Proc.devRef .tc main_arg5) = A.b21
  arg6 : V (Proc.devRef .tc main_arg6) = A.W22
  arg7 : V (Proc.devRef .tc main_arg7) = A.b22
  arg8 : V (Proc.devRef .tc main_arg8) = A.W23
  arg9 : V (Proc.devRef .tc main_arg9) = A.b23
  arg10 : V (Proc.devRef .tc main_arg10) = A.W3
  arg11 : V (Proc.devRef .tc main_arg11) = A.b3
  arg12 : V (Proc.devRef .tc main_arg12) = A.W4
  arg13 : V (Proc.devRef .tc main_arg13) = A.b4

theorem ArgsAt.keep {A : Terms.Args} {V : Valuation τ sig (Elt Ideal)} (h : ArgsAt A V) {l : List (HloOp τ sig (Elt Ideal))} {W : List (Ref sig .tc)}
    (hW : l.Forall fun op => op.writes ⊆ (W.map (Proc.devRef (τ := τ) .tc)).toFinset) (hd : ∀ r ∈ argRefs, r ∉ W) : ArgsAt A (after l V) :=
  have k (r : Ref sig .tc) (hr : r ∈ argRefs) := after_of_writes_sub l V hW (hd r hr)
  ⟨(k main_arg0 (by decide)).trans h.arg0, (k main_arg1 (by decide)).trans h.arg1, (k main_arg2 (by decide)).trans h.arg2, (k main_arg3 (by decide)).trans h.arg3, (k main_arg4 (by decide)).trans h.arg4, (k main_arg5 (by decide)).trans h.arg5, (k main_arg6 (by decide)).trans h.arg6, (k main_arg7 (by decide)).trans h.arg7, (k main_arg8 (by decide)).trans h.arg8, (k main_arg9 (by decide)).trans h.arg9, (k main_arg10 (by decide)).trans h.arg10, (k main_arg11 (by decide)).trans h.arg11, (k main_arg12 (by decide)).trans h.arg12, (k main_arg13 (by decide)).trans h.arg13⟩

structure Inv1 (A : Terms.Args) (V : Valuation τ sig (Elt Ideal)) : Prop extends ArgsAt A V where
  v10 : V (Proc.devRef .tc main_v10) = Terms.t_v10 A
  v15 : V (Proc.devRef .tc main_v15) = Terms.t_v15 A
  v23 : V (Proc.devRef .tc main_v23) = Terms.t_v23 A
  v24 : V (Proc.devRef .tc main_v24) = Terms.t_v24 A

structure Inv2 (A : Terms.Args) (V : Valuation τ sig (Elt Ideal)) : Prop extends ArgsAt A V where
  v10 : V (Proc.devRef .tc main_v10) = Terms.t_v10 A
  v15 : V (Proc.devRef .tc main_v15) = Terms.t_v15 A
  v23 : V (Proc.devRef .tc main_v23) = Terms.t_v23 A
  v28 : V (Proc.devRef .tc main_v28) = Terms.t_v28 A
  v33 : V (Proc.devRef .tc main_v33) = Terms.t_v33 A
  v34 : V (Proc.devRef .tc main_v34) = Terms.t_v34 A
  v35 : V (Proc.devRef .tc main_v35) = Terms.t_v35 A
  v36 : V (Proc.devRef .tc main_v36) = Terms.t_v36 A
  v37 : V (Proc.devRef .tc main_v37) = Terms.t_v37 A
  v38 : V (Proc.devRef .tc main_v38) = Terms.t_v38 A

structure Inv3 (A : Terms.Args) (V : Valuation τ sig (Elt Ideal)) : Prop extends ArgsAt A V where
  v10 : V (Proc.devRef .tc main_v10) = Terms.t_v10 A
  v15 : V (Proc.devRef .tc main_v15) = Terms.t_v15 A
  v23 : V (Proc.devRef .tc main_v23) = Terms.t_v23 A
  v28 : V (Proc.devRef .tc main_v28) = Terms.t_v28 A
  v34 : V (Proc.devRef .tc main_v34) = Terms.t_v34 A
  v54 : V (Proc.devRef .tc main_v54) = Terms.t_v54 A

structure Inv4 (A : Terms.Args) (V : Valuation τ sig (Elt Ideal)) : Prop extends ArgsAt A V where
  v10 : V (Proc.devRef .tc main_v10) = Terms.t_v10 A
  v15 : V (Proc.devRef .tc main_v15) = Terms.t_v15 A
  v23 : V (Proc.devRef .tc main_v23) = Terms.t_v23 A
  v58 : V (Proc.devRef .tc main_v58) = Terms.t_v58 A
  v62 : V (Proc.devRef .tc main_v62) = Terms.t_v62 A
  v64 : V (Proc.devRef .tc main_v64) = Terms.t_v64 A
  v65 : V (Proc.devRef .tc main_v65) = Terms.t_v65 A
  v66 : V (Proc.devRef .tc main_v66) = Terms.t_v66 A
  v72 : V (Proc.devRef .tc main_v72) = Terms.t_v72 A
  v73 : V (Proc.devRef .tc main_v73) = Terms.t_v73 A

structure Inv5 (A : Terms.Args) (V : Valuation τ sig (Elt Ideal)) : Prop extends ArgsAt A V where
  v10 : V (Proc.devRef .tc main_v10) = Terms.t_v10 A
  v15 : V (Proc.devRef .tc main_v15) = Terms.t_v15 A
  v23 : V (Proc.devRef .tc main_v23) = Terms.t_v23 A
  v88 : V (Proc.devRef .tc main_v88) = Terms.t_v88 A
  v89 : V (Proc.devRef .tc main_v89) = Terms.t_v89 A
  v91 : V (Proc.devRef .tc main_v91) = Terms.t_v91 A
  call7_v4 : V (Proc.devRef .tc main_call7_v4) = Terms.t_call7_v4 A
  call7_v5 : V (Proc.devRef .tc main_call7_v5) = Terms.t_call7_v5 A

structure Inv6 (A : Terms.Args) (V : Valuation τ sig (Elt Ideal)) : Prop extends ArgsAt A V where
  v10 : V (Proc.devRef .tc main_v10) = Terms.t_v10 A
  v15 : V (Proc.devRef .tc main_v15) = Terms.t_v15 A
  v23 : V (Proc.devRef .tc main_v23) = Terms.t_v23 A
  v88 : V (Proc.devRef .tc main_v88) = Terms.t_v88 A
  v94 : V (Proc.devRef .tc main_v94) = Terms.t_v94 A
  v96 : V (Proc.devRef .tc main_v96) = Terms.t_v96 A
  v107 : V (Proc.devRef .tc main_v107) = Terms.t_v107 A
  v108 : V (Proc.devRef .tc main_v108) = Terms.t_v108 A

structure Inv7 (A : Terms.Args) (V : Valuation τ sig (Elt Ideal)) : Prop extends ArgsAt A V where
  v10 : V (Proc.devRef .tc main_v10) = Terms.t_v10 A
  v15 : V (Proc.devRef .tc main_v15) = Terms.t_v15 A
  v23 : V (Proc.devRef .tc main_v23) = Terms.t_v23 A
  v118 : V (Proc.devRef .tc main_v118) = Terms.t_v118 A
  v119 : V (Proc.devRef .tc main_v119) = Terms.t_v119 A
  v122 : V (Proc.devRef .tc main_v122) = Terms.t_v122 A
  v124 : V (Proc.devRef .tc main_v124) = Terms.t_v124 A
  v125 : V (Proc.devRef .tc main_v125) = Terms.t_v125 A

structure Inv8 (A : Terms.Args) (V : Valuation τ sig (Elt Ideal)) : Prop extends ArgsAt A V where
  v10 : V (Proc.devRef .tc main_v10) = Terms.t_v10 A
  v15 : V (Proc.devRef .tc main_v15) = Terms.t_v15 A
  v23 : V (Proc.devRef .tc main_v23) = Terms.t_v23 A
  v118 : V (Proc.devRef .tc main_v118) = Terms.t_v118 A
  v146 : V (Proc.devRef .tc main_v146) = Terms.t_v146 A

structure Inv9 (A : Terms.Args) (V : Valuation τ sig (Elt Ideal)) : Prop extends ArgsAt A V where
  v10 : V (Proc.devRef .tc main_v10) = Terms.t_v10 A
  v15 : V (Proc.devRef .tc main_v15) = Terms.t_v15 A
  v23 : V (Proc.devRef .tc main_v23) = Terms.t_v23 A
  v148 : V (Proc.devRef .tc main_v148) = Terms.t_v148 A
  v153 : V (Proc.devRef .tc main_v153) = Terms.t_v153 A
  v154 : V (Proc.devRef .tc main_v154) = Terms.t_v154 A
  v155 : V (Proc.devRef .tc main_v155) = Terms.t_v155 A
  v156 : V (Proc.devRef .tc main_v156) = Terms.t_v156 A
  v162 : V (Proc.devRef .tc main_v162) = Terms.t_v162 A
  cst_14 : V (Proc.devRef .tc main_cst_14) = Terms.t_cst_14 A

structure Inv10 (A : Terms.Args) (V : Valuation τ sig (Elt Ideal)) : Prop extends ArgsAt A V where
  v10 : V (Proc.devRef .tc main_v10) = Terms.t_v10 A
  v15 : V (Proc.devRef .tc main_v15) = Terms.t_v15 A
  v23 : V (Proc.devRef .tc main_v23) = Terms.t_v23 A
  v178 : V (Proc.devRef .tc main_v178) = Terms.t_v178 A
  v179 : V (Proc.devRef .tc main_v179) = Terms.t_v179 A
  v181 : V (Proc.devRef .tc main_v181) = Terms.t_v181 A
  call16_v4 : V (Proc.devRef .tc main_call16_v4) = Terms.t_call16_v4 A

structure Inv11 (A : Terms.Args) (V : Valuation τ sig (Elt Ideal)) : Prop extends ArgsAt A V where
  v10 : V (Proc.devRef .tc main_v10) = Terms.t_v10 A
  v15 : V (Proc.devRef .tc main_v15) = Terms.t_v15 A
  v23 : V (Proc.devRef .tc main_v23) = Terms.t_v23 A
  v178 : V (Proc.devRef .tc main_v178) = Terms.t_v178 A
  v182 : V (Proc.devRef .tc main_v182) = Terms.t_v182 A
  v186 : V (Proc.devRef .tc main_v186) = Terms.t_v186 A
  v195 : V (Proc.devRef .tc main_v195) = Terms.t_v195 A
  v196 : V (Proc.devRef .tc main_v196) = Terms.t_v196 A

structure Inv12 (A : Terms.Args) (V : Valuation τ sig (Elt Ideal)) : Prop extends ArgsAt A V where
  v10 : V (Proc.devRef .tc main_v10) = Terms.t_v10 A
  v15 : V (Proc.devRef .tc main_v15) = Terms.t_v15 A
  v23 : V (Proc.devRef .tc main_v23) = Terms.t_v23 A
  v208 : V (Proc.devRef .tc main_v208) = Terms.t_v208 A
  v213 : V (Proc.devRef .tc main_v213) = Terms.t_v213 A
  v214 : V (Proc.devRef .tc main_v214) = Terms.t_v214 A
  v215 : V (Proc.devRef .tc main_v215) = Terms.t_v215 A
  v216 : V (Proc.devRef .tc main_v216) = Terms.t_v216 A
  v217 : V (Proc.devRef .tc main_v217) = Terms.t_v217 A
  v218 : V (Proc.devRef .tc main_v218) = Terms.t_v218 A

structure Inv13 (A : Terms.Args) (V : Valuation τ sig (Elt Ideal)) : Prop extends ArgsAt A V where
  v10 : V (Proc.devRef .tc main_v10) = Terms.t_v10 A
  v15 : V (Proc.devRef .tc main_v15) = Terms.t_v15 A
  v23 : V (Proc.devRef .tc main_v23) = Terms.t_v23 A
  v208 : V (Proc.devRef .tc main_v208) = Terms.t_v208 A
  v236 : V (Proc.devRef .tc main_v236) = Terms.t_v236 A
  c_21 : V (Proc.devRef .tc main_c_21) = Terms.t_c_21 A

structure Inv14 (A : Terms.Args) (V : Valuation τ sig (Elt Ideal)) : Prop extends ArgsAt A V where
  v10 : V (Proc.devRef .tc main_v10) = Terms.t_v10 A
  v15 : V (Proc.devRef .tc main_v15) = Terms.t_v15 A
  v238 : V (Proc.devRef .tc main_v238) = Terms.t_v238 A
  v242 : V (Proc.devRef .tc main_v242) = Terms.t_v242 A
  v244 : V (Proc.devRef .tc main_v244) = Terms.t_v244 A
  v245 : V (Proc.devRef .tc main_v245) = Terms.t_v245 A
  v246 : V (Proc.devRef .tc main_v246) = Terms.t_v246 A
  v252 : V (Proc.devRef .tc main_v252) = Terms.t_v252 A

structure Inv15 (A : Terms.Args) (V : Valuation τ sig (Elt Ideal)) : Prop extends ArgsAt A V where
  v10 : V (Proc.devRef .tc main_v10) = Terms.t_v10 A
  v15 : V (Proc.devRef .tc main_v15) = Terms.t_v15 A
  v270 : V (Proc.devRef .tc main_v270) = Terms.t_v270 A
  v272 : V (Proc.devRef .tc main_v272) = Terms.t_v272 A

structure Inv16 (A : Terms.Args) (V : Valuation τ sig (Elt Ideal)) : Prop extends ArgsAt A V where
  v10 : V (Proc.devRef .tc main_v10) = Terms.t_v10 A
  v15 : V (Proc.devRef .tc main_v15) = Terms.t_v15 A
  v279 : V (Proc.devRef .tc main_v279) = Terms.t_v279 A

theorem inv0 (V : Valuation τ sig (Elt Ideal)) : ArgsAt (argsOfV V) V := ⟨rfl, rfl, rfl, rfl, rfl, rfl, rfl, rfl, rfl, rfl, rfl, rfl, rfl, rfl⟩

end Cert.ReferenceIdeal.HandRun

end
-- ==== Proof.RefRunOps00.lean ====
import proofs.«125444_j2207613190724_1_alg».proof.ReferenceIdeal
import Idealize.ShloMosaic.Lib.StableHlo.Run
import Idealize.ShloMosaic.PureOps.Ideal

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

abbrev w00 {F : FTy → Type} [FloatOps F] : List (HloOp τ sig (Elt F)) :=
  [ unary main_arg2 main_v0 ((transpose S4096x400 [1, 0] · transposes_S400x4096_S4096x400_1_0) : FVec F S400x4096 .f32 → _),
    binary main_arg0 main_v0 main_v1 ((fun l r => Host.dotGeneral dot_S16384x4096_S4096x400_S16384x400_1_0_0_1_n_n none l r) : FVec F S16384x4096 .f32 → FVec F S4096x400 .f32 → _),
    unary main_arg3 main_v2 (broadcastInDim S1x400 ![1] bcast_S400_S1x400_1 : FVec F S400 .f32 → _),
    unary main_v2 main_v3 (broadcastInDim S16384x400 ![0, 1] bcast_S1x400_S16384x400_0_1 : FVec F S1x400 .f32 → _),
    binary main_v1 main_v3 main_v4 (addf : FVec F S16384x400 .f32 → FVec F S16384x400 .f32 → _),
    TRef.nullary main_call0.cst (constant S_ .f32 0x00000000#32),
    TRef.unary main_call0.cst main_call0.v0 (broadcastInDim S16384x400 ![] bcast_S_S16384x400),
    TRef.binary (.of main_v4) main_call0.v0 main_call0.v1 maximumf,
    unary main_arg4 main_v6 ((transpose S400x64 [1, 0] · transposes_S64x400_S400x64_1_0) : FVec F S64x400 .f32 → _),
    binary main_v5 main_v6 main_v7 ((fun l r => Host.dotGeneral dot_S16384x400_S400x64_S16384x64_1_0_0_1_n_n none l r) : FVec F S16384x400 .f32 → FVec F S400x64 .f32 → _),
    unary main_arg5 main_v8 (broadcastInDim S1x64 ![1] bcast_S64_S1x64_1 : FVec F S64 .f32 → _),
    unary main_v8 main_v9 (broadcastInDim S16384x64 ![0, 1] bcast_S1x64_S16384x64_0_1 : FVec F S1x64 .f32 → _),
    binary main_v7 main_v9 main_v10 (addf : FVec F S16384x64 .f32 → FVec F S16384x64 .f32 → _),
    unary main_arg6 main_v11 ((transpose S400x64 [1, 0] · transposes_S64x400_S400x64_1_0) : FVec F S64x400 .f32 → _),
    binary main_v5 main_v11 main_v12 ((fun l r => Host.dotGeneral dot_S16384x400_S400x64_S16384x64_1_0_0_1_n_n none l r) : FVec F S16384x400 .f32 → FVec F S400x64 .f32 → _),
    unary main_arg7 main_v13 (broadcastInDim S1x64 ![1] bcast_S64_S1x64_1 : FVec F S64 .f32 → _),
    unary main_v13 main_v14 (broadcastInDim S16384x64 ![0, 1] bcast_S1x64_S16384x64_0_1 : FVec F S1x64 .f32 → _),
    binary main_v12 main_v14 main_v15 (addf : FVec F S16384x64 .f32 → FVec F S16384x64 .f32 → _),
    unary main_arg8 main_v16 ((transpose S400x3520 [1, 0] · transposes_S3520x400_S400x3520_1_0) : FVec F S3520x400 .f32 → _),
    binary main_v5 main_v16 main_v17 ((fun l r => Host.dotGeneral dot_S16384x400_S400x3520_S16384x3520_1_0_0_1_n_n none l r) : FVec F S16384x400 .f32 → FVec F S400x3520 .f32 → _),
    unary main_arg9 main_v18 (broadcastInDim S1x3520 ![1] bcast_S3520_S1x3520_1 : FVec F S3520 .f32 → _),
    unary main_v18 main_v19 (broadcastInDim S16384x3520 ![0, 1] bcast_S1x3520_S16384x3520_0_1 : FVec F S1x3520 .f32 → _),
    binary main_v17 main_v19 main_v20 (addf : FVec F S16384x3520 .f32 → FVec F S16384x3520 .f32 → _),
    nullary main_cst (constant S_ .f32 0x00000000#32),
    binary main_v20 main_cst main_v21 ((fun x v => Host.reduceAdd x v reducesTo_S16384x3520_S3520_d0 h_S_) : FVec F S16384x3520 .f32 → FVec F S_ .f32 → _),
    nullary main_cst_0 (constant S_ .f32 0x46800000#32),
    unary main_cst_0 main_v22 (broadcastInDim S3520 ![] bcast_S_S3520 : FVec F S_ .f32 → _),
    binary main_v21 main_v22 main_v23 (Host.divf : FVec F S3520 .f32 → FVec F S3520 .f32 → _),
    nullary main_cst_1 (constant S_ .f32 0x3F000000#32),
    unary main_cst_1 main_v24 (broadcastInDim S16384x64 ![] bcast_S_S16384x64 : FVec F S_ .f32 → _) ]

theorem w00_sub {F : FTy → Type} [FloatOps F] : (w00 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub ..⟩

theorem w00_fresh {F : FTy → Type} [FloatOps F] : ∀ op ∈ (w00 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev w00_W : List (Ref sig .tc) := [main_v0, main_v1, main_v2, main_v3, main_v4, main_call0_cst, main_call0_v0, main_v5, main_v6, main_v7, main_v8, main_v9, main_v10, main_v11, main_v12, main_v13, main_v14, main_v15, main_v16, main_v17, main_v18, main_v19, main_v20, main_cst, main_v21, main_cst_0, main_v22, main_v23, main_cst_1, main_v24]

theorem w00_writes : (w00 (F := Ideal)).Forall fun op => op.writes ⊆ (w00_W.map (Proc.devRef (τ := τ) .tc)).toFinset := by
  simp only [List.Forall]
  repeat' apply And.intro
  all_goals exact Finset.singleton_subset_iff.mpr (List.mem_toFinset.mpr (List.mem_map_of_mem (by decide)))

theorem keep00 (V : Valuation τ sig (Elt Ideal)) (r : Ref sig .tc) (h : r ∉ w00_W) :
    after (w00 (F := Ideal)) V (Proc.devRef .tc r) = V (Proc.devRef .tc r) :=
  after_of_writes_sub _ _ w00_writes h

end Cert.ReferenceIdeal.HandRun

end
-- ==== Proof.RefRunW00.lean ====
import proofs.«125444_j2207613190724_1_alg».proof.Proof.RefRunBase
import proofs.«125444_j2207613190724_1_alg».proof.Proof.RefRunOps00

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

variable {A : Terms.Args} {V : Valuation τ sig (Elt Ideal)}

set_option maxRecDepth 8192 in
set_option maxHeartbeats 1600000 in
theorem w00_v10 (h : ArgsAt A V) :
    after (w00 (F := Ideal)) V (Proc.devRef .tc main_v10) = Terms.t_v10 A := by
  simp only [w00]
  after_results_simp
  (try simp only [TRef.toBuf, TRef.ofBuf, cast_eq, h.arg5, h.arg4, h.arg3, h.arg2, h.arg0]) <;> rfl

set_option maxRecDepth 8192 in
set_option maxHeartbeats 1600000 in
theorem w00_v15 (h : ArgsAt A V) :
    after (w00 (F := Ideal)) V (Proc.devRef .tc main_v15) = Terms.t_v15 A := by
  simp only [w00]
  after_results_simp
  (try simp only [TRef.toBuf, TRef.ofBuf, cast_eq, h.arg7, h.arg6, h.arg3, h.arg2, h.arg0]) <;> rfl

set_option maxRecDepth 8192 in
set_option maxHeartbeats 1600000 in
theorem w00_v23 (h : ArgsAt A V) :
    after (w00 (F := Ideal)) V (Proc.devRef .tc main_v23) = Terms.t_v23 A := by
  simp only [w00]
  after_results_simp
  (try simp only [TRef.toBuf, TRef.ofBuf, cast_eq, h.arg9, h.arg8, h.arg3, h.arg2, h.arg0]) <;> rfl

set_option maxRecDepth 8192 in
set_option maxHeartbeats 1600000 in
theorem w00_v24 (h : ArgsAt A V) :
    after (w00 (F := Ideal)) V (Proc.devRef .tc main_v24) = Terms.t_v24 A := by
  simp only [w00]
  after_results_simp
  (try simp only [TRef.toBuf, TRef.ofBuf, cast_eq]) <;> rfl

theorem step00 (h : ArgsAt A V) : Inv1 A (after (w00 (F := Ideal)) V) :=
  ⟨h.keep w00_writes (by decide), w00_v10 h, w00_v15 h, w00_v23 h, w00_v24 h⟩

end Cert.ReferenceIdeal.HandRun

end
-- ==== Proof.RefRunOps01.lean ====
import proofs.«125444_j2207613190724_1_alg».proof.ReferenceIdeal
import Idealize.ShloMosaic.Lib.StableHlo.Run
import Idealize.ShloMosaic.PureOps.Ideal

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

abbrev w01 {F : FTy → Type} [FloatOps F] : List (HloOp τ sig (Elt F)) :=
  [ binary main_v24 main_v15 main_v25 (mulf : FVec F S16384x64 .f32 → FVec F S16384x64 .f32 → _),
    unary main_v25 main_v26 (Host.exp : FVec F S16384x64 .f32 → _),
    binary main_arg1 main_v26 main_v27 (mulf : FVec F S16384x64 .f32 → FVec F S16384x64 .f32 → _),
    binary main_v27 main_v10 main_v28 (addf : FVec F S16384x64 .f32 → FVec F S16384x64 .f32 → _),
    unary main_v23 main_v29 ((extractStridedSlice S440 ![0] · slices_S3520_S440_0) : FVec F S3520 .f32 → _),
    unary main_v29 main_v30 ((extractStridedSlice S400 ![0] · slices_S440_S400_0) : FVec F S440 .f32 → _),
    reshape main_v30 main_v31 rfl shapeCasts_S400_S20x20,
    TRef.nullary main_call1.v0 (iotaInDim S20x20 32 0),
    TRef.nullary main_call1.c (constantI S_ 32 4294967295#32),
    TRef.unary main_call1.c main_call1.v1 (broadcastInDim S20x20 ![] bcast_S_S20x20),
    TRef.binary main_call1.v0 main_call1.v1 main_call1.v2 addi,
    TRef.nullary main_call1.v3 (iotaInDim S20x20 32 1),
    TRef.binary main_call1.v2 main_call1.v3 main_call1.v4 (cmpi .sge),
    TRef.nullary main_call1.cst (constant S_ .f32 0x00000000#32),
    TRef.unary main_call1.cst main_call1.v5 (broadcastInDim S20x20 ![] bcast_S_S20x20),
    TRef.ternary main_call1.v4 main_call1.v5 (.of main_v31) main_call1.v6 select,
    TRef.nullary main_call2.v0 (iotaInDim S20x20 32 0),
    TRef.nullary main_call2.c (constantI S_ 32 0#32),
    TRef.unary main_call2.c main_call2.v1 (broadcastInDim S20x20 ![] bcast_S_S20x20),
    TRef.binary main_call2.v0 main_call2.v1 main_call2.v2 addi,
    TRef.nullary main_call2.v3 (iotaInDim S20x20 32 1),
    TRef.binary main_call2.v2 main_call2.v3 main_call2.v4 (cmpi .sge),
    TRef.nullary main_call2.cst (constant S_ .f32 0x00000000#32),
    TRef.unary main_call2.cst main_call2.v5 (broadcastInDim S20x20 ![] bcast_S_S20x20),
    TRef.ternary main_call2.v4 (.of main_v31) main_call2.v5 main_call2.v6 select,
    unary main_v32 main_v34 ((transpose S20x20 [1, 0] · transposes_S20x20_S20x20_1_0) : FVec F S20x20 .f32 → _),
    unary main_v29 main_v35 ((extractStridedSlice S20 ![400] · slices_S440_S20_400) : FVec F S440 .f32 → _),
    unary main_v29 main_v36 ((extractStridedSlice S20 ![420] · slices_S440_S20_420) : FVec F S440 .f32 → _),
    nullary main_v37 (iotaInDim S20x20 32 0),
    nullary main_v38 (iotaInDim S20x20 32 1) ]

theorem w01_sub {F : FTy → Type} [FloatOps F] : (w01 : List (HloOp τ sig (Elt F))).Forall fun op => op.bufs ⊆ tcRefs τ sig :=
  ⟨binary_bufs_sub .., unary_bufs_sub .., binary_bufs_sub .., binary_bufs_sub .., unary_bufs_sub .., unary_bufs_sub .., reshape_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., unary_bufs_sub .., unary_bufs_sub .., nullary_bufs_sub .., nullary_bufs_sub ..⟩

theorem w01_fresh {F : FTy → Type} [FloatOps F] : ∀ op ∈ (w01 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev w01_W : List (Ref sig .tc) := [main_v25, main_v26, main_v27, main_v28, main_v29, main_v30, main_v31, main_call1_v0, main_call1_c, main_call1_v1, main_call1_v2, main_call1_v3, main_call1_v4, main_call1_cst, main_call1_v5, main_v32, main_call2_v0, main_call2_c, main_call2_v1, main_call2_v2, main_call2_v3, main_call2_v4, main_call2_cst, main_call2_v5, main_v33, main_v34, main_v35, main_v36, main_v37, main_v38]

theorem w01_writes : (w01 (F := Ideal)).Forall fun op => op.writes ⊆ (w01_W.map (Proc.devRef (τ := τ) .tc)).toFinset := by
  simp only [List.Forall]
  repeat' apply And.intro
  all_goals exact Finset.singleton_subset_iff.mpr (List.mem_toFinset.mpr (List.mem_map_of_mem (by decide)))

theorem keep01 (V : Valuation τ sig (Elt Ideal)) (r : Ref sig .tc) (h : r ∉ w01_W) :
    after (w01 (F := Ideal)) V (Proc.devRef .tc r) = V (Proc.devRef .tc r) :=
  after_of_writes_sub _ _ w01_writes h

end Cert.ReferenceIdeal.HandRun

end
-- ==== Proof.RefRunW01.lean ====
import proofs.«125444_j2207613190724_1_alg».proof.Proof.RefRunBase
import proofs.«125444_j2207613190724_1_alg».proof.Proof.RefRunOps01

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

variable {A : Terms.Args} {V : Valuation τ sig (Elt Ideal)}

set_option maxRecDepth 8192 in
set_option maxHeartbeats 1600000 in
theorem w01_v28 (h : Inv1 A V) :
    after (w01 (F := Ideal)) V (Proc.devRef .tc main_v28) = Terms.t_v28 A := by
  simp only [w01]
  after_results_simp
  (try simp only [TRef.toBuf, TRef.ofBuf, cast_eq, h.v10, h.v15, h.v24, h.arg1]) <;> rfl

set_option maxRecDepth 8192 in
set_option maxHeartbeats 1600000 in
theorem w01_v33 (h : Inv1 A V) :
    after (w01 (F := Ideal)) V (Proc.devRef .tc main_v33) = Terms.t_v33 A := by
  simp only [w01]
  after_results_simp
  (try simp only [TRef.toBuf, TRef.ofBuf, cast_eq, h.v23]) <;> rfl

set_option maxRecDepth 8192 in
set_option maxHeartbeats 1600000 in
theorem w01_v34 (h : Inv1 A V) :
    after (w01 (F := Ideal)) V (Proc.devRef .tc main_v34) = Terms.t_v34 A := by
  simp only [w01]
  after_results_simp
  (try simp only [TRef.toBuf, TRef.ofBuf, cast_eq, h.v23]) <;> rfl

set_option maxRecDepth 8192 in
set_option maxHeartbeats 1600000 in
theorem w01_v35 (h : Inv1 A V) :
    after (w01 (F := Ideal)) V (Proc.devRef .tc main_v35) = Terms.t_v35 A := by
  simp only [w01]
  after_results_simp
  (try simp only [TRef.toBuf, TRef.ofBuf, cast_eq, h.v23]) <;> rfl

set_option maxRecDepth 8192 in
set_option maxHeartbeats 1600000 in
theorem w01_v36 (h : Inv1 A V) :
    after (w01 (F := Ideal)) V (Proc.devRef .tc main_v36) = Terms.t_v36 A := by
  simp only [w01]
  after_results_simp
  (try simp only [TRef.toBuf, TRef.ofBuf, cast_eq, h.v23]) <;> rfl

set_option maxRecDepth 8192 in
set_option maxHeartbeats 1600000 in
theorem w01_v37 (h : Inv1 A V) :
    after (w01 (F := Ideal)) V (Proc.devRef .tc main_v37) = Terms.t_v37 A := by
  simp only [w01]
  after_results_simp
  (try simp only [TRef.toBuf, TRef.ofBuf, cast_eq]) <;> rfl

set_option maxRecDepth 8192 in
set_option maxHeartbeats 1600000 in
theorem w01_v38 (h : Inv1 A V) :
    after (w01 (F := Ideal)) V (Proc.devRef .tc main_v38) = Terms.t_v38 A := by
  simp only [w01]
  after_results_simp
  (try simp only [TRef.toBuf, TRef.ofBuf, cast_eq]) <;> rfl

theorem step01 (h : Inv1 A V) : Inv2 A (after (w01 (F := Ideal)) V) :=
  ⟨h.toArgsAt.keep w01_writes (by decide), (keep01 V main_v10 (by decide)).trans h.v10, (keep01 V main_v15 (by decide)).trans h.v15, (keep01 V main_v23 (by decide)).trans h.v23, w01_v28 h, w01_v33 h, w01_v34 h, w01_v35 h, w01_v36 h, w01_v37 h, w01_v38 h⟩

end Cert.ReferenceIdeal.HandRun

end
-- ==== Proof.RefRunOps02.lean ====
import proofs.«125444_j2207613190724_1_alg».proof.ReferenceIdeal
import Idealize.ShloMosaic.Lib.StableHlo.Run
import Idealize.ShloMosaic.PureOps.Ideal

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

abbrev w02 {F : FTy → Type} [FloatOps F] : List (HloOp τ sig (Elt F)) :=
  [ nullary main_c (constantI S_ 32 0#32),
    unary main_c main_v39 (broadcastInDim S20x20 ![] bcast_S_S20x20 : IVec S_ 32 → _),
    binary main_v37 main_v39 main_v40 (addi : IVec S20x20 32 → IVec S20x20 32 → _),
    binary main_v40 main_v38 main_v41 (cmpi .eq : IVec S20x20 32 → IVec S20x20 32 → _),
    unary main_v41 main_v42 (uitofp .f32 : IVec S20x20 1 → _),
    nullary main_cst_2 (constant S_ .f32 0x3F800000#32),
    unary main_cst_2 main_v43 (broadcastInDim S20x20 ![] bcast_S_S20x20 : FVec F S_ .f32 → _),
    binary main_v43 main_v42 main_v44 (subf : FVec F S20x20 .f32 → FVec F S20x20 .f32 → _),
    binary main_v33 main_v44 main_v45 (mulf : FVec F S20x20 .f32 → FVec F S20x20 .f32 → _),
    TRef.nullary main_call3.cst (constant S_ .f32 0x00000000#32),
    TRef.binary (.of main_v35) main_call3.cst main_call3.v0 (fun x v => pad S20 ![0] ![0] ![0] x v pads_S20_S20_000 h_S_),
    TRef.nullary main_call3.v1 (iotaInDim S20x20 32 0),
    TRef.nullary main_call3.v2 (iotaInDim S20x20 32 1),
    TRef.nullary main_call3.c (constantI S_ 32 0#32),
    TRef.unary main_call3.c main_call3.v3 (broadcastInDim S20x20 ![] bcast_S_S20x20),
    TRef.binary main_call3.v1 main_call3.v3 main_call3.v4 addi,
    TRef.binary main_call3.v4 main_call3.v2 main_call3.v5 (cmpi .eq),
    TRef.unary main_call3.v0 main_call3.v6 (broadcastInDim S20x1 ![0] bcast_S20_S20x1_0),
    TRef.nullary main_call3.cst_0 (constant S_ .f32 0x00000000#32),
    TRef.unary main_call3.v6 main_call3.call0.v0 (broadcastInDim S20x20 ![0, 1] bcast_S20x1_S20x20_0_1),
    TRef.unary main_call3.cst_0 main_call3.call0.v1 (broadcastInDim S20x20 ![] bcast_S_S20x20),
    TRef.ternary main_call3.v5 main_call3.call0.v0 main_call3.call0.v1 main_call3.call0.v2 select,
    binary main_v45 main_v46 main_v47 (addf : FVec F S20x20 .f32 → FVec F S20x20 .f32 → _),
    unary main_v28 main_v48 ((extractStridedSlice S16384x20 ![0, 0] · slices_S16384x64_S16384x20_0_0) : FVec F S16384x64 .f32 → _),
    unary main_v47 main_v49 ((transpose S20x20 [1, 0] · transposes_S20x20_S20x20_1_0) : FVec F S20x20 .f32 → _),
    binary main_v48 main_v49 main_v50 ((fun l r => Host.dotGeneral dot_S16384x20_S20x20_S16384x20_1_0_0_1_n_n none l r) : FVec F S16384x20 .f32 → FVec F S20x20 .f32 → _),
    unary main_v36 main_v51 (broadcastInDim S1x20 ![1] bcast_S20_S1x20_1 : FVec F S20 .f32 → _),
    unary main_v51 main_v52 (broadcastInDim S16384x20 ![0, 1] bcast_S1x20_S16384x20_0_1 : FVec F S1x20 .f32 → _),
    binary main_v50 main_v52 main_v53 (addf : FVec F S16384x20 .f32 → FVec F S16384x20 .f32 → _),
    unary main_v53 main_v54 (Host.tanh : FVec F S16384x20 .f32 → _) ]

theorem w02_sub {F : FTy → Type} [FloatOps F] : (w02 : List (HloOp τ sig (Elt F))).Forall fun op => op.bufs ⊆ tcRefs τ sig :=
  ⟨nullary_bufs_sub .., unary_bufs_sub .., binary_bufs_sub .., binary_bufs_sub .., unary_bufs_sub .., nullary_bufs_sub .., unary_bufs_sub .., binary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub .., unary_bufs_sub .., unary_bufs_sub .., binary_bufs_sub .., unary_bufs_sub .., unary_bufs_sub .., binary_bufs_sub .., unary_bufs_sub ..⟩

theorem w02_fresh {F : FTy → Type} [FloatOps F] : ∀ op ∈ (w02 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev w02_W : List (Ref sig .tc) := [main_c, main_v39, main_v40, main_v41, main_v42, main_cst_2, main_v43, main_v44, main_v45, main_call3_cst, main_call3_v0, main_call3_v1, main_call3_v2, main_call3_c, main_call3_v3, main_call3_v4, main_call3_v5, main_call3_v6, main_call3_cst_0, main_call3_call0_v0, main_call3_call0_v1, main_v46, main_v47, main_v48, main_v49, main_v50, main_v51, main_v52, main_v53, main_v54]

theorem w02_writes : (w02 (F := Ideal)).Forall fun op => op.writes ⊆ (w02_W.map (Proc.devRef (τ := τ) .tc)).toFinset := by
  simp only [List.Forall]
  repeat' apply And.intro
  all_goals exact Finset.singleton_subset_iff.mpr (List.mem_toFinset.mpr (List.mem_map_of_mem (by decide)))

theorem keep02 (V : Valuation τ sig (Elt Ideal)) (r : Ref sig .tc) (h : r ∉ w02_W) :
    after (w02 (F := Ideal)) V (Proc.devRef .tc r) = V (Proc.devRef .tc r) :=
  after_of_writes_sub _ _ w02_writes h

end Cert.ReferenceIdeal.HandRun

end
-- ==== Proof.RefRunW02.lean ====
import proofs.«125444_j2207613190724_1_alg».proof.Proof.RefRunBase
import proofs.«125444_j2207613190724_1_alg».proof.Proof.RefRunOps02

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

variable {A : Terms.Args} {V : Valuation τ sig (Elt Ideal)}

set_option maxRecDepth 8192 in
set_option maxHeartbeats 1600000 in
theorem w02_v54 (h : Inv2 A V) :
    after (w02 (F := Ideal)) V (Proc.devRef .tc main_v54) = Terms.t_v54 A := by
  simp only [w02]
  after_results_simp
  (try simp only [TRef.toBuf, TRef.ofBuf, cast_eq, h.v36, h.v35, h.v38, h.v37, h.v33, h.v28]) <;> rfl

theorem step02 (h : Inv2 A V) : Inv3 A (after (w02 (F := Ideal)) V) :=
  ⟨h.toArgsAt.keep w02_writes (by decide), (keep02 V main_v10 (by decide)).trans h.v10, (keep02 V main_v15 (by decide)).trans h.v15, (keep02 V main_v23 (by decide)).trans h.v23, (keep02 V main_v28 (by decide)).trans h.v28, (keep02 V main_v34 (by decide)).trans h.v34, w02_v54 h⟩

end Cert.ReferenceIdeal.HandRun

end
-- ==== Proof.RefRunOps03.lean ====
import proofs.«125444_j2207613190724_1_alg».proof.ReferenceIdeal
import Idealize.ShloMosaic.Lib.StableHlo.Run
import Idealize.ShloMosaic.PureOps.Ideal

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

abbrev w03 {F : FTy → Type} [FloatOps F] : List (HloOp τ sig (Elt F)) :=
  [ unary main_v34 main_v55 ((transpose S20x20 [1, 0] · transposes_S20x20_S20x20_1_0) : FVec F S20x20 .f32 → _),
    binary main_v54 main_v55 main_v56 ((fun l r => Host.dotGeneral dot_S16384x20_S20x20_S16384x20_1_0_0_1_n_n none l r) : FVec F S16384x20 .f32 → FVec F S20x20 .f32 → _),
    nullary main_c_3 (constantI S_ 32 0#32),
    unary main_c_3 main_v57 (broadcastInDim S1 ![] bcast_S_S1 : IVec S_ 32 → _),
    ternary main_v28 main_v57 main_v56 main_v58 ((fun x i u => Host.scatter scatter_S16384x64_S1_S16384x20_01_n_1_0 FloatOps.addf x i u) : FVec F S16384x64 .f32 → IVec S1 32 → FVec F S16384x20 .f32 → _),
    unary main_v23 main_v59 ((extractStridedSlice S440 ![440] · slices_S3520_S440_440) : FVec F S3520 .f32 → _),
    unary main_v59 main_v60 ((extractStridedSlice S400 ![0] · slices_S440_S400_0) : FVec F S440 .f32 → _),
    reshape main_v60 main_v61 rfl shapeCasts_S400_S20x20,
    TRef.nullary main_call4.v0 (iotaInDim S20x20 32 0),
    TRef.nullary main_call4.c (constantI S_ 32 4294967295#32),
    TRef.unary main_call4.c main_call4.v1 (broadcastInDim S20x20 ![] bcast_S_S20x20),
    TRef.binary main_call4.v0 main_call4.v1 main_call4.v2 addi,
    TRef.nullary main_call4.v3 (iotaInDim S20x20 32 1),
    TRef.binary main_call4.v2 main_call4.v3 main_call4.v4 (cmpi .sge),
    TRef.nullary main_call4.cst (constant S_ .f32 0x00000000#32),
    TRef.unary main_call4.cst main_call4.v5 (broadcastInDim S20x20 ![] bcast_S_S20x20),
    TRef.ternary main_call4.v4 main_call4.v5 (.of main_v61) main_call4.v6 select,
    TRef.nullary main_call5.v0 (iotaInDim S20x20 32 0),
    TRef.nullary main_call5.c (constantI S_ 32 0#32),
    TRef.unary main_call5.c main_call5.v1 (broadcastInDim S20x20 ![] bcast_S_S20x20),
    TRef.binary main_call5.v0 main_call5.v1 main_call5.v2 addi,
    TRef.nullary main_call5.v3 (iotaInDim S20x20 32 1),
    TRef.binary main_call5.v2 main_call5.v3 main_call5.v4 (cmpi .sge),
    TRef.nullary main_call5.cst (constant S_ .f32 0x00000000#32),
    TRef.unary main_call5.cst main_call5.v5 (broadcastInDim S20x20 ![] bcast_S_S20x20),
    TRef.ternary main_call5.v4 (.of main_v61) main_call5.v5 main_call5.v6 select,
    unary main_v63 main_v64 ((transpose S20x20 [1, 0] · transposes_S20x20_S20x20_1_0) : FVec F S20x20 .f32 → _),
    unary main_v59 main_v65 ((extractStridedSlice S20 ![400] · slices_S440_S20_400) : FVec F S440 .f32 → _),
    unary main_v59 main_v66 ((extractStridedSlice S20 ![420] · slices_S440_S20_420) : FVec F S440 .f32 → _),
    nullary main_v67 (iotaInDim S20x20 32 0),
    nullary main_v68 (iotaInDim S20x20 32 1),
    nullary main_c_4 (constantI S_ 32 0#32),
    unary main_c_4 main_v69 (broadcastInDim S20x20 ![] bcast_S_S20x20 : IVec S_ 32 → _),
    binary main_v67 main_v69 main_v70 (addi : IVec S20x20 32 → IVec S20x20 32 → _),
    binary main_v70 main_v68 main_v71 (cmpi .eq : IVec S20x20 32 → IVec S20x20 32 → _),
    unary main_v71 main_v72 (uitofp .f32 : IVec S20x20 1 → _),
    nullary main_cst_5 (constant S_ .f32 0x3F800000#32),
    unary main_cst_5 main_v73 (broadcastInDim S20x20 ![] bcast_S_S20x20 : FVec F S_ .f32 → _) ]

theorem w03_sub {F : FTy → Type} [FloatOps F] : (w03 : List (HloOp τ sig (Elt F))).Forall fun op => op.bufs ⊆ tcRefs τ sig :=
  ⟨unary_bufs_sub .., binary_bufs_sub .., nullary_bufs_sub .., unary_bufs_sub .., ternary_bufs_sub .., unary_bufs_sub .., unary_bufs_sub .., reshape_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., unary_bufs_sub .., unary_bufs_sub .., nullary_bufs_sub .., nullary_bufs_sub .., nullary_bufs_sub .., unary_bufs_sub .., binary_bufs_sub .., binary_bufs_sub .., unary_bufs_sub .., nullary_bufs_sub .., unary_bufs_sub ..⟩

theorem w03_fresh {F : FTy → Type} [FloatOps F] : ∀ op ∈ (w03 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev w03_W : List (Ref sig .tc) := [main_v55, main_v56, main_c_3, main_v57, main_v58, main_v59, main_v60, main_v61, main_call4_v0, main_call4_c, main_call4_v1, main_call4_v2, main_call4_v3, main_call4_v4, main_call4_cst, main_call4_v5, main_v62, main_call5_v0, main_call5_c, main_call5_v1, main_call5_v2, main_call5_v3, main_call5_v4, main_call5_cst, main_call5_v5, main_v63, main_v64, main_v65, main_v66, main_v67, main_v68, main_c_4, main_v69, main_v70, main_v71, main_v72, main_cst_5, main_v73]

theorem w03_writes : (w03 (F := Ideal)).Forall fun op => op.writes ⊆ (w03_W.map (Proc.devRef (τ := τ) .tc)).toFinset := by
  simp only [List.Forall]
  repeat' apply And.intro
  all_goals exact Finset.singleton_subset_iff.mpr (List.mem_toFinset.mpr (List.mem_map_of_mem (by decide)))

theorem keep03 (V : Valuation τ sig (Elt Ideal)) (r : Ref sig .tc) (h : r ∉ w03_W) :
    after (w03 (F := Ideal)) V (Proc.devRef .tc r) = V (Proc.devRef .tc r) :=
  after_of_writes_sub _ _ w03_writes h

end Cert.ReferenceIdeal.HandRun

end
-- ==== Proof.RefRunW03.lean ====
import proofs.«125444_j2207613190724_1_alg».proof.Proof.RefRunBase
import proofs.«125444_j2207613190724_1_alg».proof.Proof.RefRunOps03

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

variable {A : Terms.Args} {V : Valuation τ sig (Elt Ideal)}

set_option maxRecDepth 8192 in
set_option maxHeartbeats 1600000 in
theorem w03_v58 (h : Inv3 A V) :
    after (w03 (F := Ideal)) V (Proc.devRef .tc main_v58) = Terms.t_v58 A := by
  simp only [w03]
  after_results_simp
  (try simp only [TRef.toBuf, TRef.ofBuf, cast_eq, h.v34, h.v54, h.v28]) <;> rfl

set_option maxRecDepth 8192 in
set_option maxHeartbeats 1600000 in
theorem w03_v62 (h : Inv3 A V) :
    after (w03 (F := Ideal)) V (Proc.devRef .tc main_v62) = Terms.t_v62 A := by
  simp only [w03]
  after_results_simp
  (try simp only [TRef.toBuf, TRef.ofBuf, cast_eq, h.v23]) <;> rfl

set_option maxRecDepth 8192 in
set_option maxHeartbeats 1600000 in
theorem w03_v64 (h : Inv3 A V) :
    after (w03 (F := Ideal)) V (Proc.devRef .tc main_v64) = Terms.t_v64 A := by
  simp only [w03]
  after_results_simp
  (try simp only [TRef.toBuf, TRef.ofBuf, cast_eq, h.v23]) <;> rfl

set_option maxRecDepth 8192 in
set_option maxHeartbeats 1600000 in
theorem w03_v65 (h : Inv3 A V) :
    after (w03 (F := Ideal)) V (Proc.devRef .tc main_v65) = Terms.t_v65 A := by
  simp only [w03]
  after_results_simp
  (try simp only [TRef.toBuf, TRef.ofBuf, cast_eq, h.v23]) <;> rfl

set_option maxRecDepth 8192 in
set_option maxHeartbeats 1600000 in
theorem w03_v66 (h : Inv3 A V) :
    after (w03 (F := Ideal)) V (Proc.devRef .tc main_v66) = Terms.t_v66 A := by
  simp only [w03]
  after_results_simp
  (try simp only [TRef.toBuf, TRef.ofBuf, cast_eq, h.v23]) <;> rfl

set_option maxRecDepth 8192 in
set_option maxHeartbeats 1600000 in
theorem w03_v72 (h : Inv3 A V) :
    after (w03 (F := Ideal)) V (Proc.devRef .tc main_v72) = Terms.t_v72 A := by
  simp only [w03]
  after_results_simp
  (try simp only [TRef.toBuf, TRef.ofBuf, cast_eq]) <;> rfl

set_option maxRecDepth 8192 in
set_option maxHeartbeats 1600000 in
theorem w03_v73 (h : Inv3 A V) :
    after (w03 (F := Ideal)) V (Proc.devRef .tc main_v73) = Terms.t_v73 A := by
  simp only [w03]
  after_results_simp
  (try simp only [TRef.toBuf, TRef.ofBuf, cast_eq]) <;> rfl

theorem step03 (h : Inv3 A V) : Inv4 A (after (w03 (F := Ideal)) V) :=
  ⟨h.toArgsAt.keep w03_writes (by decide), (keep03 V main_v10 (by decide)).trans h.v10, (keep03 V main_v15 (by decide)).trans h.v15, (keep03 V main_v23 (by decide)).trans h.v23, w03_v58 h, w03_v62 h, w03_v64 h, w03_v65 h, w03_v66 h, w03_v72 h, w03_v73 h⟩

end Cert.ReferenceIdeal.HandRun

end
-- ==== Proof.RefRunOps04.lean ====
import proofs.«125444_j2207613190724_1_alg».proof.ReferenceIdeal
import Idealize.ShloMosaic.Lib.StableHlo.Run
import Idealize.ShloMosaic.PureOps.Ideal

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

abbrev w04 {F : FTy → Type} [FloatOps F] : List (HloOp τ sig (Elt F)) :=
  [ binary main_v73 main_v72 main_v74 (subf : FVec F S20x20 .f32 → FVec F S20x20 .f32 → _),
    binary main_v64 main_v74 main_v75 (mulf : FVec F S20x20 .f32 → FVec F S20x20 .f32 → _),
    TRef.nullary main_call6.cst (constant S_ .f32 0x00000000#32),
    TRef.binary (.of main_v65) main_call6.cst main_call6.v0 (fun x v => pad S20 ![0] ![0] ![0] x v pads_S20_S20_000 h_S_),
    TRef.nullary main_call6.v1 (iotaInDim S20x20 32 0),
    TRef.nullary main_call6.v2 (iotaInDim S20x20 32 1),
    TRef.nullary main_call6.c (constantI S_ 32 0#32),
    TRef.unary main_call6.c main_call6.v3 (broadcastInDim S20x20 ![] bcast_S_S20x20),
    TRef.binary main_call6.v1 main_call6.v3 main_call6.v4 addi,
    TRef.binary main_call6.v4 main_call6.v2 main_call6.v5 (cmpi .eq),
    TRef.unary main_call6.v0 main_call6.v6 (broadcastInDim S20x1 ![0] bcast_S20_S20x1_0),
    TRef.nullary main_call6.cst_0 (constant S_ .f32 0x00000000#32),
    TRef.unary main_call6.v6 main_call6.call0.v0 (broadcastInDim S20x20 ![0, 1] bcast_S20x1_S20x20_0_1),
    TRef.unary main_call6.cst_0 main_call6.call0.v1 (broadcastInDim S20x20 ![] bcast_S_S20x20),
    TRef.ternary main_call6.v5 main_call6.call0.v0 main_call6.call0.v1 main_call6.call0.v2 select,
    binary main_v75 main_v76 main_v77 (addf : FVec F S20x20 .f32 → FVec F S20x20 .f32 → _),
    unary main_v58 main_v78 ((extractStridedSlice S16384x20 ![0, 0] · slices_S16384x64_S16384x20_0_0) : FVec F S16384x64 .f32 → _),
    unary main_v77 main_v79 ((transpose S20x20 [1, 0] · transposes_S20x20_S20x20_1_0) : FVec F S20x20 .f32 → _),
    binary main_v78 main_v79 main_v80 ((fun l r => Host.dotGeneral dot_S16384x20_S20x20_S16384x20_1_0_0_1_n_n none l r) : FVec F S16384x20 .f32 → FVec F S20x20 .f32 → _),
    unary main_v66 main_v81 (broadcastInDim S1x20 ![1] bcast_S20_S1x20_1 : FVec F S20 .f32 → _),
    unary main_v81 main_v82 (broadcastInDim S16384x20 ![0, 1] bcast_S1x20_S16384x20_0_1 : FVec F S1x20 .f32 → _),
    binary main_v80 main_v82 main_v83 (addf : FVec F S16384x20 .f32 → FVec F S16384x20 .f32 → _),
    unary main_v83 main_v84 (Host.tanh : FVec F S16384x20 .f32 → _),
    unary main_v62 main_v85 ((transpose S20x20 [1, 0] · transposes_S20x20_S20x20_1_0) : FVec F S20x20 .f32 → _),
    binary main_v84 main_v85 main_v86 ((fun l r => Host.dotGeneral dot_S16384x20_S20x20_S16384x20_1_0_0_1_n_n none l r) : FVec F S16384x20 .f32 → FVec F S20x20 .f32 → _),
    nullary main_c_6 (constantI S_ 32 0#32),
    unary main_c_6 main_v87 (broadcastInDim S1 ![] bcast_S_S1 : IVec S_ 32 → _),
    ternary main_v58 main_v87 main_v86 main_v88 ((fun x i u => Host.scatter scatter_S16384x64_S1_S16384x20_01_n_1_0 FloatOps.addf x i u) : FVec F S16384x64 .f32 → IVec S1 32 → FVec F S16384x20 .f32 → _),
    unary main_v23 main_v89 ((extractStridedSlice S440 ![880] · slices_S3520_S440_880) : FVec F S3520 .f32 → _),
    unary main_v89 main_v90 ((extractStridedSlice S400 ![0] · slices_S440_S400_0) : FVec F S440 .f32 → _),
    reshape main_v90 main_v91 rfl shapeCasts_S400_S20x20,
    TRef.nullary main_call7.v0 (iotaInDim S20x20 32 0),
    TRef.nullary main_call7.c (constantI S_ 32 4294967295#32),
    TRef.unary main_call7.c main_call7.v1 (broadcastInDim S20x20 ![] bcast_S_S20x20),
    TRef.binary main_call7.v0 main_call7.v1 main_call7.v2 addi,
    TRef.nullary main_call7.v3 (iotaInDim S20x20 32 1),
    TRef.binary main_call7.v2 main_call7.v3 main_call7.v4 (cmpi .sge),
    TRef.nullary main_call7.cst (constant S_ .f32 0x00000000#32),
    TRef.unary main_call7.cst main_call7.v5 (broadcastInDim S20x20 ![] bcast_S_S20x20) ]

theorem w04_sub {F : FTy → Type} [FloatOps F] : (w04 : List (HloOp τ sig (Elt F))).Forall fun op => op.bufs ⊆ tcRefs τ sig :=
  ⟨binary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., ternary_bufs_sub .., unary_bufs_sub .., unary_bufs_sub .., reshape_bufs_sub .., nullary_bufs_sub .., nullary_bufs_sub .., unary_bufs_sub .., binary_bufs_sub .., nullary_bufs_sub .., binary_bufs_sub .., nullary_bufs_sub .., unary_bufs_sub ..⟩

theorem w04_fresh {F : FTy → Type} [FloatOps F] : ∀ op ∈ (w04 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev w04_W : List (Ref sig .tc) := [main_v74, main_v75, main_call6_cst, main_call6_v0, main_call6_v1, main_call6_v2, main_call6_c, main_call6_v3, main_call6_v4, main_call6_v5, main_call6_v6, main_call6_cst_0, main_call6_call0_v0, main_call6_call0_v1, main_v76, main_v77, main_v78, main_v79, main_v80, main_v81, main_v82, main_v83, main_v84, main_v85, main_v86, main_c_6, main_v87, main_v88, main_v89, main_v90, main_v91, main_call7_v0, main_call7_c, main_call7_v1, main_call7_v2, main_call7_v3, main_call7_v4, main_call7_cst, main_call7_v5]

theorem w04_writes : (w04 (F := Ideal)).Forall fun op => op.writes ⊆ (w04_W.map (Proc.devRef (τ := τ) .tc)).toFinset := by
  simp only [List.Forall]
  repeat' apply And.intro
  all_goals exact Finset.singleton_subset_iff.mpr (List.mem_toFinset.mpr (List.mem_map_of_mem (by decide)))

theorem keep04 (V : Valuation τ sig (Elt Ideal)) (r : Ref sig .tc) (h : r ∉ w04_W) :
    after (w04 (F := Ideal)) V (Proc.devRef .tc r) = V (Proc.devRef .tc r) :=
  after_of_writes_sub _ _ w04_writes h

end Cert.ReferenceIdeal.HandRun

end
-- ==== Proof.RefRunW04.lean ====
import proofs.«125444_j2207613190724_1_alg».proof.Proof.RefRunBase
import proofs.«125444_j2207613190724_1_alg».proof.Proof.RefRunOps04

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

variable {A : Terms.Args} {V : Valuation τ sig (Elt Ideal)}

set_option maxRecDepth 8192 in
set_option maxHeartbeats 1600000 in
theorem w04_v88 (h : Inv4 A V) :
    after (w04 (F := Ideal)) V (Proc.devRef .tc main_v88) = Terms.t_v88 A := by
  simp only [w04]
  after_results_simp
  (try simp only [TRef.toBuf, TRef.ofBuf, cast_eq, h.v62, h.v66, h.v65, h.v72, h.v73, h.v64, h.v58]) <;> rfl

set_option maxRecDepth 8192 in
set_option maxHeartbeats 1600000 in
theorem w04_v89 (h : Inv4 A V) :
    after (w04 (F := Ideal)) V (Proc.devRef .tc main_v89) = Terms.t_v89 A := by
  simp only [w04]
  after_results_simp
  (try simp only [TRef.toBuf, TRef.ofBuf, cast_eq, h.v23]) <;> rfl

set_option maxRecDepth 8192 in
set_option maxHeartbeats 1600000 in
theorem w04_v91 (h : Inv4 A V) :
    after (w04 (F := Ideal)) V (Proc.devRef .tc main_v91) = Terms.t_v91 A := by
  simp only [w04]
  after_results_simp
  (try simp only [TRef.toBuf, TRef.ofBuf, cast_eq, h.v23]) <;> rfl

set_option maxRecDepth 8192 in
set_option maxHeartbeats 1600000 in
theorem w04_call7_v4 (h : Inv4 A V) :
    after (w04 (F := Ideal)) V (Proc.devRef .tc main_call7_v4) = Terms.t_call7_v4 A := by
  simp only [w04]
  after_results_simp
  (try simp only [TRef.toBuf, TRef.ofBuf, cast_eq]) <;> rfl

set_option maxRecDepth 8192 in
set_option maxHeartbeats 1600000 in
theorem w04_call7_v5 (h : Inv4 A V) :
    after (w04 (F := Ideal)) V (Proc.devRef .tc main_call7_v5) = Terms.t_call7_v5 A := by
  simp only [w04]
  after_results_simp
  (try simp only [TRef.toBuf, TRef.ofBuf, cast_eq]) <;> rfl

theorem step04 (h : Inv4 A V) : Inv5 A (after (w04 (F := Ideal)) V) :=
  ⟨h.toArgsAt.keep w04_writes (by decide), (keep04 V main_v10 (by decide)).trans h.v10, (keep04 V main_v15 (by decide)).trans h.v15, (keep04 V main_v23 (by decide)).trans h.v23, w04_v88 h, w04_v89 h, w04_v91 h, w04_call7_v4 h, w04_call7_v5 h⟩

end Cert.ReferenceIdeal.HandRun

end
-- ==== Proof.RefRunOps05.lean ====
import proofs.«125444_j2207613190724_1_alg».proof.ReferenceIdeal
import Idealize.ShloMosaic.Lib.StableHlo.Run
import Idealize.ShloMosaic.PureOps.Ideal

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

abbrev w05 {F : FTy → Type} [FloatOps F] : List (HloOp τ sig (Elt F)) :=
  [ TRef.ternary main_call7.v4 main_call7.v5 (.of main_v91) main_call7.v6 select,
    TRef.nullary main_call8.v0 (iotaInDim S20x20 32 0),
    TRef.nullary main_call8.c (constantI S_ 32 0#32),
    TRef.unary main_call8.c main_call8.v1 (broadcastInDim S20x20 ![] bcast_S_S20x20),
    TRef.binary main_call8.v0 main_call8.v1 main_call8.v2 addi,
    TRef.nullary main_call8.v3 (iotaInDim S20x20 32 1),
    TRef.binary main_call8.v2 main_call8.v3 main_call8.v4 (cmpi .sge),
    TRef.nullary main_call8.cst (constant S_ .f32 0x00000000#32),
    TRef.unary main_call8.cst main_call8.v5 (broadcastInDim S20x20 ![] bcast_S_S20x20),
    TRef.ternary main_call8.v4 (.of main_v91) main_call8.v5 main_call8.v6 select,
    unary main_v92 main_v94 ((transpose S20x20 [1, 0] · transposes_S20x20_S20x20_1_0) : FVec F S20x20 .f32 → _),
    unary main_v89 main_v95 ((extractStridedSlice S20 ![400] · slices_S440_S20_400) : FVec F S440 .f32 → _),
    unary main_v89 main_v96 ((extractStridedSlice S20 ![420] · slices_S440_S20_420) : FVec F S440 .f32 → _),
    nullary main_v97 (iotaInDim S20x20 32 0),
    nullary main_v98 (iotaInDim S20x20 32 1),
    nullary main_c_7 (constantI S_ 32 0#32),
    unary main_c_7 main_v99 (broadcastInDim S20x20 ![] bcast_S_S20x20 : IVec S_ 32 → _),
    binary main_v97 main_v99 main_v100 (addi : IVec S20x20 32 → IVec S20x20 32 → _),
    binary main_v100 main_v98 main_v101 (cmpi .eq : IVec S20x20 32 → IVec S20x20 32 → _),
    unary main_v101 main_v102 (uitofp .f32 : IVec S20x20 1 → _),
    nullary main_cst_8 (constant S_ .f32 0x3F800000#32),
    unary main_cst_8 main_v103 (broadcastInDim S20x20 ![] bcast_S_S20x20 : FVec F S_ .f32 → _),
    binary main_v103 main_v102 main_v104 (subf : FVec F S20x20 .f32 → FVec F S20x20 .f32 → _),
    binary main_v93 main_v104 main_v105 (mulf : FVec F S20x20 .f32 → FVec F S20x20 .f32 → _),
    TRef.nullary main_call9.cst (constant S_ .f32 0x00000000#32),
    TRef.binary (.of main_v95) main_call9.cst main_call9.v0 (fun x v => pad S20 ![0] ![0] ![0] x v pads_S20_S20_000 h_S_),
    TRef.nullary main_call9.v1 (iotaInDim S20x20 32 0),
    TRef.nullary main_call9.v2 (iotaInDim S20x20 32 1),
    TRef.nullary main_call9.c (constantI S_ 32 0#32),
    TRef.unary main_call9.c main_call9.v3 (broadcastInDim S20x20 ![] bcast_S_S20x20),
    TRef.binary main_call9.v1 main_call9.v3 main_call9.v4 addi,
    TRef.binary main_call9.v4 main_call9.v2 main_call9.v5 (cmpi .eq),
    TRef.unary main_call9.v0 main_call9.v6 (broadcastInDim S20x1 ![0] bcast_S20_S20x1_0),
    TRef.nullary main_call9.cst_0 (constant S_ .f32 0x00000000#32),
    TRef.unary main_call9.v6 main_call9.call0.v0 (broadcastInDim S20x20 ![0, 1] bcast_S20x1_S20x20_0_1),
    TRef.unary main_call9.cst_0 main_call9.call0.v1 (broadcastInDim S20x20 ![] bcast_S_S20x20),
    TRef.ternary main_call9.v5 main_call9.call0.v0 main_call9.call0.v1 main_call9.call0.v2 select,
    binary main_v105 main_v106 main_v107 (addf : FVec F S20x20 .f32 → FVec F S20x20 .f32 → _),
    unary main_v88 main_v108 ((extractStridedSlice S16384x20 ![0, 0] · slices_S16384x64_S16384x20_0_0) : FVec F S16384x64 .f32 → _) ]

theorem w05_sub {F : FTy → Type} [FloatOps F] : (w05 : List (HloOp τ sig (Elt F))).Forall fun op => op.bufs ⊆ tcRefs τ sig :=
  ⟨ternary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., unary_bufs_sub .., unary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub .., unary_bufs_sub ..⟩

theorem w05_fresh {F : FTy → Type} [FloatOps F] : ∀ op ∈ (w05 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev w05_W : List (Ref sig .tc) := [main_v92, main_call8_v0, main_call8_c, main_call8_v1, main_call8_v2, main_call8_v3, main_call8_v4, main_call8_cst, main_call8_v5, main_v93, main_v94, main_v95, main_v96, main_v97, main_v98, main_c_7, main_v99, main_v100, main_v101, main_v102, main_cst_8, main_v103, main_v104, main_v105, main_call9_cst, main_call9_v0, main_call9_v1, main_call9_v2, main_call9_c, main_call9_v3, main_call9_v4, main_call9_v5, main_call9_v6, main_call9_cst_0, main_call9_call0_v0, main_call9_call0_v1, main_v106, main_v107, main_v108]

theorem w05_writes : (w05 (F := Ideal)).Forall fun op => op.writes ⊆ (w05_W.map (Proc.devRef (τ := τ) .tc)).toFinset := by
  simp only [List.Forall]
  repeat' apply And.intro
  all_goals exact Finset.singleton_subset_iff.mpr (List.mem_toFinset.mpr (List.mem_map_of_mem (by decide)))

theorem keep05 (V : Valuation τ sig (Elt Ideal)) (r : Ref sig .tc) (h : r ∉ w05_W) :
    after (w05 (F := Ideal)) V (Proc.devRef .tc r) = V (Proc.devRef .tc r) :=
  after_of_writes_sub _ _ w05_writes h

end Cert.ReferenceIdeal.HandRun

end
-- ==== Proof.RefRunW05.lean ====
import proofs.«125444_j2207613190724_1_alg».proof.Proof.RefRunBase
import proofs.«125444_j2207613190724_1_alg».proof.Proof.RefRunOps05

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

variable {A : Terms.Args} {V : Valuation τ sig (Elt Ideal)}

set_option maxRecDepth 8192 in
set_option maxHeartbeats 1600000 in
theorem w05_v94 (h : Inv5 A V) :
    after (w05 (F := Ideal)) V (Proc.devRef .tc main_v94) = Terms.t_v94 A := by
  simp only [w05]
  after_results_simp
  (try simp only [TRef.toBuf, TRef.ofBuf, cast_eq, h.v91, h.call7_v5, h.call7_v4]) <;> rfl

set_option maxRecDepth 8192 in
set_option maxHeartbeats 1600000 in
theorem w05_v96 (h : Inv5 A V) :
    after (w05 (F := Ideal)) V (Proc.devRef .tc main_v96) = Terms.t_v96 A := by
  simp only [w05]
  after_results_simp
  (try simp only [TRef.toBuf, TRef.ofBuf, cast_eq, h.v89]) <;> rfl

set_option maxRecDepth 8192 in
set_option maxHeartbeats 1600000 in
theorem w05_v107 (h : Inv5 A V) :
    after (w05 (F := Ideal)) V (Proc.devRef .tc main_v107) = Terms.t_v107 A := by
  simp only [w05]
  after_results_simp
  (try simp only [TRef.toBuf, TRef.ofBuf, cast_eq, h.v89, h.v91]) <;> rfl

set_option maxRecDepth 8192 in
set_option maxHeartbeats 1600000 in
theorem w05_v108 (h : Inv5 A V) :
    after (w05 (F := Ideal)) V (Proc.devRef .tc main_v108) = Terms.t_v108 A := by
  simp only [w05]
  after_results_simp
  (try simp only [TRef.toBuf, TRef.ofBuf, cast_eq, h.v88]) <;> rfl

theorem step05 (h : Inv5 A V) : Inv6 A (after (w05 (F := Ideal)) V) :=
  ⟨h.toArgsAt.keep w05_writes (by decide), (keep05 V main_v10 (by decide)).trans h.v10, (keep05 V main_v15 (by decide)).trans h.v15, (keep05 V main_v23 (by decide)).trans h.v23, (keep05 V main_v88 (by decide)).trans h.v88, w05_v94 h, w05_v96 h, w05_v107 h, w05_v108 h⟩

end Cert.ReferenceIdeal.HandRun

end
-- ==== Proof.RefRunOps06.lean ====
import proofs.«125444_j2207613190724_1_alg».proof.ReferenceIdeal
import Idealize.ShloMosaic.Lib.StableHlo.Run
import Idealize.ShloMosaic.PureOps.Ideal

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

abbrev w06 {F : FTy → Type} [FloatOps F] : List (HloOp τ sig (Elt F)) :=
  [ unary main_v107 main_v109 ((transpose S20x20 [1, 0] · transposes_S20x20_S20x20_1_0) : FVec F S20x20 .f32 → _),
    binary main_v108 main_v109 main_v110 ((fun l r => Host.dotGeneral dot_S16384x20_S20x20_S16384x20_1_0_0_1_n_n none l r) : FVec F S16384x20 .f32 → FVec F S20x20 .f32 → _),
    unary main_v96 main_v111 (broadcastInDim S1x20 ![1] bcast_S20_S1x20_1 : FVec F S20 .f32 → _),
    unary main_v111 main_v112 (broadcastInDim S16384x20 ![0, 1] bcast_S1x20_S16384x20_0_1 : FVec F S1x20 .f32 → _),
    binary main_v110 main_v112 main_v113 (addf : FVec F S16384x20 .f32 → FVec F S16384x20 .f32 → _),
    unary main_v113 main_v114 (Host.tanh : FVec F S16384x20 .f32 → _),
    unary main_v94 main_v115 ((transpose S20x20 [1, 0] · transposes_S20x20_S20x20_1_0) : FVec F S20x20 .f32 → _),
    binary main_v114 main_v115 main_v116 ((fun l r => Host.dotGeneral dot_S16384x20_S20x20_S16384x20_1_0_0_1_n_n none l r) : FVec F S16384x20 .f32 → FVec F S20x20 .f32 → _),
    nullary main_c_9 (constantI S_ 32 0#32),
    unary main_c_9 main_v117 (broadcastInDim S1 ![] bcast_S_S1 : IVec S_ 32 → _),
    ternary main_v88 main_v117 main_v116 main_v118 ((fun x i u => Host.scatter scatter_S16384x64_S1_S16384x20_01_n_1_0 FloatOps.addf x i u) : FVec F S16384x64 .f32 → IVec S1 32 → FVec F S16384x20 .f32 → _),
    unary main_v23 main_v119 ((extractStridedSlice S440 ![1320] · slices_S3520_S440_1320) : FVec F S3520 .f32 → _),
    unary main_v119 main_v120 ((extractStridedSlice S400 ![0] · slices_S440_S400_0) : FVec F S440 .f32 → _),
    reshape main_v120 main_v121 rfl shapeCasts_S400_S20x20,
    TRef.nullary main_call10.v0 (iotaInDim S20x20 32 0),
    TRef.nullary main_call10.c (constantI S_ 32 4294967295#32),
    TRef.unary main_call10.c main_call10.v1 (broadcastInDim S20x20 ![] bcast_S_S20x20),
    TRef.binary main_call10.v0 main_call10.v1 main_call10.v2 addi,
    TRef.nullary main_call10.v3 (iotaInDim S20x20 32 1),
    TRef.binary main_call10.v2 main_call10.v3 main_call10.v4 (cmpi .sge),
    TRef.nullary main_call10.cst (constant S_ .f32 0x00000000#32),
    TRef.unary main_call10.cst main_call10.v5 (broadcastInDim S20x20 ![] bcast_S_S20x20),
    TRef.ternary main_call10.v4 main_call10.v5 (.of main_v121) main_call10.v6 select,
    TRef.nullary main_call11.v0 (iotaInDim S20x20 32 0),
    TRef.nullary main_call11.c (constantI S_ 32 0#32),
    TRef.unary main_call11.c main_call11.v1 (broadcastInDim S20x20 ![] bcast_S_S20x20),
    TRef.binary main_call11.v0 main_call11.v1 main_call11.v2 addi,
    TRef.nullary main_call11.v3 (iotaInDim S20x20 32 1),
    TRef.binary main_call11.v2 main_call11.v3 main_call11.v4 (cmpi .sge),
    TRef.nullary main_call11.cst (constant S_ .f32 0x00000000#32),
    TRef.unary main_call11.cst main_call11.v5 (broadcastInDim S20x20 ![] bcast_S_S20x20),
    TRef.ternary main_call11.v4 (.of main_v121) main_call11.v5 main_call11.v6 select,
    unary main_v123 main_v124 ((transpose S20x20 [1, 0] · transposes_S20x20_S20x20_1_0) : FVec F S20x20 .f32 → _),
    unary main_v119 main_v125 ((extractStridedSlice S20 ![400] · slices_S440_S20_400) : FVec F S440 .f32 → _) ]

theorem w06_sub {F : FTy → Type} [FloatOps F] : (w06 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., nullary_bufs_sub .., unary_bufs_sub .., ternary_bufs_sub .., unary_bufs_sub .., unary_bufs_sub .., reshape_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., unary_bufs_sub ..⟩

theorem w06_fresh {F : FTy → Type} [FloatOps F] : ∀ op ∈ (w06 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev w06_W : List (Ref sig .tc) := [main_v109, main_v110, main_v111, main_v112, main_v113, main_v114, main_v115, main_v116, main_c_9, main_v117, main_v118, main_v119, main_v120, main_v121, main_call10_v0, main_call10_c, main_call10_v1, main_call10_v2, main_call10_v3, main_call10_v4, main_call10_cst, main_call10_v5, main_v122, main_call11_v0, main_call11_c, main_call11_v1, main_call11_v2, main_call11_v3, main_call11_v4, main_call11_cst, main_call11_v5, main_v123, main_v124, main_v125]

theorem w06_writes : (w06 (F := Ideal)).Forall fun op => op.writes ⊆ (w06_W.map (Proc.devRef (τ := τ) .tc)).toFinset := by
  simp only [List.Forall]
  repeat' apply And.intro
  all_goals exact Finset.singleton_subset_iff.mpr (List.mem_toFinset.mpr (List.mem_map_of_mem (by decide)))

theorem keep06 (V : Valuation τ sig (Elt Ideal)) (r : Ref sig .tc) (h : r ∉ w06_W) :
    after (w06 (F := Ideal)) V (Proc.devRef .tc r) = V (Proc.devRef .tc r) :=
  after_of_writes_sub _ _ w06_writes h

end Cert.ReferenceIdeal.HandRun

end
-- ==== Proof.RefRunW06.lean ====
import proofs.«125444_j2207613190724_1_alg».proof.Proof.RefRunBase
import proofs.«125444_j2207613190724_1_alg».proof.Proof.RefRunOps06

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

variable {A : Terms.Args} {V : Valuation τ sig (Elt Ideal)}

set_option maxRecDepth 8192 in
set_option maxHeartbeats 1600000 in
theorem w06_v118 (h : Inv6 A V) :
    after (w06 (F := Ideal)) V (Proc.devRef .tc main_v118) = Terms.t_v118 A := by
  simp only [w06]
  after_results_simp
  (try simp only [TRef.toBuf, TRef.ofBuf, cast_eq, h.v94, h.v96, h.v107, h.v108, h.v88]) <;> rfl

set_option maxRecDepth 8192 in
set_option maxHeartbeats 1600000 in
theorem w06_v119 (h : Inv6 A V) :
    after (w06 (F := Ideal)) V (Proc.devRef .tc main_v119) = Terms.t_v119 A := by
  simp only [w06]
  after_results_simp
  (try simp only [TRef.toBuf, TRef.ofBuf, cast_eq, h.v23]) <;> rfl

set_option maxRecDepth 8192 in
set_option maxHeartbeats 1600000 in
theorem w06_v122 (h : Inv6 A V) :
    after (w06 (F := Ideal)) V (Proc.devRef .tc main_v122) = Terms.t_v122 A := by
  simp only [w06]
  after_results_simp
  (try simp only [TRef.toBuf, TRef.ofBuf, cast_eq, h.v23]) <;> rfl

set_option maxRecDepth 8192 in
set_option maxHeartbeats 1600000 in
theorem w06_v124 (h : Inv6 A V) :
    after (w06 (F := Ideal)) V (Proc.devRef .tc main_v124) = Terms.t_v124 A := by
  simp only [w06]
  after_results_simp
  (try simp only [TRef.toBuf, TRef.ofBuf, cast_eq, h.v23]) <;> rfl

set_option maxRecDepth 8192 in
set_option maxHeartbeats 1600000 in
theorem w06_v125 (h : Inv6 A V) :
    after (w06 (F := Ideal)) V (Proc.devRef .tc main_v125) = Terms.t_v125 A := by
  simp only [w06]
  after_results_simp
  (try simp only [TRef.toBuf, TRef.ofBuf, cast_eq, h.v23]) <;> rfl

theorem step06 (h : Inv6 A V) : Inv7 A (after (w06 (F := Ideal)) V) :=
  ⟨h.toArgsAt.keep w06_writes (by decide), (keep06 V main_v10 (by decide)).trans h.v10, (keep06 V main_v15 (by decide)).trans h.v15, (keep06 V main_v23 (by decide)).trans h.v23, w06_v118 h, w06_v119 h, w06_v122 h, w06_v124 h, w06_v125 h⟩

end Cert.ReferenceIdeal.HandRun

end
-- ==== Proof.RefRunOps07.lean ====
import proofs.«125444_j2207613190724_1_alg».proof.ReferenceIdeal
import Idealize.ShloMosaic.Lib.StableHlo.Run
import Idealize.ShloMosaic.PureOps.Ideal

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

abbrev w07 {F : FTy → Type} [FloatOps F] : List (HloOp τ sig (Elt F)) :=
  [ unary main_v119 main_v126 ((extractStridedSlice S20 ![420] · slices_S440_S20_420) : FVec F S440 .f32 → _),
    nullary main_v127 (iotaInDim S20x20 32 0),
    nullary main_v128 (iotaInDim S20x20 32 1),
    nullary main_c_10 (constantI S_ 32 0#32),
    unary main_c_10 main_v129 (broadcastInDim S20x20 ![] bcast_S_S20x20 : IVec S_ 32 → _),
    binary main_v127 main_v129 main_v130 (addi : IVec S20x20 32 → IVec S20x20 32 → _),
    binary main_v130 main_v128 main_v131 (cmpi .eq : IVec S20x20 32 → IVec S20x20 32 → _),
    unary main_v131 main_v132 (uitofp .f32 : IVec S20x20 1 → _),
    nullary main_cst_11 (constant S_ .f32 0x3F800000#32),
    unary main_cst_11 main_v133 (broadcastInDim S20x20 ![] bcast_S_S20x20 : FVec F S_ .f32 → _),
    binary main_v133 main_v132 main_v134 (subf : FVec F S20x20 .f32 → FVec F S20x20 .f32 → _),
    binary main_v124 main_v134 main_v135 (mulf : FVec F S20x20 .f32 → FVec F S20x20 .f32 → _),
    TRef.nullary main_call12.cst (constant S_ .f32 0x00000000#32),
    TRef.binary (.of main_v125) main_call12.cst main_call12.v0 (fun x v => pad S20 ![0] ![0] ![0] x v pads_S20_S20_000 h_S_),
    TRef.nullary main_call12.v1 (iotaInDim S20x20 32 0),
    TRef.nullary main_call12.v2 (iotaInDim S20x20 32 1),
    TRef.nullary main_call12.c (constantI S_ 32 0#32),
    TRef.unary main_call12.c main_call12.v3 (broadcastInDim S20x20 ![] bcast_S_S20x20),
    TRef.binary main_call12.v1 main_call12.v3 main_call12.v4 addi,
    TRef.binary main_call12.v4 main_call12.v2 main_call12.v5 (cmpi .eq),
    TRef.unary main_call12.v0 main_call12.v6 (broadcastInDim S20x1 ![0] bcast_S20_S20x1_0),
    TRef.nullary main_call12.cst_0 (constant S_ .f32 0x00000000#32),
    TRef.unary main_call12.v6 main_call12.call0.v0 (broadcastInDim S20x20 ![0, 1] bcast_S20x1_S20x20_0_1),
    TRef.unary main_call12.cst_0 main_call12.call0.v1 (broadcastInDim S20x20 ![] bcast_S_S20x20),
    TRef.ternary main_call12.v5 main_call12.call0.v0 main_call12.call0.v1 main_call12.call0.v2 select,
    binary main_v135 main_v136 main_v137 (addf : FVec F S20x20 .f32 → FVec F S20x20 .f32 → _),
    unary main_v118 main_v138 ((extractStridedSlice S16384x20 ![0, 0] · slices_S16384x64_S16384x20_0_0) : FVec F S16384x64 .f32 → _),
    unary main_v137 main_v139 ((transpose S20x20 [1, 0] · transposes_S20x20_S20x20_1_0) : FVec F S20x20 .f32 → _),
    binary main_v138 main_v139 main_v140 ((fun l r => Host.dotGeneral dot_S16384x20_S20x20_S16384x20_1_0_0_1_n_n none l r) : FVec F S16384x20 .f32 → FVec F S20x20 .f32 → _),
    unary main_v126 main_v141 (broadcastInDim S1x20 ![1] bcast_S20_S1x20_1 : FVec F S20 .f32 → _),
    unary main_v141 main_v142 (broadcastInDim S16384x20 ![0, 1] bcast_S1x20_S16384x20_0_1 : FVec F S1x20 .f32 → _),
    binary main_v140 main_v142 main_v143 (addf : FVec F S16384x20 .f32 → FVec F S16384x20 .f32 → _),
    unary main_v143 main_v144 (Host.tanh : FVec F S16384x20 .f32 → _),
    unary main_v122 main_v145 ((transpose S20x20 [1, 0] · transposes_S20x20_S20x20_1_0) : FVec F S20x20 .f32 → _),
    binary main_v144 main_v145 main_v146 ((fun l r => Host.dotGeneral dot_S16384x20_S20x20_S16384x20_1_0_0_1_n_n none l r) : FVec F S16384x20 .f32 → FVec F S20x20 .f32 → _) ]

theorem w07_sub {F : FTy → Type} [FloatOps F] : (w07 : List (HloOp τ sig (Elt F))).Forall fun op => op.bufs ⊆ tcRefs τ sig :=
  ⟨unary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem w07_fresh {F : FTy → Type} [FloatOps F] : ∀ op ∈ (w07 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev w07_W : List (Ref sig .tc) := [main_v126, main_v127, main_v128, main_c_10, main_v129, main_v130, main_v131, main_v132, main_cst_11, main_v133, main_v134, main_v135, main_call12_cst, main_call12_v0, main_call12_v1, main_call12_v2, main_call12_c, main_call12_v3, main_call12_v4, main_call12_v5, main_call12_v6, main_call12_cst_0, main_call12_call0_v0, main_call12_call0_v1, main_v136, main_v137, main_v138, main_v139, main_v140, main_v141, main_v142, main_v143, main_v144, main_v145, main_v146]

theorem w07_writes : (w07 (F := Ideal)).Forall fun op => op.writes ⊆ (w07_W.map (Proc.devRef (τ := τ) .tc)).toFinset := by
  simp only [List.Forall]
  repeat' apply And.intro
  all_goals exact Finset.singleton_subset_iff.mpr (List.mem_toFinset.mpr (List.mem_map_of_mem (by decide)))

theorem keep07 (V : Valuation τ sig (Elt Ideal)) (r : Ref sig .tc) (h : r ∉ w07_W) :
    after (w07 (F := Ideal)) V (Proc.devRef .tc r) = V (Proc.devRef .tc r) :=
  after_of_writes_sub _ _ w07_writes h

end Cert.ReferenceIdeal.HandRun

end
-- ==== Proof.RefRunW07.lean ====
import proofs.«125444_j2207613190724_1_alg».proof.Proof.RefRunBase
import proofs.«125444_j2207613190724_1_alg».proof.Proof.RefRunOps07

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

variable {A : Terms.Args} {V : Valuation τ sig (Elt Ideal)}

set_option maxRecDepth 8192 in
set_option maxHeartbeats 1600000 in
theorem w07_v146 (h : Inv7 A V) :
    after (w07 (F := Ideal)) V (Proc.devRef .tc main_v146) = Terms.t_v146 A := by
  simp only [w07]
  after_results_simp
  (try simp only [TRef.toBuf, TRef.ofBuf, cast_eq, h.v122, h.v119, h.v125, h.v124, h.v118]) <;> rfl

theorem step07 (h : Inv7 A V) : Inv8 A (after (w07 (F := Ideal)) V) :=
  ⟨h.toArgsAt.keep w07_writes (by decide), (keep07 V main_v10 (by decide)).trans h.v10, (keep07 V main_v15 (by decide)).trans h.v15, (keep07 V main_v23 (by decide)).trans h.v23, (keep07 V main_v118 (by decide)).trans h.v118, w07_v146 h⟩

end Cert.ReferenceIdeal.HandRun

end
-- ==== Proof.RefRunOps08.lean ====
import proofs.«125444_j2207613190724_1_alg».proof.ReferenceIdeal
import Idealize.ShloMosaic.Lib.StableHlo.Run
import Idealize.ShloMosaic.PureOps.Ideal

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

abbrev w08 {F : FTy → Type} [FloatOps F] : List (HloOp τ sig (Elt F)) :=
  [ nullary main_c_12 (constantI S_ 32 0#32),
    unary main_c_12 main_v147 (broadcastInDim S1 ![] bcast_S_S1 : IVec S_ 32 → _),
    ternary main_v118 main_v147 main_v146 main_v148 ((fun x i u => Host.scatter scatter_S16384x64_S1_S16384x20_01_n_1_0 FloatOps.addf x i u) : FVec F S16384x64 .f32 → IVec S1 32 → FVec F S16384x20 .f32 → _),
    unary main_v23 main_v149 ((extractStridedSlice S440 ![1760] · slices_S3520_S440_1760) : FVec F S3520 .f32 → _),
    unary main_v149 main_v150 ((extractStridedSlice S400 ![0] · slices_S440_S400_0) : FVec F S440 .f32 → _),
    reshape main_v150 main_v151 rfl shapeCasts_S400_S20x20,
    TRef.nullary main_call13.v0 (iotaInDim S20x20 32 0),
    TRef.nullary main_call13.c (constantI S_ 32 4294967295#32),
    TRef.unary main_call13.c main_call13.v1 (broadcastInDim S20x20 ![] bcast_S_S20x20),
    TRef.binary main_call13.v0 main_call13.v1 main_call13.v2 addi,
    TRef.nullary main_call13.v3 (iotaInDim S20x20 32 1),
    TRef.binary main_call13.v2 main_call13.v3 main_call13.v4 (cmpi .sge),
    TRef.nullary main_call13.cst (constant S_ .f32 0x00000000#32),
    TRef.unary main_call13.cst main_call13.v5 (broadcastInDim S20x20 ![] bcast_S_S20x20),
    TRef.ternary main_call13.v4 main_call13.v5 (.of main_v151) main_call13.v6 select,
    TRef.nullary main_call14.v0 (iotaInDim S20x20 32 0),
    TRef.nullary main_call14.c (constantI S_ 32 0#32),
    TRef.unary main_call14.c main_call14.v1 (broadcastInDim S20x20 ![] bcast_S_S20x20),
    TRef.binary main_call14.v0 main_call14.v1 main_call14.v2 addi,
    TRef.nullary main_call14.v3 (iotaInDim S20x20 32 1),
    TRef.binary main_call14.v2 main_call14.v3 main_call14.v4 (cmpi .sge),
    TRef.nullary main_call14.cst (constant S_ .f32 0x00000000#32),
    TRef.unary main_call14.cst main_call14.v5 (broadcastInDim S20x20 ![] bcast_S_S20x20),
    TRef.ternary main_call14.v4 (.of main_v151) main_call14.v5 main_call14.v6 select,
    unary main_v152 main_v154 ((transpose S20x20 [1, 0] · transposes_S20x20_S20x20_1_0) : FVec F S20x20 .f32 → _),
    unary main_v149 main_v155 ((extractStridedSlice S20 ![400] · slices_S440_S20_400) : FVec F S440 .f32 → _),
    unary main_v149 main_v156 ((extractStridedSlice S20 ![420] · slices_S440_S20_420) : FVec F S440 .f32 → _),
    nullary main_v157 (iotaInDim S20x20 32 0),
    nullary main_v158 (iotaInDim S20x20 32 1),
    nullary main_c_13 (constantI S_ 32 0#32),
    unary main_c_13 main_v159 (broadcastInDim S20x20 ![] bcast_S_S20x20 : IVec S_ 32 → _),
    binary main_v157 main_v159 main_v160 (addi : IVec S20x20 32 → IVec S20x20 32 → _),
    binary main_v160 main_v158 main_v161 (cmpi .eq : IVec S20x20 32 → IVec S20x20 32 → _),
    unary main_v161 main_v162 (uitofp .f32 : IVec S20x20 1 → _),
    nullary main_cst_14 (constant S_ .f32 0x3F800000#32) ]

theorem w08_sub {F : FTy → Type} [FloatOps F] : (w08 : List (HloOp τ sig (Elt F))).Forall fun op => op.bufs ⊆ tcRefs τ sig :=
  ⟨nullary_bufs_sub .., unary_bufs_sub .., ternary_bufs_sub .., unary_bufs_sub .., unary_bufs_sub .., reshape_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., unary_bufs_sub .., unary_bufs_sub .., nullary_bufs_sub .., nullary_bufs_sub .., nullary_bufs_sub .., unary_bufs_sub .., binary_bufs_sub .., binary_bufs_sub .., unary_bufs_sub .., nullary_bufs_sub ..⟩

theorem w08_fresh {F : FTy → Type} [FloatOps F] : ∀ op ∈ (w08 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev w08_W : List (Ref sig .tc) := [main_c_12, main_v147, main_v148, main_v149, main_v150, main_v151, main_call13_v0, main_call13_c, main_call13_v1, main_call13_v2, main_call13_v3, main_call13_v4, main_call13_cst, main_call13_v5, main_v152, main_call14_v0, main_call14_c, main_call14_v1, main_call14_v2, main_call14_v3, main_call14_v4, main_call14_cst, main_call14_v5, main_v153, main_v154, main_v155, main_v156, main_v157, main_v158, main_c_13, main_v159, main_v160, main_v161, main_v162, main_cst_14]

theorem w08_writes : (w08 (F := Ideal)).Forall fun op => op.writes ⊆ (w08_W.map (Proc.devRef (τ := τ) .tc)).toFinset := by
  simp only [List.Forall]
  repeat' apply And.intro
  all_goals exact Finset.singleton_subset_iff.mpr (List.mem_toFinset.mpr (List.mem_map_of_mem (by decide)))

theorem keep08 (V : Valuation τ sig (Elt Ideal)) (r : Ref sig .tc) (h : r ∉ w08_W) :
    after (w08 (F := Ideal)) V (Proc.devRef .tc r) = V (Proc.devRef .tc r) :=
  after_of_writes_sub _ _ w08_writes h

end Cert.ReferenceIdeal.HandRun

end
-- ==== Proof.RefRunW08.lean ====
import proofs.«125444_j2207613190724_1_alg».proof.Proof.RefRunBase
import proofs.«125444_j2207613190724_1_alg».proof.Proof.RefRunOps08

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

variable {A : Terms.Args} {V : Valuation τ sig (Elt Ideal)}

set_option maxRecDepth 8192 in
set_option maxHeartbeats 1600000 in
theorem w08_v148 (h : Inv8 A V) :
    after (w08 (F := Ideal)) V (Proc.devRef .tc main_v148) = Terms.t_v148 A := by
  simp only [w08]
  after_results_simp
  (try simp only [TRef.toBuf, TRef.ofBuf, cast_eq, h.v146, h.v118]) <;> rfl

set_option maxRecDepth 8192 in
set_option maxHeartbeats 1600000 in
theorem w08_v153 (h : Inv8 A V) :
    after (w08 (F := Ideal)) V (Proc.devRef .tc main_v153) = Terms.t_v153 A := by
  simp only [w08]
  after_results_simp
  (try simp only [TRef.toBuf, TRef.ofBuf, cast_eq, h.v23]) <;> rfl

set_option maxRecDepth 8192 in
set_option maxHeartbeats 1600000 in
theorem w08_v154 (h : Inv8 A V) :
    after (w08 (F := Ideal)) V (Proc.devRef .tc main_v154) = Terms.t_v154 A := by
  simp only [w08]
  after_results_simp
  (try simp only [TRef.toBuf, TRef.ofBuf, cast_eq, h.v23]) <;> rfl

set_option maxRecDepth 8192 in
set_option maxHeartbeats 1600000 in
theorem w08_v155 (h : Inv8 A V) :
    after (w08 (F := Ideal)) V (Proc.devRef .tc main_v155) = Terms.t_v155 A := by
  simp only [w08]
  after_results_simp
  (try simp only [TRef.toBuf, TRef.ofBuf, cast_eq, h.v23]) <;> rfl

set_option maxRecDepth 8192 in
set_option maxHeartbeats 1600000 in
theorem w08_v156 (h : Inv8 A V) :
    after (w08 (F := Ideal)) V (Proc.devRef .tc main_v156) = Terms.t_v156 A := by
  simp only [w08]
  after_results_simp
  (try simp only [TRef.toBuf, TRef.ofBuf, cast_eq, h.v23]) <;> rfl

set_option maxRecDepth 8192 in
set_option maxHeartbeats 1600000 in
theorem w08_v162 (h : Inv8 A V) :
    after (w08 (F := Ideal)) V (Proc.devRef .tc main_v162) = Terms.t_v162 A := by
  simp only [w08]
  after_results_simp
  (try simp only [TRef.toBuf, TRef.ofBuf, cast_eq]) <;> rfl

set_option maxRecDepth 8192 in
set_option maxHeartbeats 1600000 in
theorem w08_cst_14 (h : Inv8 A V) :
    after (w08 (F := Ideal)) V (Proc.devRef .tc main_cst_14) = Terms.t_cst_14 A := by
  simp only [w08]
  after_results_simp
  (try simp only [TRef.toBuf, TRef.ofBuf, cast_eq]) <;> rfl

theorem step08 (h : Inv8 A V) : Inv9 A (after (w08 (F := Ideal)) V) :=
  ⟨h.toArgsAt.keep w08_writes (by decide), (keep08 V main_v10 (by decide)).trans h.v10, (keep08 V main_v15 (by decide)).trans h.v15, (keep08 V main_v23 (by decide)).trans h.v23, w08_v148 h, w08_v153 h, w08_v154 h, w08_v155 h, w08_v156 h, w08_v162 h, w08_cst_14 h⟩

end Cert.ReferenceIdeal.HandRun

end
-- ==== Proof.RefRunOps09.lean ====
import proofs.«125444_j2207613190724_1_alg».proof.ReferenceIdeal
import Idealize.ShloMosaic.Lib.StableHlo.Run
import Idealize.ShloMosaic.PureOps.Ideal

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

abbrev w09 {F : FTy → Type} [FloatOps F] : List (HloOp τ sig (Elt F)) :=
  [ unary main_cst_14 main_v163 (broadcastInDim S20x20 ![] bcast_S_S20x20 : FVec F S_ .f32 → _),
    binary main_v163 main_v162 main_v164 (subf : FVec F S20x20 .f32 → FVec F S20x20 .f32 → _),
    binary main_v153 main_v164 main_v165 (mulf : FVec F S20x20 .f32 → FVec F S20x20 .f32 → _),
    TRef.nullary main_call15.cst (constant S_ .f32 0x00000000#32),
    TRef.binary (.of main_v155) main_call15.cst main_call15.v0 (fun x v => pad S20 ![0] ![0] ![0] x v pads_S20_S20_000 h_S_),
    TRef.nullary main_call15.v1 (iotaInDim S20x20 32 0),
    TRef.nullary main_call15.v2 (iotaInDim S20x20 32 1),
    TRef.nullary main_call15.c (constantI S_ 32 0#32),
    TRef.unary main_call15.c main_call15.v3 (broadcastInDim S20x20 ![] bcast_S_S20x20),
    TRef.binary main_call15.v1 main_call15.v3 main_call15.v4 addi,
    TRef.binary main_call15.v4 main_call15.v2 main_call15.v5 (cmpi .eq),
    TRef.unary main_call15.v0 main_call15.v6 (broadcastInDim S20x1 ![0] bcast_S20_S20x1_0),
    TRef.nullary main_call15.cst_0 (constant S_ .f32 0x00000000#32),
    TRef.unary main_call15.v6 main_call15.call0.v0 (broadcastInDim S20x20 ![0, 1] bcast_S20x1_S20x20_0_1),
    TRef.unary main_call15.cst_0 main_call15.call0.v1 (broadcastInDim S20x20 ![] bcast_S_S20x20),
    TRef.ternary main_call15.v5 main_call15.call0.v0 main_call15.call0.v1 main_call15.call0.v2 select,
    binary main_v165 main_v166 main_v167 (addf : FVec F S20x20 .f32 → FVec F S20x20 .f32 → _),
    unary main_v148 main_v168 ((extractStridedSlice S16384x20 ![0, 0] · slices_S16384x64_S16384x20_0_0) : FVec F S16384x64 .f32 → _),
    unary main_v167 main_v169 ((transpose S20x20 [1, 0] · transposes_S20x20_S20x20_1_0) : FVec F S20x20 .f32 → _),
    binary main_v168 main_v169 main_v170 ((fun l r => Host.dotGeneral dot_S16384x20_S20x20_S16384x20_1_0_0_1_n_n none l r) : FVec F S16384x20 .f32 → FVec F S20x20 .f32 → _),
    unary main_v156 main_v171 (broadcastInDim S1x20 ![1] bcast_S20_S1x20_1 : FVec F S20 .f32 → _),
    unary main_v171 main_v172 (broadcastInDim S16384x20 ![0, 1] bcast_S1x20_S16384x20_0_1 : FVec F S1x20 .f32 → _),
    binary main_v170 main_v172 main_v173 (addf : FVec F S16384x20 .f32 → FVec F S16384x20 .f32 → _),
    unary main_v173 main_v174 (Host.tanh : FVec F S16384x20 .f32 → _),
    unary main_v154 main_v175 ((transpose S20x20 [1, 0] · transposes_S20x20_S20x20_1_0) : FVec F S20x20 .f32 → _),
    binary main_v174 main_v175 main_v176 ((fun l r => Host.dotGeneral dot_S16384x20_S20x20_S16384x20_1_0_0_1_n_n none l r) : FVec F S16384x20 .f32 → FVec F S20x20 .f32 → _),
    nullary main_c_15 (constantI S_ 32 0#32),
    unary main_c_15 main_v177 (broadcastInDim S1 ![] bcast_S_S1 : IVec S_ 32 → _),
    ternary main_v148 main_v177 main_v176 main_v178 ((fun x i u => Host.scatter scatter_S16384x64_S1_S16384x20_01_n_1_0 FloatOps.addf x i u) : FVec F S16384x64 .f32 → IVec S1 32 → FVec F S16384x20 .f32 → _),
    unary main_v23 main_v179 ((extractStridedSlice S440 ![2200] · slices_S3520_S440_2200) : FVec F S3520 .f32 → _),
    unary main_v179 main_v180 ((extractStridedSlice S400 ![0] · slices_S440_S400_0) : FVec F S440 .f32 → _),
    reshape main_v180 main_v181 rfl shapeCasts_S400_S20x20,
    TRef.nullary main_call16.v0 (iotaInDim S20x20 32 0),
    TRef.nullary main_call16.c (constantI S_ 32 4294967295#32),
    TRef.unary main_call16.c main_call16.v1 (broadcastInDim S20x20 ![] bcast_S_S20x20),
    TRef.binary main_call16.v0 main_call16.v1 main_call16.v2 addi,
    TRef.nullary main_call16.v3 (iotaInDim S20x20 32 1),
    TRef.binary main_call16.v2 main_call16.v3 main_call16.v4 (cmpi .sge) ]

theorem w09_sub {F : FTy → Type} [FloatOps F] : (w09 : List (HloOp τ sig (Elt F))).Forall fun op => op.bufs ⊆ tcRefs τ sig :=
  ⟨unary_bufs_sub .., binary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., ternary_bufs_sub .., unary_bufs_sub .., unary_bufs_sub .., reshape_bufs_sub .., nullary_bufs_sub .., nullary_bufs_sub .., unary_bufs_sub .., binary_bufs_sub .., nullary_bufs_sub .., binary_bufs_sub ..⟩

theorem w09_fresh {F : FTy → Type} [FloatOps F] : ∀ op ∈ (w09 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev w09_W : List (Ref sig .tc) := [main_v163, main_v164, main_v165, main_call15_cst, main_call15_v0, main_call15_v1, main_call15_v2, main_call15_c, main_call15_v3, main_call15_v4, main_call15_v5, main_call15_v6, main_call15_cst_0, main_call15_call0_v0, main_call15_call0_v1, main_v166, main_v167, main_v168, main_v169, main_v170, main_v171, main_v172, main_v173, main_v174, main_v175, main_v176, main_c_15, main_v177, main_v178, main_v179, main_v180, main_v181, main_call16_v0, main_call16_c, main_call16_v1, main_call16_v2, main_call16_v3, main_call16_v4]

theorem w09_writes : (w09 (F := Ideal)).Forall fun op => op.writes ⊆ (w09_W.map (Proc.devRef (τ := τ) .tc)).toFinset := by
  simp only [List.Forall]
  repeat' apply And.intro
  all_goals exact Finset.singleton_subset_iff.mpr (List.mem_toFinset.mpr (List.mem_map_of_mem (by decide)))

theorem keep09 (V : Valuation τ sig (Elt Ideal)) (r : Ref sig .tc) (h : r ∉ w09_W) :
    after (w09 (F := Ideal)) V (Proc.devRef .tc r) = V (Proc.devRef .tc r) :=
  after_of_writes_sub _ _ w09_writes h

end Cert.ReferenceIdeal.HandRun

end
-- ==== Proof.RefRunW09.lean ====
import proofs.«125444_j2207613190724_1_alg».proof.Proof.RefRunBase
import proofs.«125444_j2207613190724_1_alg».proof.Proof.RefRunOps09

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

variable {A : Terms.Args} {V : Valuation τ sig (Elt Ideal)}

set_option maxRecDepth 8192 in
set_option maxHeartbeats 1600000 in
theorem w09_v178 (h : Inv9 A V) :
    after (w09 (F := Ideal)) V (Proc.devRef .tc main_v178) = Terms.t_v178 A := by
  simp only [w09]
  after_results_simp
  (try simp only [TRef.toBuf, TRef.ofBuf, cast_eq, h.v154, h.v156, h.v155, h.v162, h.cst_14, h.v153, h.v148]) <;> rfl

set_option maxRecDepth 8192 in
set_option maxHeartbeats 1600000 in
theorem w09_v179 (h : Inv9 A V) :
    after (w09 (F := Ideal)) V (Proc.devRef .tc main_v179) = Terms.t_v179 A := by
  simp only [w09]
  after_results_simp
  (try simp only [TRef.toBuf, TRef.ofBuf, cast_eq, h.v23]) <;> rfl

set_option maxRecDepth 8192 in
set_option maxHeartbeats 1600000 in
theorem w09_v181 (h : Inv9 A V) :
    after (w09 (F := Ideal)) V (Proc.devRef .tc main_v181) = Terms.t_v181 A := by
  simp only [w09]
  after_results_simp
  (try simp only [TRef.toBuf, TRef.ofBuf, cast_eq, h.v23]) <;> rfl

set_option maxRecDepth 8192 in
set_option maxHeartbeats 1600000 in
theorem w09_call16_v4 (h : Inv9 A V) :
    after (w09 (F := Ideal)) V (Proc.devRef .tc main_call16_v4) = Terms.t_call16_v4 A := by
  simp only [w09]
  after_results_simp
  (try simp only [TRef.toBuf, TRef.ofBuf, cast_eq]) <;> rfl

theorem step09 (h : Inv9 A V) : Inv10 A (after (w09 (F := Ideal)) V) :=
  ⟨h.toArgsAt.keep w09_writes (by decide), (keep09 V main_v10 (by decide)).trans h.v10, (keep09 V main_v15 (by decide)).trans h.v15, (keep09 V main_v23 (by decide)).trans h.v23, w09_v178 h, w09_v179 h, w09_v181 h, w09_call16_v4 h⟩

end Cert.ReferenceIdeal.HandRun

end
-- ==== Proof.RefRunOps10.lean ====
import proofs.«125444_j2207613190724_1_alg».proof.ReferenceIdeal
import Idealize.ShloMosaic.Lib.StableHlo.Run
import Idealize.ShloMosaic.PureOps.Ideal

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

abbrev w10 {F : FTy → Type} [FloatOps F] : List (HloOp τ sig (Elt F)) :=
  [ TRef.nullary main_call16.cst (constant S_ .f32 0x00000000#32),
    TRef.unary main_call16.cst main_call16.v5 (broadcastInDim S20x20 ![] bcast_S_S20x20),
    TRef.ternary main_call16.v4 main_call16.v5 (.of main_v181) main_call16.v6 select,
    TRef.nullary main_call17.v0 (iotaInDim S20x20 32 0),
    TRef.nullary main_call17.c (constantI S_ 32 0#32),
    TRef.unary main_call17.c main_call17.v1 (broadcastInDim S20x20 ![] bcast_S_S20x20),
    TRef.binary main_call17.v0 main_call17.v1 main_call17.v2 addi,
    TRef.nullary main_call17.v3 (iotaInDim S20x20 32 1),
    TRef.binary main_call17.v2 main_call17.v3 main_call17.v4 (cmpi .sge),
    TRef.nullary main_call17.cst (constant S_ .f32 0x00000000#32),
    TRef.unary main_call17.cst main_call17.v5 (broadcastInDim S20x20 ![] bcast_S_S20x20),
    TRef.ternary main_call17.v4 (.of main_v181) main_call17.v5 main_call17.v6 select,
    unary main_v183 main_v184 ((transpose S20x20 [1, 0] · transposes_S20x20_S20x20_1_0) : FVec F S20x20 .f32 → _),
    unary main_v179 main_v185 ((extractStridedSlice S20 ![400] · slices_S440_S20_400) : FVec F S440 .f32 → _),
    unary main_v179 main_v186 ((extractStridedSlice S20 ![420] · slices_S440_S20_420) : FVec F S440 .f32 → _),
    nullary main_v187 (iotaInDim S20x20 32 0),
    nullary main_v188 (iotaInDim S20x20 32 1),
    nullary main_c_16 (constantI S_ 32 0#32),
    unary main_c_16 main_v189 (broadcastInDim S20x20 ![] bcast_S_S20x20 : IVec S_ 32 → _),
    binary main_v187 main_v189 main_v190 (addi : IVec S20x20 32 → IVec S20x20 32 → _),
    binary main_v190 main_v188 main_v191 (cmpi .eq : IVec S20x20 32 → IVec S20x20 32 → _),
    unary main_v191 main_v192 (uitofp .f32 : IVec S20x20 1 → _),
    nullary main_cst_17 (constant S_ .f32 0x3F800000#32),
    unary main_cst_17 main_v193 (broadcastInDim S20x20 ![] bcast_S_S20x20 : FVec F S_ .f32 → _),
    binary main_v193 main_v192 main_v194 (subf : FVec F S20x20 .f32 → FVec F S20x20 .f32 → _),
    binary main_v184 main_v194 main_v195 (mulf : FVec F S20x20 .f32 → FVec F S20x20 .f32 → _),
    TRef.nullary main_call18.cst (constant S_ .f32 0x00000000#32),
    TRef.binary (.of main_v185) main_call18.cst main_call18.v0 (fun x v => pad S20 ![0] ![0] ![0] x v pads_S20_S20_000 h_S_),
    TRef.nullary main_call18.v1 (iotaInDim S20x20 32 0),
    TRef.nullary main_call18.v2 (iotaInDim S20x20 32 1),
    TRef.nullary main_call18.c (constantI S_ 32 0#32),
    TRef.unary main_call18.c main_call18.v3 (broadcastInDim S20x20 ![] bcast_S_S20x20),
    TRef.binary main_call18.v1 main_call18.v3 main_call18.v4 addi,
    TRef.binary main_call18.v4 main_call18.v2 main_call18.v5 (cmpi .eq),
    TRef.unary main_call18.v0 main_call18.v6 (broadcastInDim S20x1 ![0] bcast_S20_S20x1_0),
    TRef.nullary main_call18.cst_0 (constant S_ .f32 0x00000000#32),
    TRef.unary main_call18.v6 main_call18.call0.v0 (broadcastInDim S20x20 ![0, 1] bcast_S20x1_S20x20_0_1),
    TRef.unary main_call18.cst_0 main_call18.call0.v1 (broadcastInDim S20x20 ![] bcast_S_S20x20),
    TRef.ternary main_call18.v5 main_call18.call0.v0 main_call18.call0.v1 main_call18.call0.v2 select ]

theorem w10_sub {F : FTy → Type} [FloatOps F] : (w10 : List (HloOp τ sig (Elt F))).Forall fun op => op.bufs ⊆ tcRefs τ sig :=
  ⟨nullary_bufs_sub .., unary_bufs_sub .., ternary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., unary_bufs_sub .., unary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub ..⟩

theorem w10_fresh {F : FTy → Type} [FloatOps F] : ∀ op ∈ (w10 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev w10_W : List (Ref sig .tc) := [main_call16_cst, main_call16_v5, main_v182, main_call17_v0, main_call17_c, main_call17_v1, main_call17_v2, main_call17_v3, main_call17_v4, main_call17_cst, main_call17_v5, main_v183, main_v184, main_v185, main_v186, main_v187, main_v188, main_c_16, main_v189, main_v190, main_v191, main_v192, main_cst_17, main_v193, main_v194, main_v195, main_call18_cst, main_call18_v0, main_call18_v1, main_call18_v2, main_call18_c, main_call18_v3, main_call18_v4, main_call18_v5, main_call18_v6, main_call18_cst_0, main_call18_call0_v0, main_call18_call0_v1, main_v196]

theorem w10_writes : (w10 (F := Ideal)).Forall fun op => op.writes ⊆ (w10_W.map (Proc.devRef (τ := τ) .tc)).toFinset := by
  simp only [List.Forall]
  repeat' apply And.intro
  all_goals exact Finset.singleton_subset_iff.mpr (List.mem_toFinset.mpr (List.mem_map_of_mem (by decide)))

theorem keep10 (V : Valuation τ sig (Elt Ideal)) (r : Ref sig .tc) (h : r ∉ w10_W) :
    after (w10 (F := Ideal)) V (Proc.devRef .tc r) = V (Proc.devRef .tc r) :=
  after_of_writes_sub _ _ w10_writes h

end Cert.ReferenceIdeal.HandRun

end
-- ==== Proof.RefRunW10.lean ====
import proofs.«125444_j2207613190724_1_alg».proof.Proof.RefRunBase
import proofs.«125444_j2207613190724_1_alg».proof.Proof.RefRunOps10

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

variable {A : Terms.Args} {V : Valuation τ sig (Elt Ideal)}

set_option maxRecDepth 8192 in
set_option maxHeartbeats 1600000 in
theorem w10_v182 (h : Inv10 A V) :
    after (w10 (F := Ideal)) V (Proc.devRef .tc main_v182) = Terms.t_v182 A := by
  simp only [w10]
  after_results_simp
  (try simp only [TRef.toBuf, TRef.ofBuf, cast_eq, h.v181, h.call16_v4]) <;> rfl

set_option maxRecDepth 8192 in
set_option maxHeartbeats 1600000 in
theorem w10_v186 (h : Inv10 A V) :
    after (w10 (F := Ideal)) V (Proc.devRef .tc main_v186) = Terms.t_v186 A := by
  simp only [w10]
  after_results_simp
  (try simp only [TRef.toBuf, TRef.ofBuf, cast_eq, h.v179]) <;> rfl

set_option maxRecDepth 8192 in
set_option maxHeartbeats 1600000 in
theorem w10_v195 (h : Inv10 A V) :
    after (w10 (F := Ideal)) V (Proc.devRef .tc main_v195) = Terms.t_v195 A := by
  simp only [w10]
  after_results_simp
  (try simp only [TRef.toBuf, TRef.ofBuf, cast_eq, h.v181]) <;> rfl

set_option maxRecDepth 8192 in
set_option maxHeartbeats 1600000 in
theorem w10_v196 (h : Inv10 A V) :
    after (w10 (F := Ideal)) V (Proc.devRef .tc main_v196) = Terms.t_v196 A := by
  simp only [w10]
  after_results_simp
  (try simp only [TRef.toBuf, TRef.ofBuf, cast_eq, h.v179]) <;> rfl

theorem step10 (h : Inv10 A V) : Inv11 A (after (w10 (F := Ideal)) V) :=
  ⟨h.toArgsAt.keep w10_writes (by decide), (keep10 V main_v10 (by decide)).trans h.v10, (keep10 V main_v15 (by decide)).trans h.v15, (keep10 V main_v23 (by decide)).trans h.v23, (keep10 V main_v178 (by decide)).trans h.v178, w10_v182 h, w10_v186 h, w10_v195 h, w10_v196 h⟩

end Cert.ReferenceIdeal.HandRun

end
-- ==== Proof.RefRunOps11.lean ====
import proofs.«125444_j2207613190724_1_alg».proof.ReferenceIdeal
import Idealize.ShloMosaic.Lib.StableHlo.Run
import Idealize.ShloMosaic.PureOps.Ideal

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

abbrev w11 {F : FTy → Type} [FloatOps F] : List (HloOp τ sig (Elt F)) :=
  [ binary main_v195 main_v196 main_v197 (addf : FVec F S20x20 .f32 → FVec F S20x20 .f32 → _),
    unary main_v178 main_v198 ((extractStridedSlice S16384x20 ![0, 0] · slices_S16384x64_S16384x20_0_0) : FVec F S16384x64 .f32 → _),
    unary main_v197 main_v199 ((transpose S20x20 [1, 0] · transposes_S20x20_S20x20_1_0) : FVec F S20x20 .f32 → _),
    binary main_v198 main_v199 main_v200 ((fun l r => Host.dotGeneral dot_S16384x20_S20x20_S16384x20_1_0_0_1_n_n none l r) : FVec F S16384x20 .f32 → FVec F S20x20 .f32 → _),
    unary main_v186 main_v201 (broadcastInDim S1x20 ![1] bcast_S20_S1x20_1 : FVec F S20 .f32 → _),
    unary main_v201 main_v202 (broadcastInDim S16384x20 ![0, 1] bcast_S1x20_S16384x20_0_1 : FVec F S1x20 .f32 → _),
    binary main_v200 main_v202 main_v203 (addf : FVec F S16384x20 .f32 → FVec F S16384x20 .f32 → _),
    unary main_v203 main_v204 (Host.tanh : FVec F S16384x20 .f32 → _),
    unary main_v182 main_v205 ((transpose S20x20 [1, 0] · transposes_S20x20_S20x20_1_0) : FVec F S20x20 .f32 → _),
    binary main_v204 main_v205 main_v206 ((fun l r => Host.dotGeneral dot_S16384x20_S20x20_S16384x20_1_0_0_1_n_n none l r) : FVec F S16384x20 .f32 → FVec F S20x20 .f32 → _),
    nullary main_c_18 (constantI S_ 32 0#32),
    unary main_c_18 main_v207 (broadcastInDim S1 ![] bcast_S_S1 : IVec S_ 32 → _),
    ternary main_v178 main_v207 main_v206 main_v208 ((fun x i u => Host.scatter scatter_S16384x64_S1_S16384x20_01_n_1_0 FloatOps.addf x i u) : FVec F S16384x64 .f32 → IVec S1 32 → FVec F S16384x20 .f32 → _),
    unary main_v23 main_v209 ((extractStridedSlice S440 ![2640] · slices_S3520_S440_2640) : FVec F S3520 .f32 → _),
    unary main_v209 main_v210 ((extractStridedSlice S400 ![0] · slices_S440_S400_0) : FVec F S440 .f32 → _),
    reshape main_v210 main_v211 rfl shapeCasts_S400_S20x20,
    TRef.nullary main_call19.v0 (iotaInDim S20x20 32 0),
    TRef.nullary main_call19.c (constantI S_ 32 4294967295#32),
    TRef.unary main_call19.c main_call19.v1 (broadcastInDim S20x20 ![] bcast_S_S20x20),
    TRef.binary main_call19.v0 main_call19.v1 main_call19.v2 addi,
    TRef.nullary main_call19.v3 (iotaInDim S20x20 32 1),
    TRef.binary main_call19.v2 main_call19.v3 main_call19.v4 (cmpi .sge),
    TRef.nullary main_call19.cst (constant S_ .f32 0x00000000#32),
    TRef.unary main_call19.cst main_call19.v5 (broadcastInDim S20x20 ![] bcast_S_S20x20),
    TRef.ternary main_call19.v4 main_call19.v5 (.of main_v211) main_call19.v6 select,
    TRef.nullary main_call20.v0 (iotaInDim S20x20 32 0),
    TRef.nullary main_call20.c (constantI S_ 32 0#32),
    TRef.unary main_call20.c main_call20.v1 (broadcastInDim S20x20 ![] bcast_S_S20x20),
    TRef.binary main_call20.v0 main_call20.v1 main_call20.v2 addi,
    TRef.nullary main_call20.v3 (iotaInDim S20x20 32 1),
    TRef.binary main_call20.v2 main_call20.v3 main_call20.v4 (cmpi .sge),
    TRef.nullary main_call20.cst (constant S_ .f32 0x00000000#32),
    TRef.unary main_call20.cst main_call20.v5 (broadcastInDim S20x20 ![] bcast_S_S20x20),
    TRef.ternary main_call20.v4 (.of main_v211) main_call20.v5 main_call20.v6 select,
    unary main_v212 main_v214 ((transpose S20x20 [1, 0] · transposes_S20x20_S20x20_1_0) : FVec F S20x20 .f32 → _),
    unary main_v209 main_v215 ((extractStridedSlice S20 ![400] · slices_S440_S20_400) : FVec F S440 .f32 → _),
    unary main_v209 main_v216 ((extractStridedSlice S20 ![420] · slices_S440_S20_420) : FVec F S440 .f32 → _),
    nullary main_v217 (iotaInDim S20x20 32 0),
    nullary main_v218 (iotaInDim S20x20 32 1) ]

theorem w11_sub {F : FTy → Type} [FloatOps F] : (w11 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., ternary_bufs_sub .., unary_bufs_sub .., unary_bufs_sub .., reshape_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., unary_bufs_sub .., unary_bufs_sub .., nullary_bufs_sub .., nullary_bufs_sub ..⟩

theorem w11_fresh {F : FTy → Type} [FloatOps F] : ∀ op ∈ (w11 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev w11_W : List (Ref sig .tc) := [main_v197, main_v198, main_v199, main_v200, main_v201, main_v202, main_v203, main_v204, main_v205, main_v206, main_c_18, main_v207, main_v208, main_v209, main_v210, main_v211, main_call19_v0, main_call19_c, main_call19_v1, main_call19_v2, main_call19_v3, main_call19_v4, main_call19_cst, main_call19_v5, main_v212, main_call20_v0, main_call20_c, main_call20_v1, main_call20_v2, main_call20_v3, main_call20_v4, main_call20_cst, main_call20_v5, main_v213, main_v214, main_v215, main_v216, main_v217, main_v218]

theorem w11_writes : (w11 (F := Ideal)).Forall fun op => op.writes ⊆ (w11_W.map (Proc.devRef (τ := τ) .tc)).toFinset := by
  simp only [List.Forall]
  repeat' apply And.intro
  all_goals exact Finset.singleton_subset_iff.mpr (List.mem_toFinset.mpr (List.mem_map_of_mem (by decide)))

theorem keep11 (V : Valuation τ sig (Elt Ideal)) (r : Ref sig .tc) (h : r ∉ w11_W) :
    after (w11 (F := Ideal)) V (Proc.devRef .tc r) = V (Proc.devRef .tc r) :=
  after_of_writes_sub _ _ w11_writes h

end Cert.ReferenceIdeal.HandRun

end
-- ==== Proof.RefRunW11.lean ====
import proofs.«125444_j2207613190724_1_alg».proof.Proof.RefRunBase
import proofs.«125444_j2207613190724_1_alg».proof.Proof.RefRunOps11

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

variable {A : Terms.Args} {V : Valuation τ sig (Elt Ideal)}

set_option maxRecDepth 8192 in
set_option maxHeartbeats 1600000 in
theorem w11_v208 (h : Inv11 A V) :
    after (w11 (F := Ideal)) V (Proc.devRef .tc main_v208) = Terms.t_v208 A := by
  simp only [w11]
  after_results_simp
  (try simp only [TRef.toBuf, TRef.ofBuf, cast_eq, h.v182, h.v186, h.v196, h.v195, h.v178]) <;> rfl

set_option maxRecDepth 8192 in
set_option maxHeartbeats 1600000 in
theorem w11_v213 (h : Inv11 A V) :
    after (w11 (F := Ideal)) V (Proc.devRef .tc main_v213) = Terms.t_v213 A := by
  simp only [w11]
  after_results_simp
  (try simp only [TRef.toBuf, TRef.ofBuf, cast_eq, h.v23]) <;> rfl

set_option maxRecDepth 8192 in
set_option maxHeartbeats 1600000 in
theorem w11_v214 (h : Inv11 A V) :
    after (w11 (F := Ideal)) V (Proc.devRef .tc main_v214) = Terms.t_v214 A := by
  simp only [w11]
  after_results_simp
  (try simp only [TRef.toBuf, TRef.ofBuf, cast_eq, h.v23]) <;> rfl

set_option maxRecDepth 8192 in
set_option maxHeartbeats 1600000 in
theorem w11_v215 (h : Inv11 A V) :
    after (w11 (F := Ideal)) V (Proc.devRef .tc main_v215) = Terms.t_v215 A := by
  simp only [w11]
  after_results_simp
  (try simp only [TRef.toBuf, TRef.ofBuf, cast_eq, h.v23]) <;> rfl

set_option maxRecDepth 8192 in
set_option maxHeartbeats 1600000 in
theorem w11_v216 (h : Inv11 A V) :
    after (w11 (F := Ideal)) V (Proc.devRef .tc main_v216) = Terms.t_v216 A := by
  simp only [w11]
  after_results_simp
  (try simp only [TRef.toBuf, TRef.ofBuf, cast_eq, h.v23]) <;> rfl

set_option maxRecDepth 8192 in
set_option maxHeartbeats 1600000 in
theorem w11_v217 (h : Inv11 A V) :
    after (w11 (F := Ideal)) V (Proc.devRef .tc main_v217) = Terms.t_v217 A := by
  simp only [w11]
  after_results_simp
  (try simp only [TRef.toBuf, TRef.ofBuf, cast_eq]) <;> rfl

set_option maxRecDepth 8192 in
set_option maxHeartbeats 1600000 in
theorem w11_v218 (h : Inv11 A V) :
    after (w11 (F := Ideal)) V (Proc.devRef .tc main_v218) = Terms.t_v218 A := by
  simp only [w11]
  after_results_simp
  (try simp only [TRef.toBuf, TRef.ofBuf, cast_eq]) <;> rfl

theorem step11 (h : Inv11 A V) : Inv12 A (after (w11 (F := Ideal)) V) :=
  ⟨h.toArgsAt.keep w11_writes (by decide), (keep11 V main_v10 (by decide)).trans h.v10, (keep11 V main_v15 (by decide)).trans h.v15, (keep11 V main_v23 (by decide)).trans h.v23, w11_v208 h, w11_v213 h, w11_v214 h, w11_v215 h, w11_v216 h, w11_v217 h, w11_v218 h⟩

end Cert.ReferenceIdeal.HandRun

end
-- ==== Proof.RefRunOps12.lean ====
import proofs.«125444_j2207613190724_1_alg».proof.ReferenceIdeal
import Idealize.ShloMosaic.Lib.StableHlo.Run
import Idealize.ShloMosaic.PureOps.Ideal

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

abbrev w12 {F : FTy → Type} [FloatOps F] : List (HloOp τ sig (Elt F)) :=
  [ nullary main_c_19 (constantI S_ 32 0#32),
    unary main_c_19 main_v219 (broadcastInDim S20x20 ![] bcast_S_S20x20 : IVec S_ 32 → _),
    binary main_v217 main_v219 main_v220 (addi : IVec S20x20 32 → IVec S20x20 32 → _),
    binary main_v220 main_v218 main_v221 (cmpi .eq : IVec S20x20 32 → IVec S20x20 32 → _),
    unary main_v221 main_v222 (uitofp .f32 : IVec S20x20 1 → _),
    nullary main_cst_20 (constant S_ .f32 0x3F800000#32),
    unary main_cst_20 main_v223 (broadcastInDim S20x20 ![] bcast_S_S20x20 : FVec F S_ .f32 → _),
    binary main_v223 main_v222 main_v224 (subf : FVec F S20x20 .f32 → FVec F S20x20 .f32 → _),
    binary main_v213 main_v224 main_v225 (mulf : FVec F S20x20 .f32 → FVec F S20x20 .f32 → _),
    TRef.nullary main_call21.cst (constant S_ .f32 0x00000000#32),
    TRef.binary (.of main_v215) main_call21.cst main_call21.v0 (fun x v => pad S20 ![0] ![0] ![0] x v pads_S20_S20_000 h_S_),
    TRef.nullary main_call21.v1 (iotaInDim S20x20 32 0),
    TRef.nullary main_call21.v2 (iotaInDim S20x20 32 1),
    TRef.nullary main_call21.c (constantI S_ 32 0#32),
    TRef.unary main_call21.c main_call21.v3 (broadcastInDim S20x20 ![] bcast_S_S20x20),
    TRef.binary main_call21.v1 main_call21.v3 main_call21.v4 addi,
    TRef.binary main_call21.v4 main_call21.v2 main_call21.v5 (cmpi .eq),
    TRef.unary main_call21.v0 main_call21.v6 (broadcastInDim S20x1 ![0] bcast_S20_S20x1_0),
    TRef.nullary main_call21.cst_0 (constant S_ .f32 0x00000000#32),
    TRef.unary main_call21.v6 main_call21.call0.v0 (broadcastInDim S20x20 ![0, 1] bcast_S20x1_S20x20_0_1),
    TRef.unary main_call21.cst_0 main_call21.call0.v1 (broadcastInDim S20x20 ![] bcast_S_S20x20),
    TRef.ternary main_call21.v5 main_call21.call0.v0 main_call21.call0.v1 main_call21.call0.v2 select,
    binary main_v225 main_v226 main_v227 (addf : FVec F S20x20 .f32 → FVec F S20x20 .f32 → _),
    unary main_v208 main_v228 ((extractStridedSlice S16384x20 ![0, 0] · slices_S16384x64_S16384x20_0_0) : FVec F S16384x64 .f32 → _),
    unary main_v227 main_v229 ((transpose S20x20 [1, 0] · transposes_S20x20_S20x20_1_0) : FVec F S20x20 .f32 → _),
    binary main_v228 main_v229 main_v230 ((fun l r => Host.dotGeneral dot_S16384x20_S20x20_S16384x20_1_0_0_1_n_n none l r) : FVec F S16384x20 .f32 → FVec F S20x20 .f32 → _),
    unary main_v216 main_v231 (broadcastInDim S1x20 ![1] bcast_S20_S1x20_1 : FVec F S20 .f32 → _),
    unary main_v231 main_v232 (broadcastInDim S16384x20 ![0, 1] bcast_S1x20_S16384x20_0_1 : FVec F S1x20 .f32 → _),
    binary main_v230 main_v232 main_v233 (addf : FVec F S16384x20 .f32 → FVec F S16384x20 .f32 → _),
    unary main_v233 main_v234 (Host.tanh : FVec F S16384x20 .f32 → _),
    unary main_v214 main_v235 ((transpose S20x20 [1, 0] · transposes_S20x20_S20x20_1_0) : FVec F S20x20 .f32 → _),
    binary main_v234 main_v235 main_v236 ((fun l r => Host.dotGeneral dot_S16384x20_S20x20_S16384x20_1_0_0_1_n_n none l r) : FVec F S16384x20 .f32 → FVec F S20x20 .f32 → _),
    nullary main_c_21 (constantI S_ 32 0#32) ]

theorem w12_sub {F : FTy → Type} [FloatOps F] : (w12 : List (HloOp τ sig (Elt F))).Forall fun op => op.bufs ⊆ tcRefs τ sig :=
  ⟨nullary_bufs_sub .., unary_bufs_sub .., binary_bufs_sub .., binary_bufs_sub .., unary_bufs_sub .., nullary_bufs_sub .., unary_bufs_sub .., binary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub ..⟩

theorem w12_fresh {F : FTy → Type} [FloatOps F] : ∀ op ∈ (w12 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev w12_W : List (Ref sig .tc) := [main_c_19, main_v219, main_v220, main_v221, main_v222, main_cst_20, main_v223, main_v224, main_v225, main_call21_cst, main_call21_v0, main_call21_v1, main_call21_v2, main_call21_c, main_call21_v3, main_call21_v4, main_call21_v5, main_call21_v6, main_call21_cst_0, main_call21_call0_v0, main_call21_call0_v1, main_v226, main_v227, main_v228, main_v229, main_v230, main_v231, main_v232, main_v233, main_v234, main_v235, main_v236, main_c_21]

theorem w12_writes : (w12 (F := Ideal)).Forall fun op => op.writes ⊆ (w12_W.map (Proc.devRef (τ := τ) .tc)).toFinset := by
  simp only [List.Forall]
  repeat' apply And.intro
  all_goals exact Finset.singleton_subset_iff.mpr (List.mem_toFinset.mpr (List.mem_map_of_mem (by decide)))

theorem keep12 (V : Valuation τ sig (Elt Ideal)) (r : Ref sig .tc) (h : r ∉ w12_W) :
    after (w12 (F := Ideal)) V (Proc.devRef .tc r) = V (Proc.devRef .tc r) :=
  after_of_writes_sub _ _ w12_writes h

end Cert.ReferenceIdeal.HandRun

end
-- ==== Proof.RefRunW12.lean ====
import proofs.«125444_j2207613190724_1_alg».proof.Proof.RefRunBase
import proofs.«125444_j2207613190724_1_alg».proof.Proof.RefRunOps12

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

variable {A : Terms.Args} {V : Valuation τ sig (Elt Ideal)}

set_option maxRecDepth 8192 in
set_option maxHeartbeats 1600000 in
theorem w12_v236 (h : Inv12 A V) :
    after (w12 (F := Ideal)) V (Proc.devRef .tc main_v236) = Terms.t_v236 A := by
  simp only [w12]
  after_results_simp
  (try simp only [TRef.toBuf, TRef.ofBuf, cast_eq, h.v214, h.v216, h.v215, h.v218, h.v217, h.v213, h.v208]) <;> rfl

set_option maxRecDepth 8192 in
set_option maxHeartbeats 1600000 in
theorem w12_c_21 (h : Inv12 A V) :
    after (w12 (F := Ideal)) V (Proc.devRef .tc main_c_21) = Terms.t_c_21 A := by
  simp only [w12]
  after_results_simp
  (try simp only [TRef.toBuf, TRef.ofBuf, cast_eq]) <;> rfl

theorem step12 (h : Inv12 A V) : Inv13 A (after (w12 (F := Ideal)) V) :=
  ⟨h.toArgsAt.keep w12_writes (by decide), (keep12 V main_v10 (by decide)).trans h.v10, (keep12 V main_v15 (by decide)).trans h.v15, (keep12 V main_v23 (by decide)).trans h.v23, (keep12 V main_v208 (by decide)).trans h.v208, w12_v236 h, w12_c_21 h⟩

end Cert.ReferenceIdeal.HandRun

end
-- ==== Proof.RefRunOps13.lean ====
import proofs.«125444_j2207613190724_1_alg».proof.ReferenceIdeal
import Idealize.ShloMosaic.Lib.StableHlo.Run
import Idealize.ShloMosaic.PureOps.Ideal

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

abbrev w13 {F : FTy → Type} [FloatOps F] : List (HloOp τ sig (Elt F)) :=
  [ unary main_c_21 main_v237 (broadcastInDim S1 ![] bcast_S_S1 : IVec S_ 32 → _),
    ternary main_v208 main_v237 main_v236 main_v238 ((fun x i u => Host.scatter scatter_S16384x64_S1_S16384x20_01_n_1_0 FloatOps.addf x i u) : FVec F S16384x64 .f32 → IVec S1 32 → FVec F S16384x20 .f32 → _),
    unary main_v23 main_v239 ((extractStridedSlice S440 ![3080] · slices_S3520_S440_3080) : FVec F S3520 .f32 → _),
    unary main_v239 main_v240 ((extractStridedSlice S400 ![0] · slices_S440_S400_0) : FVec F S440 .f32 → _),
    reshape main_v240 main_v241 rfl shapeCasts_S400_S20x20,
    TRef.nullary main_call22.v0 (iotaInDim S20x20 32 0),
    TRef.nullary main_call22.c (constantI S_ 32 4294967295#32),
    TRef.unary main_call22.c main_call22.v1 (broadcastInDim S20x20 ![] bcast_S_S20x20),
    TRef.binary main_call22.v0 main_call22.v1 main_call22.v2 addi,
    TRef.nullary main_call22.v3 (iotaInDim S20x20 32 1),
    TRef.binary main_call22.v2 main_call22.v3 main_call22.v4 (cmpi .sge),
    TRef.nullary main_call22.cst (constant S_ .f32 0x00000000#32),
    TRef.unary main_call22.cst main_call22.v5 (broadcastInDim S20x20 ![] bcast_S_S20x20),
    TRef.ternary main_call22.v4 main_call22.v5 (.of main_v241) main_call22.v6 select,
    TRef.nullary main_call23.v0 (iotaInDim S20x20 32 0),
    TRef.nullary main_call23.c (constantI S_ 32 0#32),
    TRef.unary main_call23.c main_call23.v1 (broadcastInDim S20x20 ![] bcast_S_S20x20),
    TRef.binary main_call23.v0 main_call23.v1 main_call23.v2 addi,
    TRef.nullary main_call23.v3 (iotaInDim S20x20 32 1),
    TRef.binary main_call23.v2 main_call23.v3 main_call23.v4 (cmpi .sge),
    TRef.nullary main_call23.cst (constant S_ .f32 0x00000000#32),
    TRef.unary main_call23.cst main_call23.v5 (broadcastInDim S20x20 ![] bcast_S_S20x20),
    TRef.ternary main_call23.v4 (.of main_v241) main_call23.v5 main_call23.v6 select,
    unary main_v243 main_v244 ((transpose S20x20 [1, 0] · transposes_S20x20_S20x20_1_0) : FVec F S20x20 .f32 → _),
    unary main_v239 main_v245 ((extractStridedSlice S20 ![400] · slices_S440_S20_400) : FVec F S440 .f32 → _),
    unary main_v239 main_v246 ((extractStridedSlice S20 ![420] · slices_S440_S20_420) : FVec F S440 .f32 → _),
    nullary main_v247 (iotaInDim S20x20 32 0),
    nullary main_v248 (iotaInDim S20x20 32 1),
    nullary main_c_22 (constantI S_ 32 0#32),
    unary main_c_22 main_v249 (broadcastInDim S20x20 ![] bcast_S_S20x20 : IVec S_ 32 → _),
    binary main_v247 main_v249 main_v250 (addi : IVec S20x20 32 → IVec S20x20 32 → _),
    binary main_v250 main_v248 main_v251 (cmpi .eq : IVec S20x20 32 → IVec S20x20 32 → _),
    unary main_v251 main_v252 (uitofp .f32 : IVec S20x20 1 → _) ]

theorem w13_sub {F : FTy → Type} [FloatOps F] : (w13 : List (HloOp τ sig (Elt F))).Forall fun op => op.bufs ⊆ tcRefs τ sig :=
  ⟨unary_bufs_sub .., ternary_bufs_sub .., unary_bufs_sub .., unary_bufs_sub .., reshape_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., unary_bufs_sub .., unary_bufs_sub .., nullary_bufs_sub .., nullary_bufs_sub .., nullary_bufs_sub .., unary_bufs_sub .., binary_bufs_sub .., binary_bufs_sub .., unary_bufs_sub ..⟩

theorem w13_fresh {F : FTy → Type} [FloatOps F] : ∀ op ∈ (w13 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev w13_W : List (Ref sig .tc) := [main_v237, main_v238, main_v239, main_v240, main_v241, main_call22_v0, main_call22_c, main_call22_v1, main_call22_v2, main_call22_v3, main_call22_v4, main_call22_cst, main_call22_v5, main_v242, main_call23_v0, main_call23_c, main_call23_v1, main_call23_v2, main_call23_v3, main_call23_v4, main_call23_cst, main_call23_v5, main_v243, main_v244, main_v245, main_v246, main_v247, main_v248, main_c_22, main_v249, main_v250, main_v251, main_v252]

theorem w13_writes : (w13 (F := Ideal)).Forall fun op => op.writes ⊆ (w13_W.map (Proc.devRef (τ := τ) .tc)).toFinset := by
  simp only [List.Forall]
  repeat' apply And.intro
  all_goals exact Finset.singleton_subset_iff.mpr (List.mem_toFinset.mpr (List.mem_map_of_mem (by decide)))

theorem keep13 (V : Valuation τ sig (Elt Ideal)) (r : Ref sig .tc) (h : r ∉ w13_W) :
    after (w13 (F := Ideal)) V (Proc.devRef .tc r) = V (Proc.devRef .tc r) :=
  after_of_writes_sub _ _ w13_writes h

end Cert.ReferenceIdeal.HandRun

end
-- ==== Proof.RefRunW13.lean ====
import proofs.«125444_j2207613190724_1_alg».proof.Proof.RefRunBase
import proofs.«125444_j2207613190724_1_alg».proof.Proof.RefRunOps13

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

variable {A : Terms.Args} {V : Valuation τ sig (Elt Ideal)}

set_option maxRecDepth 8192 in
set_option maxHeartbeats 1600000 in
theorem w13_v238 (h : Inv13 A V) :
    after (w13 (F := Ideal)) V (Proc.devRef .tc main_v238) = Terms.t_v238 A := by
  simp only [w13]
  after_results_simp
  (try simp only [TRef.toBuf, TRef.ofBuf, cast_eq, h.v236, h.c_21, h.v208]) <;> rfl

set_option maxRecDepth 8192 in
set_option maxHeartbeats 1600000 in
theorem w13_v242 (h : Inv13 A V) :
    after (w13 (F := Ideal)) V (Proc.devRef .tc main_v242) = Terms.t_v242 A := by
  simp only [w13]
  after_results_simp
  (try simp only [TRef.toBuf, TRef.ofBuf, cast_eq, h.v23]) <;> rfl

set_option maxRecDepth 8192 in
set_option maxHeartbeats 1600000 in
theorem w13_v244 (h : Inv13 A V) :
    after (w13 (F := Ideal)) V (Proc.devRef .tc main_v244) = Terms.t_v244 A := by
  simp only [w13]
  after_results_simp
  (try simp only [TRef.toBuf, TRef.ofBuf, cast_eq, h.v23]) <;> rfl

set_option maxRecDepth 8192 in
set_option maxHeartbeats 1600000 in
theorem w13_v245 (h : Inv13 A V) :
    after (w13 (F := Ideal)) V (Proc.devRef .tc main_v245) = Terms.t_v245 A := by
  simp only [w13]
  after_results_simp
  (try simp only [TRef.toBuf, TRef.ofBuf, cast_eq, h.v23]) <;> rfl

set_option maxRecDepth 8192 in
set_option maxHeartbeats 1600000 in
theorem w13_v246 (h : Inv13 A V) :
    after (w13 (F := Ideal)) V (Proc.devRef .tc main_v246) = Terms.t_v246 A := by
  simp only [w13]
  after_results_simp
  (try simp only [TRef.toBuf, TRef.ofBuf, cast_eq, h.v23]) <;> rfl

set_option maxRecDepth 8192 in
set_option maxHeartbeats 1600000 in
theorem w13_v252 (h : Inv13 A V) :
    after (w13 (F := Ideal)) V (Proc.devRef .tc main_v252) = Terms.t_v252 A := by
  simp only [w13]
  after_results_simp
  (try simp only [TRef.toBuf, TRef.ofBuf, cast_eq]) <;> rfl

theorem step13 (h : Inv13 A V) : Inv14 A (after (w13 (F := Ideal)) V) :=
  ⟨h.toArgsAt.keep w13_writes (by decide), (keep13 V main_v10 (by decide)).trans h.v10, (keep13 V main_v15 (by decide)).trans h.v15, w13_v238 h, w13_v242 h, w13_v244 h, w13_v245 h, w13_v246 h, w13_v252 h⟩

end Cert.ReferenceIdeal.HandRun

end
-- ==== Proof.RefRunOps14.lean ====
import proofs.«125444_j2207613190724_1_alg».proof.ReferenceIdeal
import Idealize.ShloMosaic.Lib.StableHlo.Run
import Idealize.ShloMosaic.PureOps.Ideal

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

abbrev w14 {F : FTy → Type} [FloatOps F] : List (HloOp τ sig (Elt F)) :=
  [ nullary main_cst_23 (constant S_ .f32 0x3F800000#32),
    unary main_cst_23 main_v253 (broadcastInDim S20x20 ![] bcast_S_S20x20 : FVec F S_ .f32 → _),
    binary main_v253 main_v252 main_v254 (subf : FVec F S20x20 .f32 → FVec F S20x20 .f32 → _),
    binary main_v244 main_v254 main_v255 (mulf : FVec F S20x20 .f32 → FVec F S20x20 .f32 → _),
    TRef.nullary main_call24.cst (constant S_ .f32 0x00000000#32),
    TRef.binary (.of main_v245) main_call24.cst main_call24.v0 (fun x v => pad S20 ![0] ![0] ![0] x v pads_S20_S20_000 h_S_),
    TRef.nullary main_call24.v1 (iotaInDim S20x20 32 0),
    TRef.nullary main_call24.v2 (iotaInDim S20x20 32 1),
    TRef.nullary main_call24.c (constantI S_ 32 0#32),
    TRef.unary main_call24.c main_call24.v3 (broadcastInDim S20x20 ![] bcast_S_S20x20),
    TRef.binary main_call24.v1 main_call24.v3 main_call24.v4 addi,
    TRef.binary main_call24.v4 main_call24.v2 main_call24.v5 (cmpi .eq),
    TRef.unary main_call24.v0 main_call24.v6 (broadcastInDim S20x1 ![0] bcast_S20_S20x1_0),
    TRef.nullary main_call24.cst_0 (constant S_ .f32 0x00000000#32),
    TRef.unary main_call24.v6 main_call24.call0.v0 (broadcastInDim S20x20 ![0, 1] bcast_S20x1_S20x20_0_1),
    TRef.unary main_call24.cst_0 main_call24.call0.v1 (broadcastInDim S20x20 ![] bcast_S_S20x20),
    TRef.ternary main_call24.v5 main_call24.call0.v0 main_call24.call0.v1 main_call24.call0.v2 select,
    binary main_v255 main_v256 main_v257 (addf : FVec F S20x20 .f32 → FVec F S20x20 .f32 → _),
    unary main_v238 main_v258 ((extractStridedSlice S16384x20 ![0, 0] · slices_S16384x64_S16384x20_0_0) : FVec F S16384x64 .f32 → _),
    unary main_v257 main_v259 ((transpose S20x20 [1, 0] · transposes_S20x20_S20x20_1_0) : FVec F S20x20 .f32 → _),
    binary main_v258 main_v259 main_v260 ((fun l r => Host.dotGeneral dot_S16384x20_S20x20_S16384x20_1_0_0_1_n_n none l r) : FVec F S16384x20 .f32 → FVec F S20x20 .f32 → _),
    unary main_v246 main_v261 (broadcastInDim S1x20 ![1] bcast_S20_S1x20_1 : FVec F S20 .f32 → _),
    unary main_v261 main_v262 (broadcastInDim S16384x20 ![0, 1] bcast_S1x20_S16384x20_0_1 : FVec F S1x20 .f32 → _),
    binary main_v260 main_v262 main_v263 (addf : FVec F S16384x20 .f32 → FVec F S16384x20 .f32 → _),
    unary main_v263 main_v264 (Host.tanh : FVec F S16384x20 .f32 → _),
    unary main_v242 main_v265 ((transpose S20x20 [1, 0] · transposes_S20x20_S20x20_1_0) : FVec F S20x20 .f32 → _),
    binary main_v264 main_v265 main_v266 ((fun l r => Host.dotGeneral dot_S16384x20_S20x20_S16384x20_1_0_0_1_n_n none l r) : FVec F S16384x20 .f32 → FVec F S20x20 .f32 → _),
    nullary main_c_24 (constantI S_ 32 0#32),
    unary main_c_24 main_v267 (broadcastInDim S1 ![] bcast_S_S1 : IVec S_ 32 → _),
    ternary main_v238 main_v267 main_v266 main_v268 ((fun x i u => Host.scatter scatter_S16384x64_S1_S16384x20_01_n_1_0 FloatOps.addf x i u) : FVec F S16384x64 .f32 → IVec S1 32 → FVec F S16384x20 .f32 → _),
    unary main_arg10 main_v269 ((transpose S64x400 [1, 0] · transposes_S400x64_S64x400_1_0) : FVec F S400x64 .f32 → _),
    binary main_v268 main_v269 main_v270 ((fun l r => Host.dotGeneral dot_S16384x64_S64x400_S16384x400_1_0_0_1_n_n none l r) : FVec F S16384x64 .f32 → FVec F S64x400 .f32 → _),
    unary main_arg11 main_v271 (broadcastInDim S1x400 ![1] bcast_S400_S1x400_1 : FVec F S400 .f32 → _),
    unary main_v271 main_v272 (broadcastInDim S16384x400 ![0, 1] bcast_S1x400_S16384x400_0_1 : FVec F S1x400 .f32 → _) ]

theorem w14_sub {F : FTy → Type} [FloatOps F] : (w14 : List (HloOp τ sig (Elt F))).Forall fun op => op.bufs ⊆ tcRefs τ sig :=
  ⟨nullary_bufs_sub .., unary_bufs_sub .., binary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., ternary_bufs_sub .., unary_bufs_sub .., binary_bufs_sub .., unary_bufs_sub .., unary_bufs_sub ..⟩

theorem w14_fresh {F : FTy → Type} [FloatOps F] : ∀ op ∈ (w14 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev w14_W : List (Ref sig .tc) := [main_cst_23, main_v253, main_v254, main_v255, main_call24_cst, main_call24_v0, main_call24_v1, main_call24_v2, main_call24_c, main_call24_v3, main_call24_v4, main_call24_v5, main_call24_v6, main_call24_cst_0, main_call24_call0_v0, main_call24_call0_v1, main_v256, main_v257, main_v258, main_v259, main_v260, main_v261, main_v262, main_v263, main_v264, main_v265, main_v266, main_c_24, main_v267, main_v268, main_v269, main_v270, main_v271, main_v272]

theorem w14_writes : (w14 (F := Ideal)).Forall fun op => op.writes ⊆ (w14_W.map (Proc.devRef (τ := τ) .tc)).toFinset := by
  simp only [List.Forall]
  repeat' apply And.intro
  all_goals exact Finset.singleton_subset_iff.mpr (List.mem_toFinset.mpr (List.mem_map_of_mem (by decide)))

theorem keep14 (V : Valuation τ sig (Elt Ideal)) (r : Ref sig .tc) (h : r ∉ w14_W) :
    after (w14 (F := Ideal)) V (Proc.devRef .tc r) = V (Proc.devRef .tc r) :=
  after_of_writes_sub _ _ w14_writes h

end Cert.ReferenceIdeal.HandRun

end
-- ==== Proof.RefRunW14.lean ====
import proofs.«125444_j2207613190724_1_alg».proof.Proof.RefRunBase
import proofs.«125444_j2207613190724_1_alg».proof.Proof.RefRunOps14

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

variable {A : Terms.Args} {V : Valuation τ sig (Elt Ideal)}

set_option maxRecDepth 8192 in
set_option maxHeartbeats 1600000 in
theorem w14_v270 (h : Inv14 A V) :
    after (w14 (F := Ideal)) V (Proc.devRef .tc main_v270) = Terms.t_v270 A := by
  simp only [w14]
  after_results_simp
  (try simp only [TRef.toBuf, TRef.ofBuf, cast_eq, h.arg10, h.v242, h.v246, h.v245, h.v252, h.v244, h.v238]) <;> rfl

set_option maxRecDepth 8192 in
set_option maxHeartbeats 1600000 in
theorem w14_v272 (h : Inv14 A V) :
    after (w14 (F := Ideal)) V (Proc.devRef .tc main_v272) = Terms.t_v272 A := by
  simp only [w14]
  after_results_simp
  (try simp only [TRef.toBuf, TRef.ofBuf, cast_eq, h.arg11]) <;> rfl

theorem step14 (h : Inv14 A V) : Inv15 A (after (w14 (F := Ideal)) V) :=
  ⟨h.toArgsAt.keep w14_writes (by decide), (keep14 V main_v10 (by decide)).trans h.v10, (keep14 V main_v15 (by decide)).trans h.v15, w14_v270 h, w14_v272 h⟩

end Cert.ReferenceIdeal.HandRun

end
-- ==== Proof.RefRunOps15.lean ====
import proofs.«125444_j2207613190724_1_alg».proof.ReferenceIdeal
import Idealize.ShloMosaic.Lib.StableHlo.Run
import Idealize.ShloMosaic.PureOps.Ideal

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

abbrev w15 {F : FTy → Type} [FloatOps F] : List (HloOp τ sig (Elt F)) :=
  [ binary main_v270 main_v272 main_v273 (addf : FVec F S16384x400 .f32 → FVec F S16384x400 .f32 → _),
    TRef.nullary main_call25.cst (constant S_ .f32 0x00000000#32),
    TRef.unary main_call25.cst main_call25.v0 (broadcastInDim S16384x400 ![] bcast_S_S16384x400),
    TRef.binary (.of main_v273) main_call25.v0 main_call25.v1 maximumf,
    unary main_arg12 main_v275 ((transpose S400x4096 [1, 0] · transposes_S4096x400_S400x4096_1_0) : FVec F S4096x400 .f32 → _),
    binary main_v274 main_v275 main_v276 ((fun l r => Host.dotGeneral dot_S16384x400_S400x4096_S16384x4096_1_0_0_1_n_n none l r) : FVec F S16384x400 .f32 → FVec F S400x4096 .f32 → _),
    unary main_arg13 main_v277 (broadcastInDim S1x4096 ![1] bcast_S4096_S1x4096_1 : FVec F S4096 .f32 → _),
    unary main_v277 main_v278 (broadcastInDim S16384x4096 ![0, 1] bcast_S1x4096_S16384x4096_0_1 : FVec F S1x4096 .f32 → _),
    binary main_v276 main_v278 main_v279 (addf : FVec F S16384x4096 .f32 → FVec F S16384x4096 .f32 → _) ]

theorem w15_sub {F : FTy → Type} [FloatOps F] : (w15 : List (HloOp τ sig (Elt F))).Forall fun op => op.bufs ⊆ tcRefs τ sig :=
  ⟨binary_bufs_sub .., nullary_bufs_sub .., unary_bufs_sub .., binary_bufs_sub .., unary_bufs_sub .., binary_bufs_sub .., unary_bufs_sub .., unary_bufs_sub .., binary_bufs_sub ..⟩

theorem w15_fresh {F : FTy → Type} [FloatOps F] : ∀ op ∈ (w15 : List (HloOp τ sig (Elt F))), op.fresh = ∅ :=
  List.forall_iff_forall_mem.mp ⟨rfl, rfl, rfl, rfl, rfl, rfl, rfl, rfl, rfl⟩

abbrev w15_W : List (Ref sig .tc) := [main_v273, main_call25_cst, main_call25_v0, main_v274, main_v275, main_v276, main_v277, main_v278, main_v279]

theorem w15_writes : (w15 (F := Ideal)).Forall fun op => op.writes ⊆ (w15_W.map (Proc.devRef (τ := τ) .tc)).toFinset := by
  simp only [List.Forall]
  repeat' apply And.intro
  all_goals exact Finset.singleton_subset_iff.mpr (List.mem_toFinset.mpr (List.mem_map_of_mem (by decide)))

theorem keep15 (V : Valuation τ sig (Elt Ideal)) (r : Ref sig .tc) (h : r ∉ w15_W) :
    after (w15 (F := Ideal)) V (Proc.devRef .tc r) = V (Proc.devRef .tc r) :=
  after_of_writes_sub _ _ w15_writes h

end Cert.ReferenceIdeal.HandRun

end
-- ==== Proof.RefRunW15.lean ====
import proofs.«125444_j2207613190724_1_alg».proof.Proof.RefRunBase
import proofs.«125444_j2207613190724_1_alg».proof.Proof.RefRunOps15

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable [Facts]

variable {A : Terms.Args} {V : Valuation τ sig (Elt Ideal)}

set_option maxRecDepth 8192 in
set_option maxHeartbeats 1600000 in
theorem w15_v279 (h : Inv15 A V) :
    after (w15 (F := Ideal)) V (Proc.devRef .tc main_v279) = Terms.t_v279 A := by
  simp only [w15]
  after_results_simp
  (try simp only [TRef.toBuf, TRef.ofBuf, cast_eq, h.arg13, h.arg12, h.v272, h.v270]) <;> rfl

theorem step15 (h : Inv15 A V) : Inv16 A (after (w15 (F := Ideal)) V) :=
  ⟨h.toArgsAt.keep w15_writes (by decide), (keep15 V main_v10 (by decide)).trans h.v10, (keep15 V main_v15 (by decide)).trans h.v15, w15_v279 h⟩

end Cert.ReferenceIdeal.HandRun

end
-- ==== Proof.RefRunPart0.lean ====
import proofs.«125444_j2207613190724_1_alg».proof.Proof.RefRunOps00
import proofs.«125444_j2207613190724_1_alg».proof.Proof.RefRunOps01
import proofs.«125444_j2207613190724_1_alg».proof.Proof.RefRunOps02

noncomputable section

namespace Cert.ReferenceIdeal.HandRun

open Cert.ReferenceIdeal Idealize.ShloMosaic Idealize.ShloMosaic.TcCoe Idealize.SL.Sem Idealize.ShloMosaic.StableHlo

variable [Facts]

abbrev p0 {F : FTy → Type} [FloatOps F] : List (HloOp τ sig (Elt F)) := w00 ++ (w01 ++ w02)

set_option maxRecDepth 65536 in

theorem part0_eq {F : FTy → Type} [FloatOps F] (c : Dev nD) : main_part0 (F := F) c = seq (p0 (F := F)) := rfl

end Cert.ReferenceIdeal.HandRun

end
-- ==== Proof.RefRunPart1.lean ====
import proofs.«125444_j2207613190724_1_alg».proof.Proof.RefRunOps03
import proofs.«125444_j2207613190724_1_alg».proof.Proof.RefRunOps04
import proofs.«125444_j2207613190724_1_alg».proof.Proof.RefRunOps05

noncomputable section

namespace Cert.ReferenceIdeal.HandRun

open Cert.ReferenceIdeal Idealize.ShloMosaic Idealize.ShloMosaic.TcCoe Idealize.SL.Sem Idealize.ShloMosaic.StableHlo

variable [Facts]

abbrev p1 {F : FTy → Type} [FloatOps F] : List (HloOp τ sig (Elt F)) := w03 ++ (w04 ++ w05)

set_option maxRecDepth 65536 in

theorem part1_eq {F : FTy → Type} [FloatOps F] (c : Dev nD) : main_part1 (F := F) c = seq (p1 (F := F)) := rfl

end Cert.ReferenceIdeal.HandRun

end
-- ==== Proof.RefRunPart2.lean ====
import proofs.«125444_j2207613190724_1_alg».proof.Proof.RefRunOps06
import proofs.«125444_j2207613190724_1_alg».proof.Proof.RefRunOps07
import proofs.«125444_j2207613190724_1_alg».proof.Proof.RefRunOps08

noncomputable section

namespace Cert.ReferenceIdeal.HandRun

open Cert.ReferenceIdeal Idealize.ShloMosaic Idealize.ShloMosaic.TcCoe Idealize.SL.Sem Idealize.ShloMosaic.StableHlo

variable [Facts]

abbrev p2 {F : FTy → Type} [FloatOps F] : List (HloOp τ sig (Elt F)) := w06 ++ (w07 ++ w08)

set_option maxRecDepth 65536 in

theorem part2_eq {F : FTy → Type} [FloatOps F] (c : Dev nD) : main_part2 (F := F) c = seq (p2 (F := F)) := rfl

end Cert.ReferenceIdeal.HandRun

end
-- ==== Proof.RefRunPart3.lean ====
import proofs.«125444_j2207613190724_1_alg».proof.Proof.RefRunOps09
import proofs.«125444_j2207613190724_1_alg».proof.Proof.RefRunOps10
import proofs.«125444_j2207613190724_1_alg».proof.Proof.RefRunOps11

noncomputable section

namespace Cert.ReferenceIdeal.HandRun

open Cert.ReferenceIdeal Idealize.ShloMosaic Idealize.ShloMosaic.TcCoe Idealize.SL.Sem Idealize.ShloMosaic.StableHlo

variable [Facts]

abbrev p3 {F : FTy → Type} [FloatOps F] : List (HloOp τ sig (Elt F)) := w09 ++ (w10 ++ w11)

set_option maxRecDepth 65536 in

theorem part3_eq {F : FTy → Type} [FloatOps F] (c : Dev nD) : main_part3 (F := F) c = seq (p3 (F := F)) := rfl

end Cert.ReferenceIdeal.HandRun

end
-- ==== Proof.RefRunPart4.lean ====
import proofs.«125444_j2207613190724_1_alg».proof.Proof.RefRunOps12
import proofs.«125444_j2207613190724_1_alg».proof.Proof.RefRunOps13
import proofs.«125444_j2207613190724_1_alg».proof.Proof.RefRunOps14

noncomputable section

namespace Cert.ReferenceIdeal.HandRun

open Cert.ReferenceIdeal Idealize.ShloMosaic Idealize.ShloMosaic.TcCoe Idealize.SL.Sem Idealize.ShloMosaic.StableHlo

variable [Facts]

abbrev p4 {F : FTy → Type} [FloatOps F] : List (HloOp τ sig (Elt F)) := w12 ++ (w13 ++ w14)

set_option maxRecDepth 65536 in

theorem part4_eq {F : FTy → Type} [FloatOps F] (c : Dev nD) : main_part4 (F := F) c = seq (p4 (F := F)) := rfl

end Cert.ReferenceIdeal.HandRun

end
-- ==== Proof.RefRunPart5.lean ====
import proofs.«125444_j2207613190724_1_alg».proof.Proof.RefRunOps15

noncomputable section

namespace Cert.ReferenceIdeal.HandRun

open Cert.ReferenceIdeal Idealize.ShloMosaic Idealize.ShloMosaic.TcCoe Idealize.SL.Sem Idealize.ShloMosaic.StableHlo

variable [Facts]

abbrev p5 {F : FTy → Type} [FloatOps F] : List (HloOp τ sig (Elt F)) := w15

set_option maxRecDepth 65536 in

theorem part5_eq {F : FTy → Type} [FloatOps F] (c : Dev nD) : main_part5 (F := F) c = seq (p5 (F := F)) := rfl

end Cert.ReferenceIdeal.HandRun

end
-- ==== Proof.RefRun.lean ====
import proofs.«125444_j2207613190724_1_alg».proof.Proof.RefRunW00
import proofs.«125444_j2207613190724_1_alg».proof.Proof.RefRunW01
import proofs.«125444_j2207613190724_1_alg».proof.Proof.RefRunW02
import proofs.«125444_j2207613190724_1_alg».proof.Proof.RefRunW03
import proofs.«125444_j2207613190724_1_alg».proof.Proof.RefRunW04
import proofs.«125444_j2207613190724_1_alg».proof.Proof.RefRunW05
import proofs.«125444_j2207613190724_1_alg».proof.Proof.RefRunW06
import proofs.«125444_j2207613190724_1_alg».proof.Proof.RefRunW07
import proofs.«125444_j2207613190724_1_alg».proof.Proof.RefRunW08
import proofs.«125444_j2207613190724_1_alg».proof.Proof.RefRunW09
import proofs.«125444_j2207613190724_1_alg».proof.Proof.RefRunW10
import proofs.«125444_j2207613190724_1_alg».proof.Proof.RefRunW11
import proofs.«125444_j2207613190724_1_alg».proof.Proof.RefRunW12
import proofs.«125444_j2207613190724_1_alg».proof.Proof.RefRunW13
import proofs.«125444_j2207613190724_1_alg».proof.Proof.RefRunW14
import proofs.«125444_j2207613190724_1_alg».proof.Proof.RefRunW15
import proofs.«125444_j2207613190724_1_alg».proof.Proof.RefRunPart0
import proofs.«125444_j2207613190724_1_alg».proof.Proof.RefRunPart1
import proofs.«125444_j2207613190724_1_alg».proof.Proof.RefRunPart2
import proofs.«125444_j2207613190724_1_alg».proof.Proof.RefRunPart3
import proofs.«125444_j2207613190724_1_alg».proof.Proof.RefRunPart4
import proofs.«125444_j2207613190724_1_alg».proof.Proof.RefRunPart5

noncomputable section

namespace Cert.ReferenceIdeal.HandRun

open Cert.ReferenceIdeal Idealize.ShloMosaic Idealize.ShloMosaic.TcCoe Idealize.SL.Sem Idealize.ShloMosaic.StableHlo

variable [Facts]

abbrev ops {F : FTy → Type} [FloatOps F] : List (HloOp τ sig (Elt F)) := p0 ++ (p1 ++ (p2 ++ (p3 ++ (p4 ++ p5))))

theorem main_eq (c : Dev nD) : main (F := Ideal) c = seq (ops (F := Ideal)) := by
  unfold main
  rw [part0_eq, part1_eq, part2_eq, part3_eq, part4_eq, part5_eq]
  rw [← seq_append, ← seq_append, ← seq_append, ← seq_append, ← seq_append]

theorem scopedRefs_eq : (Finset.univ.filter fun b : Ref sig .tc => b.isScoped) = ∅ := by decide

theorem scopedSems_eq : (Finset.univ.filter fun sm : SemLoc sig => sm.isScoped .tc) = ∅ := by decide

theorem fresh_app {Val : EltTy → Type} {l₁ l₂ : List (HloOp τ sig Val)} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

theorem ops_sub {F : FTy → Type} [FloatOps F] : (ops : List (HloOp τ sig (Elt F))).Forall fun op => op.bufs ⊆ tcRefs τ sig :=
  forall_app (forall_app w00_sub (forall_app w01_sub w02_sub)) (forall_app (forall_app w03_sub (forall_app w04_sub w05_sub)) (forall_app (forall_app w06_sub (forall_app w07_sub w08_sub)) (forall_app (forall_app w09_sub (forall_app w10_sub w11_sub)) (forall_app (forall_app w12_sub (forall_app w13_sub w14_sub)) (w15_sub)))))

theorem ops_fresh {F : FTy → Type} [FloatOps F] : ∀ op ∈ (ops : List (HloOp τ sig (Elt F))), op.fresh = ∅ :=
  fresh_app (fresh_app w00_fresh (fresh_app w01_fresh w02_fresh)) (fresh_app (fresh_app w03_fresh (fresh_app w04_fresh w05_fresh)) (fresh_app (fresh_app w06_fresh (fresh_app w07_fresh w08_fresh)) (fresh_app (fresh_app w09_fresh (fresh_app w10_fresh w11_fresh)) (fresh_app (fresh_app w12_fresh (fresh_app w13_fresh w14_fresh)) (w15_fresh)))))

theorem inv_final (V0 : Valuation τ sig (Elt Ideal)) : Inv16 (argsOfV V0) (after (ops (F := Ideal)) V0) := by
  have h := step15 (step14 (step13 (step12 (step11 (step10 (step09 (step08 (step07 (step06 (step05 (step04 (step03 (step02 (step01 (step00 (inv0 V0))))))))))))))))
  simp only [ops, p0, p1, p2, p3, p4, p5, after_app]
  exact h

def argsOf (m : (ℓ : Loc nD τ sig) → Buf (Elt Ideal) ℓ) (c : Dev nD) : Terms.Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13)⟩

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v279) = Terms.t_v279 (argsOf m c)
      ∧ r.2.mem ((c.tc : Thread nD τ).loc main_v10) = Terms.t_v10 (argsOf m c)
      ∧ r.2.mem ((c.tc : Thread nD τ).loc main_v15) = Terms.t_v15 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run _ _ _).mono (fun _ h c =>
    have hI := inv_final (launchContents m c)
    ⟨(h c main_v279).trans hI.v279, (h c main_v10).trans hI.v10, (h c main_v15).trans hI.v15,
      (h c main_arg0).trans hI.arg0, (h c main_arg1).trans hI.arg1, (h c main_arg2).trans hI.arg2, (h c main_arg3).trans hI.arg3, (h c main_arg4).trans hI.arg4, (h c main_arg5).trans hI.arg5, (h c main_arg6).trans hI.arg6, (h c main_arg7).trans hI.arg7, (h c main_arg8).trans hI.arg8, (h c main_arg9).trans hI.arg9, (h c main_arg10).trans hI.arg10, (h c main_arg11).trans hI.arg11, (h c main_arg12).trans hI.arg12, (h c main_arg13).trans hI.arg13⟩)
    (run_seq scopedRefs_eq scopedSems_eq defs main (fun _ => ops) main_eq (fun _ => ops_sub) m ρ (fun _ => ops_fresh))

end Cert.ReferenceIdeal.HandRun

end
-- ==== Proof.RefEncDec.lean ====
import proofs.«125444_j2207613190724_1_alg».proof.ReferenceIdeal
import proofs.«125444_j2207613190724_1_alg».proof.Proof.Whole
import proofs.«125444_j2207613190724_1_alg».proof.Proof.LibPlainDot
import Idealize.ShloMosaic.PureOps.Ideal.Laws
import Idealize.ShloMosaic.Lib.ValueLayout

noncomputable section

namespace Cert.ReferenceIdeal.Read

open Idealize.ShloMosaic Idealize.ShloMosaic.ValueIdx Cert.Sylvester Facts₀

variable [Facts₀]

theorem dot_transpose_apply {R K C : ℕ} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (htr : (⟨2, ![C, K]⟩ : Shape).Transposes [1, 0] ⟨2, ![K, C]⟩)
    (l : FVec Ideal ⟨2, ![R, K]⟩ .f32) (W : FVec Ideal ⟨2, ![C, K]⟩ .f32) (p : Fin R) (q : Fin C) :
    Host.dotGeneral (F := Ideal) (φ₁ := .f32) (φ₂ := .f32) d none l (transpose ⟨2, ![K, C]⟩ [1, 0] W htr) (ix2 p q)
      = ∑ k : Fin K, l (ix2 p k) * W (ix2 q k) := by
  simp only [Host.dotGeneral]
  rw [Ideal.dotGeneral_apply, PlainDot.sum_eq d hlb hln hlc hrb hrn hrc]
  exact Finset.sum_congr rfl fun k _ => by rw [transpose_ix2_apply]

theorem bias_apply {α : Type} {R C : ℕ}
    (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2))
    (b : (⟨1, ![C]⟩ : Shape).Idx → α) (p : Fin R) (q : Fin C) :
    broadcastInDim ⟨2, ![R, C]⟩ ![0, 1] h2 (broadcastInDim ⟨2, ![1, C]⟩ ![1] h1 b) (ix2 p q) = b (ix1 q) := by
  have hq : q.val = if C = 1 then 0 else q.val := by
    have := q.isLt
    split <;> omega
  refine (broadcastInDim_apply _ h2 _ _ (ix2 (⟨0, Nat.one_pos⟩ : Fin 1) q) fun a => ?_).trans
    (broadcastInDim_apply _ h1 b _ (ix1 q) fun a => ?_)
  · match a with
    | ⟨0, _⟩ => rfl
    | ⟨1, _⟩ => exact hq
  · match a with
    | ⟨0, _⟩ => exact hq

theorem affine_apply {R K C : ℕ} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (htr : (⟨2, ![C, K]⟩ : Shape).Transposes [1, 0] ⟨2, ![K, C]⟩)
    (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2))
    (l : FVec Ideal ⟨2, ![R, K]⟩ .f32) (W : FVec Ideal ⟨2, ![C, K]⟩ .f32) (bias : FVec Ideal ⟨1, ![C]⟩ .f32)
    (p : Fin R) (q : Fin C) :
    addf (F := Ideal) (φ := .f32) (Host.dotGeneral (F := Ideal) (φ₁ := .f32) (φ₂ := .f32) d none l (transpose ⟨2, ![K, C]⟩ [1, 0] W htr))
        (broadcastInDim ⟨2, ![R, C]⟩ ![0, 1] h2 (broadcastInDim ⟨2, ![1, C]⟩ ![1] h1 bias)) (ix2 p q)
      = (∑ k : Fin K, l (ix2 p k) * W (ix2 q k)) + bias (ix1 q) := by
  rw [addf_apply, dot_transpose_apply d hlb hln hlc hrb hrn hrc, bias_apply]

theorem relu_apply {s : Shape} (h0 : S_.BroadcastsInDim s (![] : Fin 0 → Fin s.rank)) (v : FVec Ideal s .f32) (i : s.Idx) :
    maximumf (F := Ideal) (φ := .f32) v (broadcastInDim s ![] h0 (constant (F := Ideal) S_ .f32 0x00000000#32)) i = max (v i) 0 := by
  show max (v i) (Ideal.ofBits .f32 0x00000000#32) = max (v i) 0
  rw [Ideal.ofBits_zero_f32]

theorem ofBits_16384 : Ideal.ofBits .f32 0x46800000#32 = ((16384 : ℝ) : EReal) := by
  simp [Ideal.ofBits, Ideal.ieee, -EReal.coe_mul]; norm_num

theorem hidden_apply (x : Vec Ideal S16384x4096 .f32) (W1 : Vec Ideal S400x4096 .f32) (b1 : Vec Ideal S400 .f32)
    (b : Fin 16384) (j : Fin 400) :
    maximumf (F := Ideal) (φ := .f32)
        (addf (F := Ideal) (φ := .f32) (Host.dotGeneral (F := Ideal) (φ₁ := .f32) (φ₂ := .f32) dot_S16384x4096_S4096x400_S16384x400_1_0_0_1_n_n none x
            (transpose S4096x400 [1, 0] W1 transposes_S400x4096_S4096x400_1_0))
          (broadcastInDim S16384x400 ![0, 1] bcast_S1x400_S16384x400_0_1 (broadcastInDim S1x400 ![1] bcast_S400_S1x400_1 b1)))
        (broadcastInDim S16384x400 ![] bcast_S_S16384x400 (constant (F := Ideal) S_ .f32 0x00000000#32)) (ix2 b j)
      = hiddenRow (cur2 x b) (cur2 W1) (cur1 b1) j := by
  refine (relu_apply _ _ _).trans ?_
  rw [affine_apply _ rfl rfl rfl rfl rfl rfl]
  rfl

theorem affine64_apply (h : Vec Ideal S16384x400 .f32) (W : Vec Ideal S64x400 .f32) (bias : Vec Ideal S64 .f32)
    (b : Fin 16384) (n : Fin 64) :
    addf (F := Ideal) (φ := .f32) (Host.dotGeneral (F := Ideal) (φ₁ := .f32) (φ₂ := .f32) dot_S16384x400_S400x64_S16384x64_1_0_0_1_n_n none h
          (transpose S400x64 [1, 0] W transposes_S64x400_S400x64_1_0))
        (broadcastInDim S16384x64 ![0, 1] bcast_S1x64_S16384x64_0_1 (broadcastInDim S1x64 ![1] bcast_S64_S1x64_1 bias)) (ix2 b n)
      = affineRow (cur2 h b) (cur2 W) (cur1 bias) n := by
  rw [affine_apply _ rfl rfl rfl rfl rfl rfl]
  rfl

theorem affine3520_apply (h : Vec Ideal S16384x400 .f32) (W : Vec Ideal S3520x400 .f32) (bias : Vec Ideal S3520 .f32)
    (b : Fin 16384) (n : Fin 3520) :
    addf (F := Ideal) (φ := .f32) (Host.dotGeneral (F := Ideal) (φ₁ := .f32) (φ₂ := .f32) dot_S16384x400_S400x3520_S16384x3520_1_0_0_1_n_n none h
          (transpose S400x3520 [1, 0] W transposes_S3520x400_S400x3520_1_0))
        (broadcastInDim S16384x3520 ![0, 1] bcast_S1x3520_S16384x3520_0_1 (broadcastInDim S1x3520 ![1] bcast_S3520_S1x3520_1 bias)) (ix2 b n)
      = affineRow (cur2 h b) (cur2 W) (cur1 bias) n := by
  rw [affine_apply _ rfl rfl rfl rfl rfl rfl]
  rfl

/-- Dividing the column sum by 16384 is multiplying it by 1/16384 on every extended real. -/
theorem flowMean_apply (v : Vec Ideal S16384x3520 .f32) (p : Fin 3520) :
    Host.divf (F := Ideal) (φ := .f32) (Host.reduceAdd (F := Ideal) (φ := .f32) v (constant (F := Ideal) S_ .f32 0x00000000#32) reducesTo_S16384x3520_S3520_d0 h_S_)
        (broadcastInDim S3520 ![] bcast_S_S3520 (constant (F := Ideal) S_ .f32 0x46800000#32)) (ix1 p)
      = (∑ b : Fin 16384, v (ix2 b p)) * ((1 / 16384 : ℝ) : EReal) := by
  have hR : S16384x3520.Reduces [0] S3520 := by decide
  show Ideal.div (Ideal.hostReduceAdd reducesTo_S16384x3520_S3520_d0 v (Ideal.ofBits .f32 0x00000000#32) (ix1 p))
      (Ideal.ofBits .f32 0x46800000#32) = _
  rw [Ideal.hostReduceAdd_single _ hR, Ideal.ofBits_zero_f32, zero_add, ofBits_16384, Ideal.div_coe (by norm_num)]
  have key : (∑ k, v (hR.lift (ix1 p) k)) = ∑ b : Fin 16384, v (ix2 b p) := by
    refine Finset.sum_congr rfl fun k _ => congrArg v ?_
    funext a
    apply Fin.ext
    match a with
    | ⟨0, _⟩ => rfl
    | ⟨1, _⟩ => rfl
  rw [key]

theorem latent_apply (eps lv mu : Vec Ideal S16384x64 .f32) (b : Fin 16384) (n : Fin 64) :
    addf (F := Ideal) (φ := .f32) (mulf (F := Ideal) (φ := .f32) eps (Host.exp (F := Ideal) (φ := .f32) (mulf (F := Ideal) (φ := .f32) (broadcastInDim S16384x64 ![] bcast_S_S16384x64 (constant (F := Ideal) S_ .f32 0x3F000000#32)) lv))) mu (ix2 b n)
      = latentRow (cur2 eps b) (cur2 lv b) (cur2 mu b) n := by
  rfl

theorem decode_apply (z : Vec Ideal S16384x64 .f32) (W3 : Vec Ideal S400x64 .f32) (b3 : Vec Ideal S400 .f32)
    (W4 : Vec Ideal S4096x400 .f32) (b4 : Vec Ideal S4096 .f32) (b : Fin 16384) (d : Fin 4096) :
    addf (F := Ideal) (φ := .f32) (Host.dotGeneral (F := Ideal) (φ₁ := .f32) (φ₂ := .f32) dot_S16384x400_S400x4096_S16384x4096_1_0_0_1_n_n none
          (maximumf (F := Ideal) (φ := .f32)
            (addf (F := Ideal) (φ := .f32) (Host.dotGeneral (F := Ideal) (φ₁ := .f32) (φ₂ := .f32) dot_S16384x64_S64x400_S16384x400_1_0_0_1_n_n none z
                (transpose S64x400 [1, 0] W3 transposes_S400x64_S64x400_1_0))
              (broadcastInDim S16384x400 ![0, 1] bcast_S1x400_S16384x400_0_1 (broadcastInDim S1x400 ![1] bcast_S400_S1x400_1 b3)))
            (broadcastInDim S16384x400 ![] bcast_S_S16384x400 (constant (F := Ideal) S_ .f32 0x00000000#32)))
          (transpose S400x4096 [1, 0] W4 transposes_S4096x400_S400x4096_1_0))
        (broadcastInDim S16384x4096 ![0, 1] bcast_S1x4096_S16384x4096_0_1 (broadcastInDim S1x4096 ![1] bcast_S4096_S1x4096_1 b4)) (ix2 b d)
      = decodeRow (cur2 z b) (cur2 W3) (cur1 b3) (cur2 W4) (cur1 b4) d := by
  rw [affine_apply _ rfl rfl rfl rfl rfl rfl]
  unfold decodeRow
  refine congrArg (· + _) (Finset.sum_congr rfl fun j _ => congrArg (· * _) ?_)
  refine (relu_apply _ _ _).trans ?_
  rw [affine_apply _ rfl rfl rfl rfl rfl rfl]

end Cert.ReferenceIdeal.Read

end
-- ==== Proof.RefEncDecTerms.lean ====
import proofs.«125444_j2207613190724_1_alg».proof.Proof.RefTerms
import proofs.«125444_j2207613190724_1_alg».proof.Proof.RefEncDec

noncomputable section

namespace Cert.ReferenceIdeal.Read

open Idealize.ShloMosaic Idealize.ShloMosaic.ValueIdx Cert.Sylvester Facts₀ Cert.ReferenceIdeal.Terms

variable [Facts]

theorem hidden_eq (A : Terms.Args) (b : Fin 16384) (j : Fin 400) :
    Terms.t_v5 A (ix2 b j) = hiddenRow (cur2 A.x b) (cur2 A.W1) (cur1 A.b1) j := by
  unfold t_v5 t_call0_v0 t_call0_cst t_v4 t_v3 t_v2 t_v1 t_v0
  exact hidden_apply A.x A.W1 A.b1 b j

theorem hidden_row_eq (A : Terms.Args) (b : Fin 16384) :
    cur2 (Terms.t_v5 A) b = hiddenRow (cur2 A.x b) (cur2 A.W1) (cur1 A.b1) :=
  funext fun j => hidden_eq A b j

theorem mu_eq (A : Terms.Args) : Terms.t_v10 A = Sylvester.affineArr A.x A.W1 A.b1 A.W21 A.b21 := by
  funext i
  obtain ⟨b, n, rfl⟩ : ∃ (b : Fin 16384) (n : Fin 64), i = ix2 b n := ⟨i 0, i 1, eq_ix2 i⟩
  unfold t_v10 t_v9 t_v8 t_v7 t_v6
  rw [affine64_apply, hidden_row_eq]
  rfl

theorem logvar_eq (A : Terms.Args) : Terms.t_v15 A = Sylvester.affineArr A.x A.W1 A.b1 A.W22 A.b22 := by
  funext i
  obtain ⟨b, n, rfl⟩ : ∃ (b : Fin 16384) (n : Fin 64), i = ix2 b n := ⟨i 0, i 1, eq_ix2 i⟩
  unfold t_v15 t_v14 t_v13 t_v12 t_v11
  rw [affine64_apply, hidden_row_eq]
  rfl

theorem flow_eq (A : Terms.Args) (p : Fin 3520) :
    Terms.t_v23 A (ix1 p) = Sylvester.flowVec A.x A.W1 A.b1 A.W23 A.b23 p := by
  unfold t_v23 t_v22 t_cst_0 t_v21 t_cst
  rw [flowMean_apply]
  unfold flowVec flowMean
  refine congrArg (fun s : EReal => s * (((1 / 16384 : ℝ) : ℝ) : EReal)) (Finset.sum_congr rfl fun b _ => ?_)
  unfold t_v20 t_v19 t_v18 t_v17 t_v16
  rw [affine3520_apply, hidden_row_eq]

theorem latent_eq (A : Terms.Args) (b : Fin 16384) (n : Fin 64) :
    Terms.t_v28 A (ix2 b n)
      = Sylvester.latentRow (cur2 A.eps b) (cur2 (Terms.t_v15 A) b) (cur2 (Terms.t_v10 A) b) n := by
  unfold t_v28 t_v27 t_v26 t_v25 t_v24 t_cst_1
  exact latent_apply A.eps (t_v15 A) (t_v10 A) b n

theorem decode_eq (A : Terms.Args) (b : Fin 16384) (d : Fin 4096) :
    Terms.t_v279 A (ix2 b d)
      = Sylvester.decodeRow (cur2 (Terms.t_v268 A) b) (cur2 A.W3) (cur1 A.b3) (cur2 A.W4) (cur1 A.b4) d := by
  unfold t_v279 t_v278 t_v277 t_v276 t_v275 t_v274 t_call25_v0 t_call25_cst t_v273 t_v272 t_v271 t_v270 t_v269
  exact decode_apply (t_v268 A) A.W3 A.b3 A.W4 A.b4 b d

end Cert.ReferenceIdeal.Read

end
-- ==== Proof.RefStepOps.lean ====
import proofs.«125444_j2207613190724_1_alg».proof.Proof.Whole
import proofs.«125444_j2207613190724_1_alg».proof.Proof.LibPlainDot
import Idealize.ShloMosaic.Lib.IdealHost

noncomputable section

open scoped BigOperators

namespace Cert.ReferenceIdeal.Step

open Idealize.ShloMosaic Idealize.ShloMosaic.ValueIdx Cert.Sylvester

abbrev T0 : Shape := ⟨0, ![]⟩
abbrev T1 : Shape := ⟨1, ![1]⟩
abbrev T20 : Shape := ⟨1, ![20]⟩
abbrev T400 : Shape := ⟨1, ![400]⟩
abbrev T440 : Shape := ⟨1, ![440]⟩
abbrev T3520 : Shape := ⟨1, ![3520]⟩
abbrev T20x20 : Shape := ⟨2, ![20, 20]⟩
abbrev T20x1 : Shape := ⟨2, ![20, 1]⟩
abbrev T1x20 : Shape := ⟨2, ![1, 20]⟩
abbrev TBx20 : Shape := ⟨2, ![16384, 20]⟩
abbrev TBx64 : Shape := ⟨2, ![16384, 64]⟩

theorem sl_440_400 : T440.Slices ![0] T400 := by decide
theorem sl_440_v : T440.Slices ![400] T20 := by decide
theorem sl_440_b : T440.Slices ![420] T20 := by decide
theorem sc_400 : T400.ShapeCasts T20x20 := by decide
theorem bc_0_20x20 : T0.BroadcastsInDim T20x20 (![] : Fin 0 → Fin T20x20.rank) := by decide
theorem bc_0_1 : T0.BroadcastsInDim T1 (![] : Fin 0 → Fin T1.rank) := by decide
theorem tr_20x20 : T20x20.Transposes [1, 0] T20x20 := by decide
theorem pd_20 : T20.Pads (![0] : Fin 1 → Nat) ![0] ![0] T20 := by decide
theorem pos_0 : 0 < T0.numel := by decide
theorem bc_20_20x1 : T20.BroadcastsInDim T20x1 (![0] : Fin 1 → Fin T20x1.rank) := by decide
theorem bc_20x1_20x20 : T20x1.BroadcastsInDim T20x20 (![0, 1] : Fin 2 → Fin T20x20.rank) := by decide
theorem sl_z : TBx64.Slices ![0, 0] TBx20 := by decide
theorem bc_20_1x20 : T20.BroadcastsInDim T1x20 (![1] : Fin 1 → Fin T1x20.rank) := by decide
theorem bc_1x20_Bx20 : T1x20.BroadcastsInDim TBx20 (![0, 1] : Fin 2 → Fin TBx20.rank) := by decide

def sq (P : FVec Ideal T440 .f32) : FVec Ideal T20x20 .f32 :=
  shapeCast T20x20 (extractStridedSlice T400 ![0] P sl_440_400) sc_400

def triu (M : FVec Ideal T20x20 .f32) : FVec Ideal T20x20 .f32 :=
  select (cmpi .sge (addi (iotaInDim T20x20 32 0) (broadcastInDim T20x20 ![] bc_0_20x20 (constantI T0 32 4294967295#32)))
      (iotaInDim T20x20 32 1))
    (broadcastInDim T20x20 ![] bc_0_20x20 (constant T0 .f32 0x00000000#32)) M

def tril (M : FVec Ideal T20x20 .f32) : FVec Ideal T20x20 .f32 :=
  select (cmpi .sge (addi (iotaInDim T20x20 32 0) (broadcastInDim T20x20 ![] bc_0_20x20 (constantI T0 32 0#32)))
      (iotaInDim T20x20 32 1))
    M (broadcastInDim T20x20 ![] bc_0_20x20 (constant T0 .f32 0x00000000#32))

def eyeMask : IVec T20x20 1 :=
  cmpi .eq (addi (iotaInDim T20x20 32 0) (broadcastInDim T20x20 ![] bc_0_20x20 (constantI T0 32 0#32))) (iotaInDim T20x20 32 1)

def offDiag : FVec Ideal T20x20 .f32 :=
  subf (broadcastInDim T20x20 ![] bc_0_20x20 (constant T0 .f32 0x3F800000#32)) (uitofp .f32 eyeMask)

def diagM (v : FVec Ideal T20 .f32) : FVec Ideal T20x20 .f32 :=
  select eyeMask
    (broadcastInDim T20x20 ![0, 1] bc_20x1_20x20
      (broadcastInDim T20x1 ![0] bc_20_20x1 (pad T20 ![0] ![0] ![0] v (constant (F := Ideal) T0 .f32 0x00000000#32) pd_20 pos_0)))
    (broadcastInDim T20x20 ![] bc_0_20x20 (constant T0 .f32 0x00000000#32))

def vSlice (P : FVec Ideal T440 .f32) : FVec Ideal T20 .f32 := extractStridedSlice T20 ![400] P sl_440_v
def bSlice (P : FVec Ideal T440 .f32) : FVec Ideal T20 .f32 := extractStridedSlice T20 ![420] P sl_440_b

def outerEven (P : FVec Ideal T440 .f32) : FVec Ideal T20x20 .f32 := transpose T20x20 [1, 0] (triu (sq P)) tr_20x20
def outerOdd (P : FVec Ideal T440 .f32) : FVec Ideal T20x20 .f32 := triu (sq P)

def innerEven (P : FVec Ideal T440 .f32) : FVec Ideal T20x20 .f32 :=
  addf (mulf (tril (sq P)) offDiag) (diagM (vSlice P))
def innerOdd (P : FVec Ideal T440 .f32) : FVec Ideal T20x20 .f32 :=
  addf (mulf (transpose T20x20 [1, 0] (tril (sq P)) tr_20x20) offDiag) (diagM (vSlice P))

def updOf (d : DotDims TBx20 T20x20 TBx20) (Rh R : FVec Ideal T20x20 .f32) (bias : FVec Ideal T20 .f32)
    (z : FVec Ideal TBx64 .f32) : FVec Ideal TBx20 .f32 :=
  Host.dotGeneral d none
    (Host.tanh (addf (Host.dotGeneral d none (extractStridedSlice TBx20 ![0, 0] z sl_z) (transpose T20x20 [1, 0] Rh tr_20x20))
      (broadcastInDim TBx20 ![0, 1] bc_1x20_Bx20 (broadcastInDim T1x20 ![1] bc_20_1x20 bias))))
    (transpose T20x20 [1, 0] R tr_20x20)

def scatterOf (sd : ScatterDims TBx64 T1 TBx20) (z : FVec Ideal TBx64 .f32) (u : FVec Ideal TBx20 .f32) : FVec Ideal TBx64 .f32 :=
  Host.scatter sd FloatOps.addf z (broadcastInDim T1 ![] bc_0_1 (constantI T0 32 0#32)) u

def evenStep (d : DotDims TBx20 T20x20 TBx20) (sd : ScatterDims TBx64 T1 TBx20) (P : FVec Ideal T440 .f32)
    (z : FVec Ideal TBx64 .f32) : FVec Ideal TBx64 .f32 :=
  scatterOf sd z (updOf d (innerEven P) (outerEven P) (bSlice P) z)
def oddStep (d : DotDims TBx20 T20x20 TBx20) (sd : ScatterDims TBx64 T1 TBx20) (P : FVec Ideal T440 .f32)
    (z : FVec Ideal TBx64 .f32) : FVec Ideal TBx64 .f32 :=
  scatterOf sd z (updOf d (innerOdd P) (outerOdd P) (bSlice P) z)

theorem paramSlice_at (o : Nat) (hb : o + 440 ≤ 3520) (h : T3520.Slices ![o] T440) (flow : FVec Ideal T3520 .f32) (i : Fin 440) :
    extractStridedSlice T440 ![o] flow h (ix1 i) = flow (ix1 ⟨o + i.val, by have := i.isLt; omega⟩) := by
  unfold extractStridedSlice
  exact congrArg flow (funext fun a => match a with | ⟨0, _⟩ => rfl)

theorem paramSlice_eq (k : Fin 8) (o : Nat) (ho : o = 440 * k.val) (h : T3520.Slices ![o] T440) (flow : FVec Ideal T3520 .f32) :
    cur1 (extractStridedSlice T440 ![o] flow h) = paramSlice (cur1 flow) k := by
  subst ho
  funext i
  show extractStridedSlice T440 ![440 * k.val] flow h (ix1 i) = _
  rw [paramSlice_at _ (by have := k.isLt; omega) h flow i]
  rfl

theorem mask_above (r c : Fin 20) :
    IntOp.cmpi .sge (IntOp.addi (BitVec.ofNat 32 r.val) 4294967295#32) (BitVec.ofNat 32 c.val) = if r.val ≤ c.val then 0#1 else 1#1 := by
  revert r c; decide +kernel

theorem mask_below (r c : Fin 20) :
    IntOp.cmpi .sge (IntOp.addi (BitVec.ofNat 32 r.val) 0#32) (BitVec.ofNat 32 c.val) = if c.val ≤ r.val then 1#1 else 0#1 := by
  revert r c; decide +kernel

theorem mask_eye (r c : Fin 20) :
    IntOp.cmpi .eq (IntOp.addi (BitVec.ofNat 32 r.val) 0#32) (BitVec.ofNat 32 c.val) = if r = c then 1#1 else 0#1 := by
  revert r c; decide +kernel

theorem eyeMask_at (r c : Fin 20) : eyeMask (ix2 r c) = if r = c then 1#1 else 0#1 := mask_eye r c

theorem zeros_at (i : T20x20.Idx) : broadcastInDim T20x20 ![] bc_0_20x20 (constant (F := Ideal) T0 .f32 0x00000000#32) i = 0 :=
  Ideal.ofBits_zero_f32

theorem transpose_at {α : Type} (X : T20x20.Idx → α) (r c : Fin 20) :
    transpose T20x20 [1, 0] X tr_20x20 (ix2 r c) = X (ix2 c r) := by
  unfold transpose
  exact congrArg X (funext fun a => match a with | ⟨0, _⟩ => rfl | ⟨1, _⟩ => rfl)

theorem bcast_col_at {α : Type} (Y : T20x1.Idx → α) (r c : Fin 20) :
    broadcastInDim T20x20 ![0, 1] bc_20x1_20x20 Y (ix2 r c) = Y (ix2 r (0 : Fin 1)) := by
  unfold broadcastInDim
  exact congrArg Y (funext fun a => match a with | ⟨0, _⟩ => rfl | ⟨1, _⟩ => rfl)

theorem bcast_vec_col_at {α : Type} (W : T20.Idx → α) (r : Fin 20) (u : Fin 1) :
    broadcastInDim T20x1 ![0] bc_20_20x1 W (ix2 r u) = W (ix1 r) := by
  unfold broadcastInDim
  exact congrArg W (funext fun a => match a with | ⟨0, _⟩ => rfl)

theorem bcast_row_at {α : Type} (W : T20.Idx → α) (b : Fin 16384) (j : Fin 20) :
    broadcastInDim TBx20 ![0, 1] bc_1x20_Bx20 (broadcastInDim T1x20 ![1] bc_20_1x20 W) (ix2 b j) = W (ix1 j) := by
  unfold broadcastInDim
  exact congrArg W (funext fun a => match a with | ⟨0, _⟩ => rfl)

theorem pad_at {α : Type} (v : T20.Idx → α) (c : T0.Idx → α) (r : Fin 20) :
    pad T20 ![0] ![0] ![0] v c pd_20 pos_0 (ix1 r) = v (ix1 r) := by
  unfold pad
  have hin : ∀ a : Fin T20.rank, (![0] : Fin 1 → Nat) a ≤ ((ix1 r : T20.Idx) (a.cast pd_20.1)).val
      ∧ (((ix1 r : T20.Idx) (a.cast pd_20.1)).val - (![0] : Fin 1 → Nat) a) % ((![0] : Fin 1 → Nat) a + 1) = 0
      ∧ (((ix1 r : T20.Idx) (a.cast pd_20.1)).val - (![0] : Fin 1 → Nat) a) / ((![0] : Fin 1 → Nat) a + 1) < T20.size a :=
    fun a => match a with
      | ⟨0, _⟩ => ⟨Nat.zero_le _, Nat.mod_one _, by show (r.val - 0) / 1 < 20; rw [Nat.div_one]; have := r.isLt; omega⟩
  rw [dif_pos hin]
  exact congrArg v (funext fun a => match a with | ⟨0, _⟩ => Fin.ext (by show (r.val - 0) / 1 = r.val; rw [Nat.div_one]; rfl))

theorem zslice_at {α : Type} (z : TBx64.Idx → α) (b : Fin 16384) (i : Fin 20) :
    extractStridedSlice TBx20 ![0, 0] z sl_z (ix2 b i) = z (ix2 b ⟨i.val, by have := i.isLt; omega⟩) := by
  unfold extractStridedSlice
  exact congrArg z (funext fun a => match a with | ⟨0, _⟩ => Fin.ext (Nat.zero_add _) | ⟨1, _⟩ => Fin.ext (Nat.zero_add _))

theorem one_sub_one : (1 : EReal) - 1 = 0 := by
  have h : ((1 : ℝ) : EReal) - ((1 : ℝ) : EReal) = ((0 : ℝ) : EReal) := by rw [← EReal.coe_sub, sub_self]
  simpa using h

theorem bit_one : FloatOps.uitofp (F := Ideal) .f32 (1#1 : BitVec 1) = 1 := by
  show (((1#1 : BitVec 1).toNat : ℝ) : EReal) = 1
  simp

theorem bit_zero : FloatOps.uitofp (F := Ideal) .f32 (0#1 : BitVec 1) = 0 := by
  show (((0#1 : BitVec 1).toNat : ℝ) : EReal) = 0
  simp

theorem sq_at (P : FVec Ideal T440 .f32) (r c : Fin 20) : sq P (ix2 r c) = sqM (cur1 P) r c := by
  unfold sq shapeCast
  have hk : Shape.reshapeEquiv sc_400 (ix2 r c) = (ix1 ⟨20 * r.val + c.val, by have := r.isLt; have := c.isLt; omega⟩ : T400.Idx) :=
    Shape.reshapeEquiv_eq_of_rowMajor sc_400 (by
      rw [Shape.rowMajor_val_one, Shape.rowMajor_val_two]
      show 20 * r.val + c.val = r.val * 20 + c.val
      omega)
  rw [hk]
  unfold extractStridedSlice
  exact congrArg P (funext fun a => match a with | ⟨0, _⟩ => Fin.ext (Nat.zero_add _))

theorem triu_at (M : FVec Ideal T20x20 .f32) (r c : Fin 20) :
    triu M (ix2 r c) = if r.val ≤ c.val then M (ix2 r c) else 0 := by
  unfold triu
  rw [select_apply, zeros_at]
  show Scalar.select (IntOp.cmpi .sge (IntOp.addi (BitVec.ofNat 32 r.val) 4294967295#32) (BitVec.ofNat 32 c.val)) 0 (M (ix2 r c)) = _
  rw [mask_above]
  split_ifs
  · exact select_zero _ _
  · exact select_one _ _

theorem tril_at (M : FVec Ideal T20x20 .f32) (r c : Fin 20) :
    tril M (ix2 r c) = if c.val ≤ r.val then M (ix2 r c) else 0 := by
  unfold tril
  rw [select_apply, zeros_at]
  show Scalar.select (IntOp.cmpi .sge (IntOp.addi (BitVec.ofNat 32 r.val) 0#32) (BitVec.ofNat 32 c.val)) (M (ix2 r c)) 0 = _
  rw [mask_below]
  split_ifs
  · exact select_one _ _
  · exact select_zero _ _

theorem upper_at (P : FVec Ideal T440 .f32) (r c : Fin 20) : triu (sq P) (ix2 r c) = upper (cur1 P) r c := by
  rw [triu_at, sq_at]; rfl

theorem lower_at (P : FVec Ideal T440 .f32) (r c : Fin 20) : tril (sq P) (ix2 r c) = lower (cur1 P) r c := by
  rw [tril_at, sq_at]; rfl

theorem offDiag_at (r c : Fin 20) : offDiag (ix2 r c) = if r = c then 0 else 1 := by
  unfold offDiag
  show Ideal.ofBits .f32 0x3F800000#32 - FloatOps.uitofp (F := Ideal) .f32 (eyeMask (ix2 r c)) = _
  rw [Ideal.ofBits_one_f32, eyeMask_at]
  split_ifs
  · rw [bit_one, one_sub_one]
  · rw [bit_zero, sub_zero]

theorem diagM_at (v : FVec Ideal T20 .f32) (r c : Fin 20) : diagM v (ix2 r c) = if r = c then v (ix1 r) else 0 := by
  unfold diagM
  rw [select_apply, zeros_at, eyeMask_at]
  split_ifs
  · rw [select_one, bcast_col_at, bcast_vec_col_at, pad_at]
  · exact select_zero _ _

theorem vSlice_at (P : FVec Ideal T440 .f32) (j : Fin 20) :
    vSlice P (ix1 j) = cur1 P ⟨400 + j.val, by have := j.isLt; omega⟩ := by
  unfold vSlice extractStridedSlice
  exact congrArg P (funext fun a => match a with | ⟨0, _⟩ => rfl)

theorem bSlice_at (P : FVec Ideal T440 .f32) (j : Fin 20) : bSlice P (ix1 j) = biasV (cur1 P) j := by
  unfold bSlice extractStridedSlice
  exact congrArg P (funext fun a => match a with | ⟨0, _⟩ => rfl)

theorem outerEven_at (P : FVec Ideal T440 .f32) (r c : Fin 20) : outerEven P (ix2 r c) = outerM true (cur1 P) r c := by
  unfold outerEven
  rw [transpose_at, upper_at]
  rfl

theorem outerOdd_at (P : FVec Ideal T440 .f32) (r c : Fin 20) : outerOdd P (ix2 r c) = outerM false (cur1 P) r c := by
  unfold outerOdd
  rw [upper_at]
  rfl

/-- L · (1 − I) + diag v has v on the diagonal and L off it: x · 1 = x, x · 0 = 0, x + 0 = x on the entries. -/
theorem innerEven_at (P : FVec Ideal T440 .f32) (r c : Fin 20) : innerEven P (ix2 r c) = innerM true (cur1 P) r c := by
  unfold innerEven
  show tril (sq P) (ix2 r c) * offDiag (ix2 r c) + diagM (vSlice P) (ix2 r c) = _
  rw [lower_at, offDiag_at, diagM_at, vSlice_at]
  unfold innerM
  by_cases h : r = c
  · rw [if_pos h, if_pos h, if_pos h, mul_zero, zero_add]
  · rw [if_neg h, if_neg h, if_neg h, mul_one, add_zero]; rfl

theorem innerOdd_at (P : FVec Ideal T440 .f32) (r c : Fin 20) : innerOdd P (ix2 r c) = innerM false (cur1 P) r c := by
  unfold innerOdd
  show transpose T20x20 [1, 0] (tril (sq P)) tr_20x20 (ix2 r c) * offDiag (ix2 r c) + diagM (vSlice P) (ix2 r c) = _
  rw [transpose_at, lower_at, offDiag_at, diagM_at, vSlice_at]
  unfold innerM
  by_cases h : r = c
  · rw [if_pos h, if_pos h, if_pos h, mul_zero, zero_add]
  · rw [if_neg h, if_neg h, if_neg h, mul_one, add_zero]; rfl

section Products
variable (d : DotDims TBx20 T20x20 TBx20)
  (hlb : d.lhsBatch = []) (hln : d.lhsNonContracting = [0]) (hlc : d.lhsContracting = [1])
  (hrb : d.rhsBatch = []) (hrn : d.rhsNonContracting = [1]) (hrc : d.rhsContracting = [0])

include hlb hln hlc hrb hrn hrc in

theorem upd_at (even : Bool) (P : FVec Ideal T440 .f32) (Rh R : FVec Ideal T20x20 .f32)
    (hRh : ∀ r c, Rh (ix2 r c) = innerM even (cur1 P) r c) (hR : ∀ r c, R (ix2 r c) = outerM even (cur1 P) r c)
    (z : FVec Ideal TBx64 .f32) (b : Fin 16384) (n : Fin 20) :
    updOf d Rh R (bSlice P) z (ix2 b n) = updRow even (cur1 P) (cur2 z b) n := by
  have hpre : ∀ j : Fin 20,
      Host.tanh (addf (Host.dotGeneral d none (extractStridedSlice TBx20 ![0, 0] z sl_z) (transpose T20x20 [1, 0] Rh tr_20x20))
        (broadcastInDim TBx20 ![0, 1] bc_1x20_Bx20 (broadcastInDim T1x20 ![1] bc_20_1x20 (bSlice P)))) (ix2 b j)
      = Ideal.tanh (preRow even (cur1 P) (cur2 z b) j) := by
    intro j
    show Ideal.tanh (FloatOps.dotGeneral d none .single (extractStridedSlice TBx20 ![0, 0] z sl_z) (transpose T20x20 [1, 0] Rh tr_20x20) (ix2 b j)
      + broadcastInDim TBx20 ![0, 1] bc_1x20_Bx20 (broadcastInDim T1x20 ![1] bc_20_1x20 (bSlice P)) (ix2 b j)) = _
    rw [Ideal.dotGeneral_apply, PlainDot.sum_eq d hlb hln hlc hrb hrn hrc, bcast_row_at, bSlice_at]
    unfold preRow
    refine congrArg Ideal.tanh (congrArg (· + biasV (cur1 P) j) (Finset.sum_congr rfl fun i _ => ?_))
    rw [zslice_at, transpose_at, hRh]
  unfold updOf
  show FloatOps.dotGeneral d none .single _ _ (ix2 b n) = _
  rw [Ideal.dotGeneral_apply, PlainDot.sum_eq d hlb hln hlc hrb hrn hrc]
  unfold updRow
  refine Finset.sum_congr rfl fun j _ => ?_
  rw [hpre j, transpose_at, hR]

end Products

section Fold
variable {ι κ α : Type} (g : κ → Option ι) (v : κ → α) (f : α → α → α) (step : (ι → α) → κ → ι → α) (i : ι)

theorem fold_miss (hmiss : ∀ r n, g n ≠ some i → step r n i = r i) :
    ∀ (l : List κ) (x : ι → α), (∀ n ∈ l, g n ≠ some i) → l.foldl step x i = x i := by
  intro l
  induction l with
  | nil => intro x _; rfl
  | cons n l ih =>
    intro x h
    rw [List.foldl_cons, ih _ (fun m hm => h m (List.mem_cons_of_mem _ hm)), hmiss x n (h n List.mem_cons_self)]

theorem fold_hit (hmiss : ∀ r n, g n ≠ some i → step r n i = r i)
    (hhit : ∀ r n, g n = some i → step r n i = f (r i) (v n)) (n₀ : κ) (h₀ : g n₀ = some i) :
    ∀ (l : List κ) (x : ι → α), l.Nodup → n₀ ∈ l → (∀ m ∈ l, g m = some i → m = n₀) → l.foldl step x i = f (x i) (v n₀) := by
  intro l
  induction l with
  | nil => intro x _ h; exact absurd h List.not_mem_nil
  | cons n l ih =>
    intro x hnd hmem huniq
    rw [List.foldl_cons]
    by_cases hn : n = n₀
    · subst hn
      have hnot : ∀ m ∈ l, g m ≠ some i := fun m hm e => by
        have hmn := huniq m (List.mem_cons_of_mem _ hm) e
        subst hmn
        exact (List.nodup_cons.1 hnd).1 hm
      rw [fold_miss g step i hmiss l _ hnot, hhit x n h₀]
    · have hmem' : n₀ ∈ l := by
        rcases List.mem_cons.1 hmem with h | h
        · exact absurd h.symm hn
        · exact h
      have hgn : g n ≠ some i := fun e => hn (huniq n List.mem_cons_self e)
      rw [ih _ (List.nodup_cons.1 hnd).2 hmem' (fun m hm => huniq m (List.mem_cons_of_mem _ hm)), hmiss x n hgn]

end Fold

section ScatterRead
variable {s si u : Shape} {w : Nat} {α : Type} (d : ScatterDims s si u) (f : α → α → α) (x : s.Idx → α) (idx : IVec si w)
  (upd : u.Idx → α) (i : s.Idx)

theorem scatter_miss (h : ∀ j, d.resultIdx? j idx ≠ some i) : Host.scatter d f x idx upd i = x i := by
  unfold Host.scatter
  refine fold_miss (fun n => d.resultIdx? (u.rowMajor.symm n) idx) _ i ?_ _ x (fun n _ => h _)
  intro r n hn
  generalize d.resultIdx? (u.rowMajor.symm n) idx = o at hn ⊢
  cases o with
  | none => rfl
  | some i' => exact if_neg fun e => hn (congrArg some e.symm)

theorem scatter_hit (j₀ : u.Idx) (h₀ : d.resultIdx? j₀ idx = some i) (huniq : ∀ j, d.resultIdx? j idx = some i → j = j₀) :
    Host.scatter d f x idx upd i = f (x i) (upd j₀) := by
  unfold Host.scatter
  refine (fold_hit (fun n => d.resultIdx? (u.rowMajor.symm n) idx) (fun n => upd (u.rowMajor.symm n)) f _ i ?_ ?_ (u.rowMajor j₀)
    (by rw [Equiv.symm_apply_apply]; exact h₀) _ x (List.nodup_finRange _) (List.mem_finRange _)
    (fun m _ hm => by rw [← huniq _ hm, Equiv.apply_symm_apply])).trans ?_
  · intro r n hn
    generalize d.resultIdx? (u.rowMajor.symm n) idx = o at hn ⊢
    cases o with
    | none => rfl
    | some i' => exact if_neg fun e => hn (congrArg some e.symm)
  · intro r n hn
    generalize d.resultIdx? (u.rowMajor.symm n) idx = o at hn ⊢
    cases o with
    | none => exact absurd hn (by simp)
    | some i' =>
      have e : i' = i := Option.some.inj hn
      subst e
      exact if_pos rfl
  · rw [Equiv.symm_apply_apply]

end ScatterRead

abbrev idx0 : IVec T1 32 := broadcastInDim T1 ![] bc_0_1 (constantI T0 32 0#32)

def emb (j : TBx20.Idx) : TBx64.Idx := ix2 (j 0) ⟨(j 1).val, by have := idx2_lt1 j; omega⟩

theorem emb_injective : Function.Injective emb := by
  intro j j' h
  funext a
  match a with
  | ⟨0, _⟩ => exact congrFun h ⟨0, by decide⟩
  | ⟨1, _⟩ =>
    have h1 : (emb j ⟨1, by decide⟩).val = (emb j' ⟨1, by decide⟩).val := congrArg Fin.val (congrFun h ⟨1, by decide⟩)
    exact Fin.ext h1

theorem emb_col_lt (j : TBx20.Idx) : (emb j 1).val < 20 := idx2_lt1 j

theorem resultIdx_eq (sd : ScatterDims TBx64 T1 TBx20)
    (huw : sd.updateWindowDims = [0, 1]) (hiw : sd.insertedWindowDims = []) (hsd : sd.scatterDimsToOperandDims = [1])
    (hiv : sd.indexVectorDim = 0) (j : TBx20.Idx) : sd.resultIdx? j idx0 = some (emb j) := by
  obtain ⟨uw, iw, sdo, iv, wf⟩ := sd
  simp only at huw hiw hsd hiv
  subst huw hiw hsd hiv
  have hstart : ∀ a, ScatterDims.start ⟨[0, 1], [], [1], 0, wf⟩ j idx0 a = 0 := by
    intro a
    unfold ScatterDims.start
    split_ifs <;> rfl
  have hwin : ∀ a : Fin 2, ScatterDims.window ⟨[0, 1], [], [1], 0, wf⟩ j a = (j a).val := by
    intro a
    match a with
    | ⟨0, _⟩ => rfl
    | ⟨1, _⟩ => rfl
  unfold ScatterDims.resultIdx?
  have hin : ∀ a : Fin TBx64.rank, 0 ≤ ScatterDims.start ⟨[0, 1], [], [1], 0, wf⟩ j idx0 a + (ScatterDims.window ⟨[0, 1], [], [1], 0, wf⟩ j a : Int)
      ∧ ScatterDims.start ⟨[0, 1], [], [1], 0, wf⟩ j idx0 a + (ScatterDims.window ⟨[0, 1], [], [1], 0, wf⟩ j a : Int) < TBx64.size a := by
    intro a
    rw [hstart, hwin]
    match a with
    | ⟨0, _⟩ => exact ⟨by omega, by have := idx2_lt0 j; show (0 : Int) + ((j 0).val : Int) < (16384 : Nat); omega⟩
    | ⟨1, _⟩ => exact ⟨by omega, by have := idx2_lt1 j; show (0 : Int) + ((j 1).val : Int) < (64 : Nat); omega⟩
  rw [dif_pos hin]
  congr 1
  funext a
  apply Fin.ext
  show (ScatterDims.start ⟨[0, 1], [], [1], 0, wf⟩ j idx0 a + (ScatterDims.window ⟨[0, 1], [], [1], 0, wf⟩ j a : Int)).toNat = _
  rw [hstart, hwin]
  match a with
  | ⟨0, _⟩ => show ((0 : Int) + ((j 0).val : Int)).toNat = (j 0).val; omega
  | ⟨1, _⟩ => show ((0 : Int) + ((j 1).val : Int)).toNat = (j 1).val; omega

/-- The scatter at the one start index zero adds the update into columns below twenty and leaves the others. -/
theorem scatter_at (sd : ScatterDims TBx64 T1 TBx20)
    (huw : sd.updateWindowDims = [0, 1]) (hiw : sd.insertedWindowDims = []) (hsd : sd.scatterDimsToOperandDims = [1])
    (hiv : sd.indexVectorDim = 0) (z : FVec Ideal TBx64 .f32) (u : FVec Ideal TBx20 .f32) (b : Fin 16384) (n : Fin 64) :
    scatterOf sd z u (ix2 b n) = z (ix2 b n) + (if h : n.val < 20 then u (ix2 b ⟨n.val, h⟩) else 0) := by
  have hres := resultIdx_eq sd huw hiw hsd hiv
  unfold scatterOf
  by_cases hn : n.val < 20
  · rw [dif_pos hn]
    have he : emb (ix2 b ⟨n.val, hn⟩) = ix2 b n := funext fun a => match a with | ⟨0, _⟩ => rfl | ⟨1, _⟩ => rfl
    exact scatter_hit sd FloatOps.addf z idx0 u (ix2 b n) (ix2 b ⟨n.val, hn⟩) (by rw [hres, he])
      (fun j hj => emb_injective ((Option.some.inj ((hres j).symm.trans hj)).trans he.symm))
  · rw [dif_neg hn, add_zero]
    refine scatter_miss sd FloatOps.addf z idx0 u (ix2 b n) fun j hj => ?_
    have e : emb j = ix2 b n := Option.some.inj ((hres j).symm.trans hj)
    have := emb_col_lt j
    rw [e] at this
    exact hn this

section Step
variable (d : DotDims TBx20 T20x20 TBx20)
  (hlb : d.lhsBatch = []) (hln : d.lhsNonContracting = [0]) (hlc : d.lhsContracting = [1])
  (hrb : d.rhsBatch = []) (hrn : d.rhsNonContracting = [1]) (hrc : d.rhsContracting = [0])
  (sd : ScatterDims TBx64 T1 TBx20)
  (huw : sd.updateWindowDims = [0, 1]) (hiw : sd.insertedWindowDims = []) (hsd : sd.scatterDimsToOperandDims = [1])
  (hiv : sd.indexVectorDim = 0)

include hlb hln hlc hrb hrn hrc huw hiw hsd hiv in
theorem evenStep_at (P : FVec Ideal T440 .f32) (z : FVec Ideal TBx64 .f32) (b : Fin 16384) (n : Fin 64) :
    evenStep d sd P z (ix2 b n) = stepRow true (cur1 P) (cur2 z b) n := by
  unfold evenStep
  rw [scatter_at sd huw hiw hsd hiv]
  unfold stepRow
  by_cases hn : n.val < 20
  · rw [dif_pos hn, dif_pos hn,
      upd_at d hlb hln hlc hrb hrn hrc true P _ _ (innerEven_at P) (outerEven_at P)]
  · rw [dif_neg hn, dif_neg hn]

include hlb hln hlc hrb hrn hrc huw hiw hsd hiv in
theorem oddStep_at (P : FVec Ideal T440 .f32) (z : FVec Ideal TBx64 .f32) (b : Fin 16384) (n : Fin 64) :
    oddStep d sd P z (ix2 b n) = stepRow false (cur1 P) (cur2 z b) n := by
  unfold oddStep
  rw [scatter_at sd huw hiw hsd hiv]
  unfold stepRow
  by_cases hn : n.val < 20
  · rw [dif_pos hn, dif_pos hn,
      upd_at d hlb hln hlc hrb hrn hrc false P _ _ (innerOdd_at P) (outerOdd_at P)]
  · rw [dif_neg hn, dif_neg hn]

end Step

end Cert.ReferenceIdeal.Step

end
-- ==== Proof.RefStep.lean ====
import proofs.«125444_j2207613190724_1_alg».proof.Proof.RefTerms
import proofs.«125444_j2207613190724_1_alg».proof.Proof.RefStepOps

noncomputable section

namespace Cert.ReferenceIdeal.Step

open Idealize.ShloMosaic Idealize.ShloMosaic.ValueIdx Cert.Sylvester Cert.ReferenceIdeal Cert.ReferenceIdeal.Facts₀
open Cert.ReferenceIdeal.Terms

variable [Facts]

/-- The last buffer an even step writes is the even step of its slice and the array before it, by opening the names. -/
theorem even_arr (P : FVec Ideal S440 .f32) (z : FVec Ideal S16384x64 .f32) :
    Terms.Step.s60 (Terms.Step.s20 P) (Terms.Step.s21 (Terms.Step.s11 P)) P z
      = evenStep dot_S16384x20_S20x20_S16384x20_1_0_0_1_n_n scatter_S16384x64_S1_S16384x20_01_n_1_0 P z := rfl

theorem odd_arr (P : FVec Ideal S440 .f32) (z : FVec Ideal S16384x64 .f32) :
    Terms.Step.s60 (Terms.Step.s21 (Terms.Step.s20 P)) (Terms.Step.s11 P) P z
      = oddStep dot_S16384x20_S20x20_S16384x20_1_0_0_1_n_n scatter_S16384x64_S1_S16384x20_01_n_1_0 P z := rfl

variable (k : Fin 8) (o : ℕ) (ho : o = 440 * k.val) (hs : S3520.Slices ![o] S440) (flow : FVec Ideal S3520 .f32)
  (z : FVec Ideal S16384x64 .f32) (b : Fin 16384)

include ho in
/-- An even step at the slice of 440 parameters from offset 440 k on, read on row b: step k of the specification on that row. -/
theorem even_row : cur2 (Terms.Step.s60 (Terms.Step.s20 (extractStridedSlice S440 ![o] flow hs))
      (Terms.Step.s21 (Terms.Step.s11 (extractStridedSlice S440 ![o] flow hs))) (extractStridedSlice S440 ![o] flow hs) z) b
    = stepRow true (paramSlice (cur1 flow) k) (cur2 z b) := by
  funext n
  show Terms.Step.s60 _ _ _ z (ix2 b n) = _
  rw [even_arr, evenStep_at _ rfl rfl rfl rfl rfl rfl _ rfl rfl rfl rfl, paramSlice_eq k o ho hs flow]

include ho in
theorem odd_row : cur2 (Terms.Step.s60 (Terms.Step.s21 (Terms.Step.s20 (extractStridedSlice S440 ![o] flow hs)))
      (Terms.Step.s11 (extractStridedSlice S440 ![o] flow hs)) (extractStridedSlice S440 ![o] flow hs) z) b
    = stepRow false (paramSlice (cur1 flow) k) (cur2 z b) := by
  funext n
  show Terms.Step.s60 _ _ _ z (ix2 b n) = _
  rw [odd_arr, oddStep_at _ rfl rfl rfl rfl rfl rfl _ rfl rfl rfl rfl, paramSlice_eq k o ho hs flow]

/-- The array after the eighth step, on row b, is the flow of the latent row: the eight steps in order, parities alternating. -/
theorem flow8_eq (A : Terms.Args) (b : Fin 16384) (n : Fin 64) :
    Terms.t_v268 A (ix2 b n) = Sylvester.flowRow (cur1 (Terms.t_v23 A)) (cur2 (Terms.t_v28 A) b) n := by
  show cur2 (Terms.t_v268 A) b n = _
  rw [show cur2 (t_v268 A) b = _ from odd_row 7 3080 rfl slices_S3520_S440_3080 (t_v23 A) (t_v238 A) b,
    show cur2 (t_v238 A) b = _ from even_row 6 2640 rfl slices_S3520_S440_2640 (t_v23 A) (t_v208 A) b,
    show cur2 (t_v208 A) b = _ from odd_row 5 2200 rfl slices_S3520_S440_2200 (t_v23 A) (t_v178 A) b,
    show cur2 (t_v178 A) b = _ from even_row 4 1760 rfl slices_S3520_S440_1760 (t_v23 A) (t_v148 A) b,
    show cur2 (t_v148 A) b = _ from odd_row 3 1320 rfl slices_S3520_S440_1320 (t_v23 A) (t_v118 A) b,
    show cur2 (t_v118 A) b = _ from even_row 2 880 rfl slices_S3520_S440_880 (t_v23 A) (t_v88 A) b,
    show cur2 (t_v88 A) b = _ from odd_row 1 440 rfl slices_S3520_S440_440 (t_v23 A) (t_v58 A) b,
    show cur2 (t_v58 A) b = _ from even_row 0 0 rfl slices_S3520_S440_0 (t_v23 A) (t_v28 A) b]
  rfl

end Cert.ReferenceIdeal.Step

end
-- ==== Proof.RefValue.lean ====
import proofs.«125444_j2207613190724_1_alg».proof.Proof.RefEncDecTerms
import proofs.«125444_j2207613190724_1_alg».proof.Proof.RefStep

noncomputable section

namespace Cert.ReferenceIdeal.Value

open Cert.ReferenceIdeal Cert.Sylvester
open Idealize.ShloMosaic Idealize.ShloMosaic.ValueIdx

variable [Facts]

theorem mu_eq (A : Terms.Args) : Terms.t_v10 A = affineArr A.x A.W1 A.b1 A.W21 A.b21 := Read.mu_eq A

theorem logvar_eq (A : Terms.Args) : Terms.t_v15 A = affineArr A.x A.W1 A.b1 A.W22 A.b22 := Read.logvar_eq A

theorem flowed_row (A : Terms.Args) (b : Fin 16384) :
    cur2 (Terms.t_v268 A) b
      = flowRow (flowVec A.x A.W1 A.b1 A.W23 A.b23)
          (latentRow (cur2 A.eps b) (cur2 (affineArr A.x A.W1 A.b1 A.W22 A.b22) b) (cur2 (affineArr A.x A.W1 A.b1 A.W21 A.b21) b)) := by
  have hf : cur1 (Terms.t_v23 A) = flowVec A.x A.W1 A.b1 A.W23 A.b23 := funext fun p => Read.flow_eq A p
  have hl : cur2 (Terms.t_v28 A) b
      = latentRow (cur2 A.eps b) (cur2 (affineArr A.x A.W1 A.b1 A.W22 A.b22) b) (cur2 (affineArr A.x A.W1 A.b1 A.W21 A.b21) b) := by
    funext n
    have h := Read.latent_eq A b n
    rw [Read.mu_eq A, Read.logvar_eq A] at h
    exact h
  funext n
  have h := Step.flow8_eq A b n
  rw [hf, hl] at h
  exact h

/-- Row by row: the decoder of the eight steps on the latent row, over the averaged parameters. -/
theorem recon_eq (A : Terms.Args) : Terms.t_v279 A = reconOf A.x A.eps A.W1 A.b1 A.W21 A.b21 A.W22 A.b22 A.W23 A.b23 A.W3 A.b3 A.W4 A.b4 := by
  funext i
  obtain ⟨b, d, rfl⟩ : ∃ (b : Fin 16384) (d : Fin 4096), i = ix2 b d := ⟨i 0, i 1, eq_ix2 i⟩
  rw [Read.decode_eq A b d, flowed_row A b]
  rfl

end Cert.ReferenceIdeal.Value

end
-- ==== Proof.lean ====
import proofs.«125444_j2207613190724_1_alg».proof.Defs
import proofs.«125444_j2207613190724_1_alg».proof.Proof.Gen.Kernel.Frame
import proofs.«125444_j2207613190724_1_alg».proof.Proof.Gen.KernelIdeal.Frame
import proofs.«125444_j2207613190724_1_alg».proof.Proof.Gen.ReferenceIdeal
import proofs.«125444_j2207613190724_1_alg».proof.Proof.Gen.Pre_finite_inputs
import proofs.«125444_j2207613190724_1_alg».proof.Proof.KernelRun
import proofs.«125444_j2207613190724_1_alg».proof.Proof.KernelValue
import proofs.«125444_j2207613190724_1_alg».proof.Proof.RefRun
import proofs.«125444_j2207613190724_1_alg».proof.Proof.RefValue

noncomputable section

namespace Cert.Proof

open Idealize.ShloMosaic Idealize.SL.Sem Cert.Sylvester

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.HandRun.run m ρ)

/-- Both runs end with their three results at one function of the arguments; no step needs the entries finite. -/
theorem algebraic : Cert.algebraic_KernelIdeal_ReferenceIdeal := by
  intro m ρ m' ρ' _ hagree
  refine ⟨_, _, _, (θ_run Cert.KernelIdeal.defs _ _).mono (fun r h c => ⟨(h c).1.trans (Cert.KernelIdeal.Value.recon m ρ c),
      (h c).2.1.trans (Cert.KernelIdeal.Value.mu m ρ c), (h c).2.2.1.trans (Cert.KernelIdeal.Value.logvar m ρ c), (h c).2.2.2⟩)
    (Cert.KernelIdeal.Named.run_named (F := Ideal) m ρ), ?_⟩
  refine (θ_run Cert.ReferenceIdeal.defs _ _).mono (fun r h c => ?_) (Cert.ReferenceIdeal.HandRun.run m' ρ')
  obtain ⟨h1, h2, h3, hargs⟩ := h c
  obtain ⟨a0, a1, a2, a3, a4, a5, a6, a7, a8, a9, a10, a11, a12, a13⟩ := hagree c
  refine ⟨h1.trans ?_, h2.trans ?_, h3.trans ?_, hargs⟩
  · rw [Cert.ReferenceIdeal.Value.recon_eq]
    simp only [Cert.ReferenceIdeal.HandRun.argsOf, a0, a1, a2, a3, a4, a5, a6, a7, a8, a9, a10, a11, a12, a13]
  · rw [Cert.ReferenceIdeal.Value.mu_eq]
    simp only [Cert.ReferenceIdeal.HandRun.argsOf, a0, a2, a3, a4, a5]
  · rw [Cert.ReferenceIdeal.Value.logvar_eq]
    simp only [Cert.ReferenceIdeal.HandRun.argsOf, a0, a2, a3, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
